-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 16384, 2048]⟩ ⟨3, ![2, 16384, 2048]⟩ (Layout.meshBlock [2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x16384x2048 : Shape := ⟨3, ![1, 16384, 2048]⟩
abbrev S_ : Shape := ⟨0, ![]⟩

class Facts : Prop where
  bcast_S_S1x16384x2048 : S_.BroadcastsInDim S1x16384x2048 (![] : Fin 0 → Fin S1x16384x2048.rank)
  reducesTo_S1x16384x2048_S_d0_1_2 : S1x16384x2048.ReducesTo [0, 1, 2] S_
  h_S_ : 0 < S_.numel

variable [Facts]

def fn {F : FTy → Type} [FloatOps F] (main_arg0 : FVec F S1x16384x2048 .f32) : IVec S_ 1 :=
  let main_v0 : FVec F S1x16384x2048 .f32 := Host.absf main_arg0
  let main_cst : FVec F S_ .f32 := constant S_ .f32 0x7F800000#32
  let main_v1 : FVec F S1x16384x2048 .f32 := broadcastInDim S1x16384x2048 ![] bcast_S_S1x16384x2048 main_cst
  let main_v2 : IVec S1x16384x2048 1 := cmpf .olt main_v0 main_v1
  let main_c : IVec S_ 1 := constantI S_ 1 1#1
  let main_v3 : IVec S_ 1 := (fun x v => Host.reduce IntOp.andi x v reducesTo_S1x16384x2048_S_d0_1_2 h_S_) main_v2 main_c
  main_v3
-- ==== Pre_finite_inputs_ReferenceIdeal.lean ====
abbrev S2x16384x2048 : Shape := ⟨3, ![2, 16384, 2048]⟩
abbrev S_ : Shape := ⟨0, ![]⟩

class Facts : Prop where
  bcast_S_S2x16384x2048 : S_.BroadcastsInDim S2x16384x2048 (![] : Fin 0 → Fin S2x16384x2048.rank)
  reducesTo_S2x16384x2048_S_d0_1_2 : S2x16384x2048.ReducesTo [0, 1, 2] S_
  h_S_ : 0 < S_.numel

variable [Facts]

def fn {F : FTy → Type} [FloatOps F] (main_arg0 : FVec F S2x16384x2048 .f32) : IVec S_ 1 :=
  let main_v0 : FVec F S2x16384x2048 .f32 := Host.absf main_arg0
  let main_cst : FVec F S_ .f32 := constant S_ .f32 0x7F800000#32
  let main_v1 : FVec F S2x16384x2048 .f32 := broadcastInDim S2x16384x2048 ![] bcast_S_S2x16384x2048 main_cst
  let main_v2 : IVec S2x16384x2048 1 := cmpf .olt main_v0 main_v1
  let main_c : IVec S_ 1 := constantI S_ 1 1#1
  let main_v3 : IVec S_ 1 := (fun x v => Host.reduce IntOp.andi x v reducesTo_S2x16384x2048_S_d0_1_2 h_S_) main_v2 main_c
  main_v3
-- ==== Kernel.lean ====
abbrev S1x16384x2048 : Shape := ⟨3, ![1, 16384, 2048]⟩
abbrev S16384x1024 : Shape := ⟨2, ![16384, 1024]⟩
abbrev S8192x1024 : Shape := ⟨2, ![8192, 1024]⟩
abbrev S4x512x1024 : Shape := ⟨3, ![4, 512, 1024]⟩
abbrev S16 : Shape := ⟨1, ![16]⟩
abbrev S4 : Shape := ⟨1, ![4]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 2
  | .vmem => 5
  | .smem => 0
  | _ => 0

abbrev bufTy : (tb : Table) → Fin (tcTables nBuf tb) → BufTy
  | .hbm, ⟨0, _⟩ => ⟨S1x16384x2048, .f32⟩
  | .hbm, ⟨1, _⟩ => ⟨S16384x1024, .bf16⟩
  | .local _ .vmem, ⟨0, _⟩ => ⟨S8192x1024, .bf16⟩
  | .local _ .vmem, ⟨1, _⟩ => ⟨S8192x1024, .bf16⟩
  | .local _ .vmem, ⟨2, _⟩ => ⟨S8192x1024, .bf16⟩
  | .local _ .vmem, ⟨3, _⟩ => ⟨S4x512x1024, .f32⟩
  | .local _ .vmem, ⟨4, _⟩ => ⟨S4x512x1024, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_15 : BitVec 32) : Fin 3 → Nat :=
  let c0_i32_16 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v17 : BitVec 32 := Scalar.muli v2 c8192_i32
  let v22 : BitVec 32 := Scalar.addi v17 c0_i32_15
  let c1_i32_13 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.subi c1_i32_13 v5
  let c1024_i32 : BitVec 32 := 1024#32
  let v20 : BitVec 32 := Scalar.muli v19 c1024_i32
  ![0, v22.toNat, v20.toNat]
def k0_dev3 (d0 : Dev nD) : Nat :=
  let c0_i32_38 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_37 : BitVec 32 := 2#32
  let v48 : BitVec 32 := Scalar.muli v2 c2_i32_37
  let v49 : BitVec 32 := Scalar.addi c0_i32_38 v48
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_39 : BitVec 32 := 1#32
  let v50 : BitVec 32 := Scalar.muli v6 c1_i32_39
  let v51 : BitVec 32 := Scalar.addi v49 v50
  v51.toNat
def k0_dev4 (d0 : Dev nD) : Nat :=
  let c0_i32_61 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_60 : BitVec 32 := 2#32
  let v77 : BitVec 32 := Scalar.muli v2 c2_i32_60
  let v78 : BitVec 32 := Scalar.addi c0_i32_61 v77
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_62 : BitVec 32 := 1#32
  let v79 : BitVec 32 := Scalar.muli v6 c1_i32_62
  let v80 : BitVec 32 := Scalar.addi v78 v79
  v80.toNat
def k0_dev5 (d0 : Dev nD) : Nat :=
  let c0_i32_84 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_83 : BitVec 32 := 2#32
  let v106 : BitVec 32 := Scalar.muli v2 c2_i32_83
  let v107 : BitVec 32 := Scalar.addi c0_i32_84 v106
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_85 : BitVec 32 := 1#32
  let v108 : BitVec 32 := Scalar.muli v6 c1_i32_85
  let v109 : BitVec 32 := Scalar.addi v107 v108
  v109.toNat
def k0_dev6 (d0 : Dev nD) : Nat :=
  let c0_i32_106 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_105 : BitVec 32 := 2#32
  let v135 : BitVec 32 := Scalar.muli v2 c2_i32_105
  let v136 : BitVec 32 := Scalar.addi c0_i32_106 v135
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_107 : BitVec 32 := 1#32
  let v137 : BitVec 32 := Scalar.muli v6 c1_i32_107
  let v138 : BitVec 32 := Scalar.addi v136 v137
  v138.toNat
def k0_dev7 (d0 : Dev nD) : Nat :=
  let c0_i32_128 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_127 : BitVec 32 := 2#32
  let v164 : BitVec 32 := Scalar.muli v2 c2_i32_127
  let v165 : BitVec 32 := Scalar.addi c0_i32_128 v164
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_129 : BitVec 32 := 1#32
  let v166 : BitVec 32 := Scalar.muli v6 c1_i32_129
  let v167 : BitVec 32 := Scalar.addi v165 v166
  v167.toNat
def k0_dev8 (d0 : Dev nD) : Nat :=
  let c0_i32_150 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_149 : BitVec 32 := 2#32
  let v193 : BitVec 32 := Scalar.muli v2 c2_i32_149
  let v194 : BitVec 32 := Scalar.addi c0_i32_150 v193
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_151 : BitVec 32 := 1#32
  let v195 : BitVec 32 := Scalar.muli v6 c1_i32_151
  let v196 : BitVec 32 := Scalar.addi v194 v195
  v196.toNat
def k0_dev9 (d0 : Dev nD) : Nat :=
  let c0_i32_172 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_171 : BitVec 32 := 2#32
  let v222 : BitVec 32 := Scalar.muli v2 c2_i32_171
  let v223 : BitVec 32 := Scalar.addi c0_i32_172 v222
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_173 : BitVec 32 := 1#32
  let v224 : BitVec 32 := Scalar.muli v6 c1_i32_173
  let v225 : BitVec 32 := Scalar.addi v223 v224
  v225.toNat
def k0_dev10 (d0 : Dev nD) : Nat :=
  let c0_i32_194 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_193 : BitVec 32 := 2#32
  let v251 : BitVec 32 := Scalar.muli v2 c2_i32_193
  let v252 : BitVec 32 := Scalar.addi c0_i32_194 v251
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_195 : BitVec 32 := 1#32
  let v253 : BitVec 32 := Scalar.muli v6 c1_i32_195
  let v254 : BitVec 32 := Scalar.addi v252 v253
  v254.toNat
def k0_dev11 (d0 : Dev nD) : Nat :=
  let c0_i32_216 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_215 : BitVec 32 := 2#32
  let v280 : BitVec 32 := Scalar.muli v2 c2_i32_215
  let v281 : BitVec 32 := Scalar.addi c0_i32_216 v280
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_217 : BitVec 32 := 1#32
  let v282 : BitVec 32 := Scalar.muli v6 c1_i32_217
  let v283 : BitVec 32 := Scalar.addi v281 v282
  v283.toNat
def k0_dev12 (d0 : Dev nD) : Nat :=
  let c0_i32_238 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_237 : BitVec 32 := 2#32
  let v309 : BitVec 32 := Scalar.muli v2 c2_i32_237
  let v310 : BitVec 32 := Scalar.addi c0_i32_238 v309
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_239 : BitVec 32 := 1#32
  let v311 : BitVec 32 := Scalar.muli v6 c1_i32_239
  let v312 : BitVec 32 := Scalar.addi v310 v311
  v312.toNat
def k0_dev13 (d0 : Dev nD) : Nat :=
  let c0_i32_260 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_259 : BitVec 32 := 2#32
  let v338 : BitVec 32 := Scalar.muli v2 c2_i32_259
  let v339 : BitVec 32 := Scalar.addi c0_i32_260 v338
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_261 : BitVec 32 := 1#32
  let v340 : BitVec 32 := Scalar.muli v6 c1_i32_261
  let v341 : BitVec 32 := Scalar.addi v339 v340
  v341.toNat
def k0_dev14 (d0 : Dev nD) : Nat :=
  let c0_i32_282 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_281 : BitVec 32 := 2#32
  let v367 : BitVec 32 := Scalar.muli v2 c2_i32_281
  let v368 : BitVec 32 := Scalar.addi c0_i32_282 v367
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_283 : BitVec 32 := 1#32
  let v369 : BitVec 32 := Scalar.muli v6 c1_i32_283
  let v370 : BitVec 32 := Scalar.addi v368 v369
  v370.toNat
def k0_dev15 (d0 : Dev nD) : Nat :=
  let c0_i32_304 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_303 : BitVec 32 := 2#32
  let v396 : BitVec 32 := Scalar.muli v2 c2_i32_303
  let v397 : BitVec 32 := Scalar.addi c0_i32_304 v396
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_305 : BitVec 32 := 1#32
  let v398 : BitVec 32 := Scalar.muli v6 c1_i32_305
  let v399 : BitVec 32 := Scalar.addi v397 v398
  v399.toNat
def k0_dev16 (d0 : Dev nD) : Nat :=
  let c0_i32_326 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_325 : BitVec 32 := 2#32
  let v425 : BitVec 32 := Scalar.muli v2 c2_i32_325
  let v426 : BitVec 32 := Scalar.addi c0_i32_326 v425
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_327 : BitVec 32 := 1#32
  let v427 : BitVec 32 := Scalar.muli v6 c1_i32_327
  let v428 : BitVec 32 := Scalar.addi v426 v427
  v428.toNat
def k0_dev17 (d0 : Dev nD) : Nat :=
  let c0_i32_348 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_347 : BitVec 32 := 2#32
  let v454 : BitVec 32 := Scalar.muli v2 c2_i32_347
  let v455 : BitVec 32 := Scalar.addi c0_i32_348 v454
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_349 : BitVec 32 := 1#32
  let v456 : BitVec 32 := Scalar.muli v6 c1_i32_349
  let v457 : BitVec 32 := Scalar.addi v455 v456
  v457.toNat
def k0_dev18 (d0 : Dev nD) : Nat :=
  let c0_i32_365 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_364 : BitVec 32 := 2#32
  let v476 : BitVec 32 := Scalar.muli v2 c2_i32_364
  let v477 : BitVec 32 := Scalar.addi c0_i32_365 v476
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_366 : BitVec 32 := 1#32
  let v478 : BitVec 32 := Scalar.muli v6 c1_i32_366
  let v479 : BitVec 32 := Scalar.addi v477 v478
  v479.toNat
def k0_off2 (d0 : Dev nD) (c0_i32_371 : BitVec 32) : Fin 3 → Nat :=
  let c0_i32_372 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v17 : BitVec 32 := Scalar.muli v2 c8192_i32
  let v486 : BitVec 32 := Scalar.addi v17 c0_i32_371
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_14 : BitVec 32 := 1024#32
  let v21 : BitVec 32 := Scalar.muli v5 c1024_i32_14
  ![0, v486.toNat, v21.toNat]
def k0_off3 (d0 : Dev nD) (c0_i32_377 : BitVec 32) : Fin 3 → Nat :=
  let c0_i32_378 : BitVec 32 := 0#32
  let c8192_i32_12 : BitVec 32 := 8192#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v17 : BitVec 32 := Scalar.muli v2 c8192_i32
  let v18 : BitVec 32 := Scalar.subi c8192_i32_12 v17
  let v493 : BitVec 32 := Scalar.addi v18 c0_i32_377
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_14 : BitVec 32 := 1024#32
  let v21 : BitVec 32 := Scalar.muli v5 c1024_i32_14
  ![0, v493.toNat, v21.toNat]
def k0_dev19 (d0 : Dev nD) : Nat :=
  let c0_i32_395 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_394 : BitVec 32 := 2#32
  let v508 : BitVec 32 := Scalar.muli v7 c2_i32_394
  let v509 : BitVec 32 := Scalar.addi c0_i32_395 v508
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_396 : BitVec 32 := 1#32
  let v510 : BitVec 32 := Scalar.muli v5 c1_i32_396
  let v511 : BitVec 32 := Scalar.addi v509 v510
  v511.toNat
def k0_off4 (d0 : Dev nD) (c0_i32_420 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v17 : BitVec 32 := Scalar.muli v2 c8192_i32
  let v540 : BitVec 32 := Scalar.addi v17 c0_i32_420
  let c0_i32_423 : BitVec 32 := 0#32
  ![v540.toNat, 0]
def k0_dev20 (d0 : Dev nD) : Nat :=
  let c0_i32_438 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_437 : BitVec 32 := 2#32
  let v554 : BitVec 32 := Scalar.muli v7 c2_i32_437
  let v555 : BitVec 32 := Scalar.addi c0_i32_438 v554
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_439 : BitVec 32 := 1#32
  let v556 : BitVec 32 := Scalar.muli v5 c1_i32_439
  let v557 : BitVec 32 := Scalar.addi v555 v556
  v557.toNat
def k0_off5 (d0 : Dev nD) (c0_i32_496 : BitVec 32) : Fin 2 → Nat :=
  let c8192_i32_12 : BitVec 32 := 8192#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v17 : BitVec 32 := Scalar.muli v2 c8192_i32
  let v18 : BitVec 32 := Scalar.subi c8192_i32_12 v17
  let v622 : BitVec 32 := Scalar.addi v18 c0_i32_496
  let c0_i32_499 : BitVec 32 := 0#32
  ![v622.toNat, 0]
def k0_dev21 (d0 : Dev nD) : Nat :=
  let c0_i32_514 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_513 : BitVec 32 := 2#32
  let v636 : BitVec 32 := Scalar.muli v7 c2_i32_513
  let v637 : BitVec 32 := Scalar.addi c0_i32_514 v636
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_515 : BitVec 32 := 1#32
  let v638 : BitVec 32 := Scalar.muli v5 c1_i32_515
  let v639 : BitVec 32 := Scalar.addi v637 v638
  v639.toNat
def k0_dev22 (d0 : Dev nD) : Nat :=
  let c0_i32_595 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_594 : BitVec 32 := 2#32
  let v723 : BitVec 32 := Scalar.muli v7 c2_i32_594
  let v724 : BitVec 32 := Scalar.addi c0_i32_595 v723
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_596 : BitVec 32 := 1#32
  let v725 : BitVec 32 := Scalar.muli v5 c1_i32_596
  let v726 : BitVec 32 := Scalar.addi v724 v725
  v726.toNat
def k0_dev23 (d0 : Dev nD) : Nat :=
  let c0_i32_682 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_681 : BitVec 32 := 2#32
  let v815 : BitVec 32 := Scalar.muli v7 c2_i32_681
  let v816 : BitVec 32 := Scalar.addi c0_i32_682 v815
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_683 : BitVec 32 := 1#32
  let v817 : BitVec 32 := Scalar.muli v5 c1_i32_683
  let v818 : BitVec 32 := Scalar.addi v816 v817
  v818.toNat
def k0_dev24 (d0 : Dev nD) : Nat :=
  let c0_i32_769 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_768 : BitVec 32 := 2#32
  let v907 : BitVec 32 := Scalar.muli v7 c2_i32_768
  let v908 : BitVec 32 := Scalar.addi c0_i32_769 v907
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_770 : BitVec 32 := 1#32
  let v909 : BitVec 32 := Scalar.muli v5 c1_i32_770
  let v910 : BitVec 32 := Scalar.addi v908 v909
  v910.toNat
def k0_dev25 (d0 : Dev nD) : Nat :=
  let c0_i32_856 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_855 : BitVec 32 := 2#32
  let v999 : BitVec 32 := Scalar.muli v7 c2_i32_855
  let v1000 : BitVec 32 := Scalar.addi c0_i32_856 v999
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_857 : BitVec 32 := 1#32
  let v1001 : BitVec 32 := Scalar.muli v5 c1_i32_857
  let v1002 : BitVec 32 := Scalar.addi v1000 v1001
  v1002.toNat
def k0_dev26 (d0 : Dev nD) : Nat :=
  let c0_i32_943 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_942 : BitVec 32 := 2#32
  let v1091 : BitVec 32 := Scalar.muli v7 c2_i32_942
  let v1092 : BitVec 32 := Scalar.addi c0_i32_943 v1091
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_944 : BitVec 32 := 1#32
  let v1093 : BitVec 32 := Scalar.muli v5 c1_i32_944
  let v1094 : BitVec 32 := Scalar.addi v1092 v1093
  v1094.toNat
def k0_dev27 (d0 : Dev nD) : Nat :=
  let c0_i32_1030 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1029 : BitVec 32 := 2#32
  let v1183 : BitVec 32 := Scalar.muli v7 c2_i32_1029
  let v1184 : BitVec 32 := Scalar.addi c0_i32_1030 v1183
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1031 : BitVec 32 := 1#32
  let v1185 : BitVec 32 := Scalar.muli v5 c1_i32_1031
  let v1186 : BitVec 32 := Scalar.addi v1184 v1185
  v1186.toNat
def k0_dev28 (d0 : Dev nD) : Nat :=
  let c0_i32_1117 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1116 : BitVec 32 := 2#32
  let v1275 : BitVec 32 := Scalar.muli v7 c2_i32_1116
  let v1276 : BitVec 32 := Scalar.addi c0_i32_1117 v1275
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1118 : BitVec 32 := 1#32
  let v1277 : BitVec 32 := Scalar.muli v5 c1_i32_1118
  let v1278 : BitVec 32 := Scalar.addi v1276 v1277
  v1278.toNat
def k0_dev29 (d0 : Dev nD) : Nat :=
  let c0_i32_1204 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1203 : BitVec 32 := 2#32
  let v1367 : BitVec 32 := Scalar.muli v7 c2_i32_1203
  let v1368 : BitVec 32 := Scalar.addi c0_i32_1204 v1367
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1205 : BitVec 32 := 1#32
  let v1369 : BitVec 32 := Scalar.muli v5 c1_i32_1205
  let v1370 : BitVec 32 := Scalar.addi v1368 v1369
  v1370.toNat
def k0_dev30 (d0 : Dev nD) : Nat :=
  let c0_i32_1291 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1290 : BitVec 32 := 2#32
  let v1459 : BitVec 32 := Scalar.muli v7 c2_i32_1290
  let v1460 : BitVec 32 := Scalar.addi c0_i32_1291 v1459
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1292 : BitVec 32 := 1#32
  let v1461 : BitVec 32 := Scalar.muli v5 c1_i32_1292
  let v1462 : BitVec 32 := Scalar.addi v1460 v1461
  v1462.toNat
def k0_dev31 (d0 : Dev nD) : Nat :=
  let c0_i32_1378 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1377 : BitVec 32 := 2#32
  let v1551 : BitVec 32 := Scalar.muli v7 c2_i32_1377
  let v1552 : BitVec 32 := Scalar.addi c0_i32_1378 v1551
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1379 : BitVec 32 := 1#32
  let v1553 : BitVec 32 := Scalar.muli v5 c1_i32_1379
  let v1554 : BitVec 32 := Scalar.addi v1552 v1553
  v1554.toNat
def k0_dev32 (d0 : Dev nD) : Nat :=
  let c0_i32_1465 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1464 : BitVec 32 := 2#32
  let v1643 : BitVec 32 := Scalar.muli v7 c2_i32_1464
  let v1644 : BitVec 32 := Scalar.addi c0_i32_1465 v1643
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1466 : BitVec 32 := 1#32
  let v1645 : BitVec 32 := Scalar.muli v5 c1_i32_1466
  let v1646 : BitVec 32 := Scalar.addi v1644 v1645
  v1646.toNat
def k0_dev33 (d0 : Dev nD) : Nat :=
  let c0_i32_1552 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1551 : BitVec 32 := 2#32
  let v1735 : BitVec 32 := Scalar.muli v7 c2_i32_1551
  let v1736 : BitVec 32 := Scalar.addi c0_i32_1552 v1735
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1553 : BitVec 32 := 1#32
  let v1737 : BitVec 32 := Scalar.muli v5 c1_i32_1553
  let v1738 : BitVec 32 := Scalar.addi v1736 v1737
  v1738.toNat
def k0_dev34 (d0 : Dev nD) : Nat :=
  let c0_i32_1639 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1638 : BitVec 32 := 2#32
  let v1827 : BitVec 32 := Scalar.muli v7 c2_i32_1638
  let v1828 : BitVec 32 := Scalar.addi c0_i32_1639 v1827
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1640 : BitVec 32 := 1#32
  let v1829 : BitVec 32 := Scalar.muli v5 c1_i32_1640
  let v1830 : BitVec 32 := Scalar.addi v1828 v1829
  v1830.toNat

class Facts₀ : Prop where
  hamt_1 : (1#32 : BitVec 32).msb = false
  hamt_2 : (2#32 : BitVec 32).msb = false
  inb_S4_S1_0 : ∀ a, (![0] : Fin 1 → Nat) a + S1.size a ≤ S4.size a
  squeezes_S1_S_ : S1.Squeezes S_
  inb_S4x512x1024_S1x512x1024_0_0_0 : ∀ a, (![0, 0, 0] : Fin 3 → Nat) a + S1x512x1024.size a ≤ S4x512x1024.size a
  squeezes_S1x512x1024_S512x1024 : S1x512x1024.Squeezes S512x1024
  inb_S4_S1_1 : ∀ a, (![1] : Fin 1 → Nat) a + S1.size a ≤ S4.size a
  inb_S4x512x1024_S1x512x1024_1_0_0 : ∀ a, (![1, 0, 0] : Fin 3 → Nat) a + S1x512x1024.size a ≤ S4x512x1024.size a
  h_S1x512x1024 : 0 < S1x512x1024.numel
  shapeCasts_S1x512x1024_S512x1024 : S1x512x1024.ShapeCasts S512x1024
  bitsLt_bf16_f32 : FTy.bits .bf16 < FTy.bits .f32
  inb_S8192x1024_S512x1024_0_0 : ∀ a, (![0, 0] : Fin 2 → Nat) a + S512x1024.size a ≤ S8192x1024.size a
  h_S512x1024 : 0 < S512x1024.numel
  shapeCasts_S512x1024_S512x1024 : S512x1024.ShapeCasts S512x1024
  packedbf16_S8192x1024_S512x1024_0_0 : (Rect.unit (s := S8192x1024) ![0, 0] S512x1024.size inb_S8192x1024_S512x1024_0_0).PackedRows (EltTy.packing .bf16)
  inb_S16_S1_0 : ∀ a, (![0] : Fin 1 → Nat) a + S1.size a ≤ S16.size a
  wordsbf16_S8192x1024_S512x1024_0_0 : (Rect.unit (s := S8192x1024) ![0, 0] S512x1024.size inb_S8192x1024_S512x1024_0_0).WholeWords (EltTy.packing .bf16)
  inb_S8192x1024_S512x1024_512_0 : ∀ a, (![512, 0] : Fin 2 → Nat) a + S512x1024.size a ≤ S8192x1024.size a
  packedbf16_S8192x1024_S512x1024_512_0 : (Rect.unit (s := S8192x1024) ![512, 0] S512x1024.size inb_S8192x1024_S512x1024_512_0).PackedRows (EltTy.packing .bf16)
  inb_S16_S1_1 : ∀ a, (![1] : Fin 1 → Nat) a + S1.size a ≤ S16.size a
  wordsbf16_S8192x1024_S512x1024_512_0 : (Rect.unit (s := S8192x1024) ![512, 0] S512x1024.size inb_S8192x1024_S512x1024_512_0).WholeWords (EltTy.packing .bf16)
  inb_S8192x1024_S512x1024_1024_0 : ∀ a, (![1024, 0] : Fin 2 → Nat) a + S512x1024.size a ≤ S8192x1024.size a
  packedbf16_S8192x1024_S512x1024_1024_0 : (Rect.unit (s := S8192x1024) ![1024, 0] S512x1024.size inb_S8192x1024_S512x1024_1024_0).PackedRows (EltTy.packing .bf16)
  inb_S16_S1_2 : ∀ a, (![2] : Fin 1 → Nat) a + S1.size a ≤ S16.size a
  wordsbf16_S8192x1024_S512x1024_1024_0 : (Rect.unit (s := S8192x1024) ![1024, 0] S512x1024.size inb_S8192x1024_S512x1024_1024_0).WholeWords (EltTy.packing .bf16)
  inb_S8192x1024_S512x1024_1536_0 : ∀ a, (![1536, 0] : Fin 2 → Nat) a + S512x1024.size a ≤ S8192x1024.size a
  packedbf16_S8192x1024_S512x1024_1536_0 : (Rect.unit (s := S8192x1024) ![1536, 0] S512x1024.size inb_S8192x1024_S512x1024_1536_0).PackedRows (EltTy.packing .bf16)
  inb_S16_S1_3 : ∀ a, (![3] : Fin 1 → Nat) a + S1.size a ≤ S16.size a
  wordsbf16_S8192x1024_S512x1024_1536_0 : (Rect.unit (s := S8192x1024) ![1536, 0] S512x1024.size inb_S8192x1024_S512x1024_1536_0).WholeWords (EltTy.packing .bf16)
  inb_S8192x1024_S512x1024_2048_0 : ∀ a, (![2048, 0] : Fin 2 → Nat) a + S512x1024.size a ≤ S8192x1024.size a
  packedbf16_S8192x1024_S512x1024_2048_0 : (Rect.unit (s := S8192x1024) ![2048, 0] S512x1024.size inb_S8192x1024_S512x1024_2048_0).PackedRows (EltTy.packing .bf16)
  inb_S16_S1_4 : ∀ a, (![4] : Fin 1 → Nat) a + S1.size a ≤ S16.size a
  wordsbf16_S8192x1024_S512x1024_2048_0 : (Rect.unit (s := S8192x1024) ![2048, 0] S512x1024.size inb_S8192x1024_S512x1024_2048_0).WholeWords (EltTy.packing .bf16)
  inb_S8192x1024_S512x1024_2560_0 : ∀ a, (![2560, 0] : Fin 2 → Nat) a + S512x1024.size a ≤ S8192x1024.size a
  packedbf16_S8192x1024_S512x1024_2560_0 : (Rect.unit (s := S8192x1024) ![2560, 0] S512x1024.size inb_S8192x1024_S512x1024_2560_0).PackedRows (EltTy.packing .bf16)
  inb_S16_S1_5 : ∀ a, (![5] : Fin 1 → Nat) a + S1.size a ≤ S16.size a
  wordsbf16_S8192x1024_S512x1024_2560_0 : (Rect.unit (s := S8192x1024) ![2560, 0] S512x1024.size inb_S8192x1024_S512x1024_2560_0).WholeWords (EltTy.packing .bf16)
  inb_S8192x1024_S512x1024_3072_0 : ∀ a, (![3072, 0] : Fin 2 → Nat) a + S512x1024.size a ≤ S8192x1024.size a
  packedbf16_S8192x1024_S512x1024_3072_0 : (Rect.unit (s := S8192x1024) ![3072, 0] S512x1024.size inb_S8192x1024_S512x1024_3072_0).PackedRows (EltTy.packing .bf16)
  inb_S16_S1_6 : ∀ a, (![6] : Fin 1 → Nat) a + S1.size a ≤ S16.size a
  wordsbf16_S8192x1024_S512x1024_3072_0 : (Rect.unit (s := S8192x1024) ![3072, 0] S512x1024.size inb_S8192x1024_S512x1024_3072_0).WholeWords (EltTy.packing .bf16)
  inb_S8192x1024_S512x1024_3584_0 : ∀ a, (![3584, 0] : Fin 2 → Nat) a + S512x1024.size a ≤ S8192x1024.size a
  packedbf16_S8192x1024_S512x1024_3584_0 : (Rect.unit (s := S8192x1024) ![3584, 0] S512x1024.size inb_S8192x1024_S512x1024_3584_0).PackedRows (EltTy.packing .bf16)
  inb_S16_S1_7 : ∀ a, (![7] : Fin 1 → Nat) a + S1.size a ≤ S16.size a
  wordsbf16_S8192x1024_S512x1024_3584_0 : (Rect.unit (s := S8192x1024) ![3584, 0] S512x1024.size inb_S8192x1024_S512x1024_3584_0).WholeWords (EltTy.packing .bf16)
  inb_S8192x1024_S512x1024_4096_0 : ∀ a, (![4096, 0] : Fin 2 → Nat) a + S512x1024.size a ≤ S8192x1024.size a
  packedbf16_S8192x1024_S512x1024_4096_0 : (Rect.unit (s := S8192x1024) ![4096, 0] S512x1024.size inb_S8192x1024_S512x1024_4096_0).PackedRows (EltTy.packing .bf16)
  inb_S16_S1_8 : ∀ a, (![8] : Fin 1 → Nat) a + S1.size a ≤ S16.size a
  wordsbf16_S8192x1024_S512x1024_4096_0 : (Rect.unit (s := S8192x1024) ![4096, 0] S512x1024.size inb_S8192x1024_S512x1024_4096_0).WholeWords (EltTy.packing .bf16)
  inb_S8192x1024_S512x1024_4608_0 : ∀ a, (![4608, 0] : Fin 2 → Nat) a + S512x1024.size a ≤ S8192x1024.size a
  packedbf16_S8192x1024_S512x1024_4608_0 : (Rect.unit (s := S8192x1024) ![4608, 0] S512x1024.size inb_S8192x1024_S512x1024_4608_0).PackedRows (EltTy.packing .bf16)
  inb_S16_S1_9 : ∀ a, (![9] : Fin 1 → Nat) a + S1.size a ≤ S16.size a
  wordsbf16_S8192x1024_S512x1024_4608_0 : (Rect.unit (s := S8192x1024) ![4608, 0] S512x1024.size inb_S8192x1024_S512x1024_4608_0).WholeWords (EltTy.packing .bf16)
  inb_S8192x1024_S512x1024_5120_0 : ∀ a, (![5120, 0] : Fin 2 → Nat) a + S512x1024.size a ≤ S8192x1024.size a
  packedbf16_S8192x1024_S512x1024_5120_0 : (Rect.unit (s := S8192x1024) ![5120, 0] S512x1024.size inb_S8192x1024_S512x1024_5120_0).PackedRows (EltTy.packing .bf16)
  inb_S16_S1_10 : ∀ a, (![10] : Fin 1 → Nat) a + S1.size a ≤ S16.size a
  wordsbf16_S8192x1024_S512x1024_5120_0 : (Rect.unit (s := S8192x1024) ![5120, 0] S512x1024.size inb_S8192x1024_S512x1024_5120_0).WholeWords (EltTy.packing .bf16)
  inb_S8192x1024_S512x1024_5632_0 : ∀ a, (![5632, 0] : Fin 2 → Nat) a + S512x1024.size a ≤ S8192x1024.size a
  packedbf16_S8192x1024_S512x1024_5632_0 : (Rect.unit (s := S8192x1024) ![5632, 0] S512x1024.size inb_S8192x1024_S512x1024_5632_0).PackedRows (EltTy.packing .bf16)
  inb_S16_S1_11 : ∀ a, (![11] : Fin 1 → Nat) a + S1.size a ≤ S16.size a
  wordsbf16_S8192x1024_S512x1024_5632_0 : (Rect.unit (s := S8192x1024) ![5632, 0] S512x1024.size inb_S8192x1024_S512x1024_5632_0).WholeWords (EltTy.packing .bf16)
  inb_S8192x1024_S512x1024_6144_0 : ∀ a, (![6144, 0] : Fin 2 → Nat) a + S512x1024.size a ≤ S8192x1024.size a
  packedbf16_S8192x1024_S512x1024_6144_0 : (Rect.unit (s := S8192x1024) ![6144, 0] S512x1024.size inb_S8192x1024_S512x1024_6144_0).PackedRows (EltTy.packing .bf16)
  inb_S16_S1_12 : ∀ a, (![12] : Fin 1 → Nat) a + S1.size a ≤ S16.size a
  wordsbf16_S8192x1024_S512x1024_6144_0 : (Rect.unit (s := S8192x1024) ![6144, 0] S512x1024.size inb_S8192x1024_S512x1024_6144_0).WholeWords (EltTy.packing .bf16)
  inb_S8192x1024_S512x1024_6656_0 : ∀ a, (![6656, 0] : Fin 2 → Nat) a + S512x1024.size a ≤ S8192x1024.size a
  packedbf16_S8192x1024_S512x1024_6656_0 : (Rect.unit (s := S8192x1024) ![6656, 0] S512x1024.size inb_S8192x1024_S512x1024_6656_0).PackedRows (EltTy.packing .bf16)
  inb_S16_S1_13 : ∀ a, (![13] : Fin 1 → Nat) a + S1.size a ≤ S16.size a
  wordsbf16_S8192x1024_S512x1024_6656_0 : (Rect.unit (s := S8192x1024) ![6656, 0] S512x1024.size inb_S8192x1024_S512x1024_6656_0).WholeWords (EltTy.packing .bf16)
  inb_S8192x1024_S512x1024_7168_0 : ∀ a, (![7168, 0] : Fin 2 → Nat) a + S512x1024.size a ≤ S8192x1024.size a
  packedbf16_S8192x1024_S512x1024_7168_0 : (Rect.unit (s := S8192x1024) ![7168, 0] S512x1024.size inb_S8192x1024_S512x1024_7168_0).PackedRows (EltTy.packing .bf16)
  inb_S16_S1_14 : ∀ a, (![14] : Fin 1 → Nat) a + S1.size a ≤ S16.size a
  wordsbf16_S8192x1024_S512x1024_7168_0 : (Rect.unit (s := S8192x1024) ![7168, 0] S512x1024.size inb_S8192x1024_S512x1024_7168_0).WholeWords (EltTy.packing .bf16)
  inb_S8192x1024_S512x1024_7680_0 : ∀ a, (![7680, 0] : Fin 2 → Nat) a + S512x1024.size a ≤ S8192x1024.size a
  packedbf16_S8192x1024_S512x1024_7680_0 : (Rect.unit (s := S8192x1024) ![7680, 0] S512x1024.size inb_S8192x1024_S512x1024_7680_0).PackedRows (EltTy.packing .bf16)
  inb_S16_S1_15 : ∀ a, (![15] : Fin 1 → Nat) a + S1.size a ≤ S16.size a
  wordsbf16_S8192x1024_S512x1024_7680_0 : (Rect.unit (s := S8192x1024) ![7680, 0] S512x1024.size inb_S8192x1024_S512x1024_7680_0).WholeWords (EltTy.packing .bf16)
  inb_S4_S1_2 : ∀ a, (![2] : Fin 1 → Nat) a + S1.size a ≤ S4.size a
  inb_S4x512x1024_S1x512x1024_2_0_0 : ∀ a, (![2, 0, 0] : Fin 3 → Nat) a + S1x512x1024.size a ≤ S4x512x1024.size a
  shapeCasts_S512x1024_S1x512x1024 : S512x1024.ShapeCasts S1x512x1024
  packedbf16_S4x512x1024_S1x512x1024_0_0_0 : (Rect.unit (s := S4x512x1024) ![0, 0, 0] S1x512x1024.size inb_S4x512x1024_S1x512x1024_0_0_0).PackedRows (EltTy.packing .bf16)
  wordsbf16_S4x512x1024_S1x512x1024_0_0_0 : (Rect.unit (s := S4x512x1024) ![0, 0, 0] S1x512x1024.size inb_S4x512x1024_S1x512x1024_0_0_0).WholeWords (EltTy.packing .bf16)
  packedbf16_S4x512x1024_S1x512x1024_1_0_0 : (Rect.unit (s := S4x512x1024) ![1, 0, 0] S1x512x1024.size inb_S4x512x1024_S1x512x1024_1_0_0).PackedRows (EltTy.packing .bf16)
  wordsbf16_S4x512x1024_S1x512x1024_1_0_0 : (Rect.unit (s := S4x512x1024) ![1, 0, 0] S1x512x1024.size inb_S4x512x1024_S1x512x1024_1_0_0).WholeWords (EltTy.packing .bf16)
  inb_S4_S1_3 : ∀ a, (![3] : Fin 1 → Nat) a + S1.size a ≤ S4.size a
  inb_S4x512x1024_S1x512x1024_3_0_0 : ∀ a, (![3, 0, 0] : Fin 3 → Nat) a + S1x512x1024.size a ≤ S4x512x1024.size a
  packedbf16_S4x512x1024_S1x512x1024_2_0_0 : (Rect.unit (s := S4x512x1024) ![2, 0, 0] S1x512x1024.size inb_S4x512x1024_S1x512x1024_2_0_0).PackedRows (EltTy.packing .bf16)
  wordsbf16_S4x512x1024_S1x512x1024_2_0_0 : (Rect.unit (s := S4x512x1024) ![2, 0, 0] S1x512x1024.size inb_S4x512x1024_S1x512x1024_2_0_0).WholeWords (EltTy.packing .bf16)
  packedbf16_S4x512x1024_S1x512x1024_3_0_0 : (Rect.unit (s := S4x512x1024) ![3, 0, 0] S1x512x1024.size inb_S4x512x1024_S1x512x1024_3_0_0).PackedRows (EltTy.packing .bf16)
  wordsbf16_S4x512x1024_S1x512x1024_3_0_0 : (Rect.unit (s := S4x512x1024) ![3, 0, 0] S1x512x1024.size inb_S4x512x1024_S1x512x1024_3_0_0).WholeWords (EltTy.packing .bf16)
  hcc0_scratch5 : 0 + S16.numel ≤ 72
  hcc0_scratch6 : 16 + S16.numel ≤ 72
  hcc0_scratch7 : 32 + S16.numel ≤ 72
  hcc0_scratch8 : 48 + S16.numel ≤ 72
  hcc0_scratch9 : 64 + S4.numel ≤ 72
  hcc0_scratch10 : 68 + S4.numel ≤ 72
  k0_dev1_lt : ∀ d0 : Dev nD, (k0_dev1 d0) < nD
  k0_dev2_lt : ∀ d0 : Dev nD, (k0_dev2 d0) < nD
  k0_off1_inb : ∀ d0 : Dev nD, ∀ (r : Fin 16), ∀ a, (k0_off1 d0 (BitVec.ofNat 32 (512 * r.val))) a + S1x512x1024.size a ≤ S1x16384x2048.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off2_inb : ∀ d0 : Dev nD, ∀ (r : Fin 16), ∀ a, (k0_off2 d0 (BitVec.ofNat 32 (512 * r.val))) a + S1x512x1024.size a ≤ S1x16384x2048.size a
  k0_off3_inb : ∀ d0 : Dev nD, ∀ (r : Fin 16), ∀ a, (k0_off3 d0 (BitVec.ofNat 32 (512 * r.val))) a + S1x512x1024.size a ≤ S1x16384x2048.size a
  k0_dev19_lt : ∀ d0 : Dev nD, (k0_dev19 d0) < nD
  k0_off4_inb : ∀ d0 : Dev nD, ∀ (r : Fin 16), ∀ a, (k0_off4 d0 (BitVec.ofNat 32 (512 * r.val))) a + S512x1024.size a ≤ S16384x1024.size a
  k0_off4_wordsbf16 : ∀ d0 : Dev nD, ∀ (r : Fin 16), (Rect.unit (s := S16384x1024) (k0_off4 d0 (BitVec.ofNat 32 (512 * r.val))) S512x1024.size (k0_off4_inb d0 r)).WholeWords (EltTy.packing .bf16)
  k0_dev20_lt : ∀ d0 : Dev nD, (k0_dev20 d0) < nD
  k0_off5_inb : ∀ d0 : Dev nD, ∀ (r : Fin 16), ∀ a, (k0_off5 d0 (BitVec.ofNat 32 (512 * r.val))) a + S512x1024.size a ≤ S16384x1024.size a
  k0_off5_wordsbf16 : ∀ d0 : Dev nD, ∀ (r : Fin 16), (Rect.unit (s := S16384x1024) (k0_off5 d0 (BitVec.ofNat 32 (512 * r.val))) S512x1024.size (k0_off5_inb d0 r)).WholeWords (EltTy.packing .bf16)
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD

variable [Facts₀]

abbrev cc0_scratch5 : DmaSems sig S16 := SemArray.consecutive 0 S16 hcc0_scratch5
abbrev cc0_scratch6 : DmaSems sig S16 := SemArray.consecutive 16 S16 hcc0_scratch6
abbrev cc0_scratch7 : DmaSems sig S16 := SemArray.consecutive 32 S16 hcc0_scratch7
abbrev cc0_scratch8 : DmaSems sig S16 := SemArray.consecutive 48 S16 hcc0_scratch8
abbrev cc0_scratch9 : DmaSems sig S4 := SemArray.consecutive 64 S4 hcc0_scratch9
abbrev cc0_scratch10 : DmaSems sig S4 := SemArray.consecutive 68 S4 hcc0_scratch10

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S2x16384x2048 : Shape := ⟨3, ![2, 16384, 2048]⟩
abbrev S_ : Shape := ⟨0, ![]⟩
abbrev S16384x2048 : Shape := ⟨2, ![16384, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S_, .f32⟩
  | .hbm, ⟨2, _⟩ => ⟨S16384x2048, .f32⟩
  | .hbm, ⟨3, _⟩ => ⟨S16384x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2x16384x2048_S16384x2048_d0 : S2x16384x2048.ReducesTo [0] S16384x2048
  h_S_ : 0 < S_.numel
  bitsLt_bf16_f32 : FTy.bits .bf16 < FTy.bits .f32

variable [Facts₀]

class Facts : Prop extends Facts₀ where

variable [Facts]
-- ==== Proof.Common.lean ====
import proofs.«900302_g7700000000000303_dist_rs_v7x_xy2x2_y_m16384_n1024_bf16_1_alg».proof.Proof.Gen.KernelIdeal
import proofs.«900302_g7700000000000303_dist_rs_v7x_xy2x2_y_m16384_n1024_bf16_1_alg».proof.Proof.Gen.KernelIdeal.Skeleton
import proofs.«900302_g7700000000000303_dist_rs_v7x_xy2x2_y_m16384_n1024_bf16_1_alg».proof.Proof.Gen.KernelIdeal.Launch
import proofs.«900302_g7700000000000303_dist_rs_v7x_xy2x2_y_m16384_n1024_bf16_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.Tactic
noncomputable section
namespace Cert.KernelIdeal.RS
open Idealize.ShloMosaic
open Idealize.ShloMosaic.TcCoe
open Idealize.SL Idealize.SL.RA Idealize.SL.BI
open Idealize.ShloMosaic.Rounds
variable {F : FTy → Type} [FloatOps F]
abbrev UB : Type := URounds (GSem nD τ sig) Bool
abbrev UU : Type := UR sig nD τ × (UB × Counters)
local notation "𝕄" => MT nD τ sig Unit (Elt F) ℕ UU ℕ
abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev 𝒱₀ : Variants := Variants.none
abbrev Mem (F : FTy → Type) : Type := (ℓ : Loc nD τ sig) → Buf (Elt F) ℓ
def s₀ (m : Mem F) (ρ : Dev nD → PrngReg) : MemSt nD τ sig (Elt F) := ⟨m, fun _ => 0, ρ⟩
def ynb (c : Dev nD) : Dev nD := ⟨(2 * (c.val / 2) + 1) - (c.val % 2), by revert c; decide⟩
def xnb (c : Dev nD) : Dev nD := ⟨((c.val % 2) + 2) - 2 * (c.val / 2), by revert c; decide⟩
theorem ynb_ynb (c : Dev nD) : ynb (ynb c) = c := by revert c; decide
theorem xnb_xnb (c : Dev nD) : xnb (xnb c) = c := by revert c; decide
def ynbE : Dev nD ≃ Dev nD := ⟨ynb, ynb, ynb_ynb, ynb_ynb⟩
def xnbE : Dev nD ≃ Dev nD := ⟨xnb, xnb, xnb_xnb, xnb_xnb⟩
abbrev syS (k : Fin 16) : DmaSem sig := ⟨k.val, show k.val < 72 by omega⟩
abbrev ryS (k : Fin 16) : DmaSem sig := ⟨16 + k.val, show 16 + k.val < 72 by omega⟩
abbrev sxS (k : Fin 16) : DmaSem sig := ⟨32 + k.val, show 32 + k.val < 72 by omega⟩
abbrev rxS (k : Fin 16) : DmaSem sig := ⟨48 + k.val, show 48 + k.val < 72 by omega⟩
abbrev ldS (s : Fin 4) : DmaSem sig := ⟨64 + s.val, show 64 + s.val < 72 by omega⟩
abbrev stS (s : Fin 4) : DmaSem sig := ⟨68 + s.val, show 68 + s.val < 72 by omega⟩
abbrev barS : Sem sig := (SemArray.scalar (sig.barrier 0 rfl) : Sems sig S_).sem
abbrev barCell (c : Dev nD) : GSem nD τ sig := ((c : Thread nD τ), .reg barS)
abbrev syCell (k : Fin 16) (c : Dev nD) : GSem nD τ sig := ((c : Thread nD τ), .dma (syS k))
abbrev ryCell (k : Fin 16) (c : Dev nD) : GSem nD τ sig := ((c : Thread nD τ), .dma (ryS k))
abbrev sxCell (k : Fin 16) (c : Dev nD) : GSem nD τ sig := ((c : Thread nD τ), .dma (sxS k))
abbrev rxCell (k : Fin 16) (c : Dev nD) : GSem nD τ sig := ((c : Thread nD τ), .dma (rxS k))
abbrev chunkOff (k : Fin 16) : Fin 2 → Nat := ![512 * k.val, 0]
theorem chunk_inb (k : Fin 16) : ∀ a, chunkOff k a + S512x1024.size a ≤ S8192x1024.size a := by revert k; decide
abbrev chunkR (k : Fin 16) : Rect S8192x1024 := Rect.unit (s := S8192x1024) (chunkOff k) S512x1024.size (chunk_inb k)
abbrev sbM (k : Fin 16) : Memref sig .tc .vmem S512x1024 .bf16 := (Memref.whole cc0_scratch0).slice (chunkR k) (fun _ => rfl)
abbrev ryM (k : Fin 16) : Memref sig .tc .vmem S512x1024 .bf16 := (Memref.whole cc0_scratch1).slice (chunkR k) (fun _ => rfl)
abbrev rxM (k : Fin 16) : Memref sig .tc .vmem S512x1024 .bf16 := (Memref.whole cc0_scratch2).slice (chunkR k) (fun _ => rfl)
abbrev Ncr : ℕ := (sbM 0).view.dmaCredit
theorem Ncr_pos : 0 < Ncr := View.dmaCredit_pos _ (by decide)
-- Two different 512-row chunks of a half-height buffer share no row.
theorem chunk_disjoint (j k : Fin 16) (h : j ≠ k) : Disjoint (chunkR j).set (chunkR k).set := by
  rw [Finset.disjoint_left]
  intro i hi hk
  rw [Rect.mem_set_unit] at hi hk
  have h0 := hi 0; have h1 := hk 0
  simp only [chunkOff, Matrix.cons_val_zero] at h0 h1
  have : (S512x1024.size 0) = 512 := rfl
  apply h; apply Fin.ext; omega
end Cert.KernelIdeal.RS
end
-- ==== Proof.Spec.lean ====
import proofs.«900302_g7700000000000303_dist_rs_v7x_xy2x2_y_m16384_n1024_bf16_1_alg».proof.Proof.Common
noncomputable section
namespace Cert.KernelIdeal.RS
open Cert.KernelIdeal Cert.KernelIdeal.Gen
open Idealize.ShloMosaic
open Idealize.ShloMosaic.TcCoe
variable {F : FTy → Type} [FloatOps F]
abbrev w512 (k : Fin 16) : BitVec 32 := BitVec.ofNat 32 (512 * k.val)
abbrev srcP (c : Dev nD) (k : Fin 16) : Memref sig .tc .hbm S512x1024 .f32 :=
  ((Memref.whole main_arg0).slice (Rect.unit (s := S1x16384x2048) (k0_off1 c (w512 k)) S1x512x1024.size (k0_off1_inb c k)) (fun _ => rfl)).squeeze S512x1024 squeezes_S1x512x1024_S512x1024
abbrev srcY (c : Dev nD) (k : Fin 16) : Memref sig .tc .hbm S512x1024 .f32 :=
  ((Memref.whole main_arg0).slice (Rect.unit (s := S1x16384x2048) (k0_off2 c (w512 k)) S1x512x1024.size (k0_off2_inb c k)) (fun _ => rfl)).squeeze S512x1024 squeezes_S1x512x1024_S512x1024
abbrev srcX (c : Dev nD) (k : Fin 16) : Memref sig .tc .hbm S512x1024 .f32 :=
  ((Memref.whole main_arg0).slice (Rect.unit (s := S1x16384x2048) (k0_off3 c (w512 k)) S1x512x1024.size (k0_off3_inb c k)) (fun _ => rfl)).squeeze S512x1024 squeezes_S1x512x1024_S512x1024
abbrev dstY (c : Dev nD) (k : Fin 16) : Memref sig .tc .hbm S512x1024 .bf16 :=
  (Memref.whole main_v1).slice (Rect.unit (s := S16384x1024) (k0_off4 c (w512 k)) S512x1024.size (k0_off4_inb c k)) (fun _ => rfl)
abbrev dstX (c : Dev nD) (k : Fin 16) : Memref sig .tc .hbm S512x1024 .bf16 :=
  (Memref.whole main_v1).slice (Rect.unit (s := S16384x1024) (k0_off5 c (w512 k)) S512x1024.size (k0_off5_inb c k)) (fun _ => rfl)
abbrev slab (m : Mem F) (c : Dev nD) : Buf (Elt F) ((c : Thread nD τ).loc main_arg0) := m ((c : Thread nD τ).loc main_arg0)
def ldV (P : S512x1024.Idx → Elt F .f32) : Vec F S1x512x1024 .f32 := shapeCast S1x512x1024 P shapeCasts_S512x1024_S1x512x1024
abbrev toSend (v : Vec F S1x512x1024 .f32) : FVec F S512x1024 .bf16 := k0_pay1 v
abbrev foldOut (v : Vec F S1x512x1024 .f32) (w : Vec F S512x1024 .bf16) : FVec F S512x1024 .bf16 := k0_pay17 v w
-- Chunk k of what device c sends: its slab's rows of its own half at the other column block, as bf16.
def sentY (m : Mem F) (c : Dev nD) (k : Fin 16) : FVec F S512x1024 .bf16 :=
  toSend (ldV ((srcP c k).view.read (Elt F) (slab m c)))
-- What a device's result must hold: each 512-row window is its own slab's entries plus the chunk that reached it.
def OutOK (m : Mem F) (c : Dev nD) (o : Buf (Elt F) ((c : Thread nD τ).loc main_v1)) : Prop :=
  (∀ k : Fin 16, (dstY c k).view.read (Elt F) o = foldOut (ldV ((srcY c k).view.read (Elt F) (slab m c))) (sentY m (ynb c) k))
  ∧ (∀ k : Fin 16, (dstX c k).view.read (Elt F) o = foldOut (ldV ((srcX c k).view.read (Elt F) (slab m c))) (sentY m (ynb (xnb c)) k))
end Cert.KernelIdeal.RS
end
-- ==== Proof.Sched.lean ====
import proofs.«900302_g7700000000000303_dist_rs_v7x_xy2x2_y_m16384_n1024_bf16_1_alg».proof.Proof.Spec
noncomputable section
namespace Cert.KernelIdeal.RS
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
def pieceAny (M : Memref sig .tc .vmem S512x1024 .bf16) (o : Dev nD) (q : PosShare TreeShare) : sProp 𝕄 :=
  iprop(∃ f, (M.view.loc (o : Thread nD τ) ↦[M.view.set]{q} f))
def pieceAt (M : Memref sig .tc .vmem S512x1024 .bf16) (o : Dev nD) (q : PosShare TreeShare) (V : FVec F S512x1024 .bf16) : sProp 𝕄 :=
  iprop(∃ f, ⌜M.view.read (Elt F) f = V⌝ ∗ (M.view.loc (o : Thread nD τ) ↦[M.view.set]{q} f))
def bufAny (b : Ref sig .tc) (o : Dev nD) : sProp 𝕄 :=
  iprop(∃ f : Buf (Elt F) (((o : Dev nD) : Thread nD τ).loc b), (((o : Thread nD τ).loc b) ↦{fullShare} f))
variable (m : Mem F)
def barPayY (o : Dev nD) : sProp 𝕄 :=
  iprop(bufAny cc0_scratch1 (ynb o) ∗ bigSep Finset.univ fun k : Fin 16 => reached ER (ryCell k (ynb o)) 0)
def barPayX (o : Dev nD) : sProp 𝕄 :=
  iprop(bufAny cc0_scratch2 (xnb o) ∗ bigSep Finset.univ fun k : Fin 16 => reached ER (rxCell k (xnb o)) 0)
def syPay (o : Dev nD) (k : Fin 16) : sProp 𝕄 := pieceAny (sbM k) o fullShare
def ryPay (o : Dev nD) (k : Fin 16) : sProp 𝕄 := pieceAt (ryM k) o fullShare (sentY m (ynb o) k)
def sxPay (o : Dev nD) (k : Fin 16) : sProp 𝕄 := pieceAny (ryM k) o fullShare.left
def rxPay (o : Dev nD) (k : Fin 16) : sProp 𝕄 := pieceAt (rxM k) o fullShare (sentY m (ynb (xnb o)) k)
inductive CellKind | bar | sy (k : Fin 16) | ry (k : Fin 16) | sx (k : Fin 16) | rx (k : Fin 16) | other
  deriving DecidableEq
def kindOf : SemLoc sig → CellKind
  | .reg _ => .bar
  | .dma q =>
    if h : q.val < 16 then .sy ⟨q.val, h⟩
    else if h : q.val < 32 then .ry ⟨q.val - 16, by omega⟩
    else if h : q.val < 48 then .sx ⟨q.val - 32, by omega⟩
    else if h : q.val < 64 then .rx ⟨q.val - 48, by omega⟩
    else .other
theorem kindOf_bar : kindOf (.reg barS : SemLoc sig) = .bar := rfl
theorem kindOf_sy (k : Fin 16) : kindOf (.dma (syS k) : SemLoc sig) = .sy k := by revert k; decide
theorem kindOf_ry (k : Fin 16) : kindOf (.dma (ryS k) : SemLoc sig) = .ry k := by revert k; decide
theorem kindOf_sx (k : Fin 16) : kindOf (.dma (sxS k) : SemLoc sig) = .sx k := by revert k; decide
theorem kindOf_rx (k : Fin 16) : kindOf (.dma (rxS k) : SemLoc sig) = .rx k := by revert k; decide
-- Every cell is paid in one round: a barrier cell by its two neighbours, every other cell by one copy that hands over the chunk it moved.
def rsRd : Rounds.Schedule (GSem nD τ sig) Bool (MT nD τ sig Unit (Elt F) ℕ UU ℕ) where
  duties g r :=
    if g.1.2 = .tc ∧ r = 0 then
      match kindOf g.2 with
      | .bar => Finset.univ
      | .other => ∅
      | _ => {false}
    else ∅
  unitless _ := False
  amount g _ _ := match kindOf g.2 with
    | .bar => 1
    | _ => Ncr
  payload g _ d := match kindOf g.2 with
    | .bar => if d then barPayX g.1.1 else barPayY g.1.1
    | .sy k => syPay g.1.1 k
    | .ry k => ryPay m g.1.1 k
    | .sx k => sxPay g.1.1 k
    | .rx k => rxPay m g.1.1 k
    | .other => iprop(emp)
  amount_pos g _ _ _ := by
    cases kindOf g.2 <;> first | exact Nat.one_pos | exact Ncr_pos
instance rsRd_payload_storable (g : GSem nD τ sig) (r : ℕ) (d : Bool) :
    BI.Storable (upEmb : UEmb _ 𝕄) ((rsRd (F := F) m).payload g r d) := by
  show BI.Storable upEmb (match kindOf g.2 with
    | .bar => if d then barPayX g.1.1 else barPayY g.1.1
    | .sy k => syPay g.1.1 k
    | .ry k => ryPay m g.1.1 k
    | .sx k => sxPay g.1.1 k
    | .rx k => rxPay m g.1.1 k
    | .other => iprop(emp))
  unfold barPayX barPayY syPay ryPay sxPay rxPay pieceAny pieceAt bufAny
  (repeat' split) <;> infer_instance
section Tables
variable (c : Dev nD) (k : Fin 16)
theorem duties_bar : (rsRd (F := F) m).duties (barCell c) 0 = Finset.univ := by simp only [rsRd, kindOf_bar, and_self, if_true]
theorem duties_sy : (rsRd (F := F) m).duties (syCell k c) 0 = {false} := by simp only [rsRd, kindOf_sy, and_self, if_true]
theorem duties_ry : (rsRd (F := F) m).duties (ryCell k c) 0 = {false} := by simp only [rsRd, kindOf_ry, and_self, if_true]
theorem duties_sx : (rsRd (F := F) m).duties (sxCell k c) 0 = {false} := by simp only [rsRd, kindOf_sx, and_self, if_true]
theorem duties_rx : (rsRd (F := F) m).duties (rxCell k c) 0 = {false} := by simp only [rsRd, kindOf_rx, and_self, if_true]
theorem duties_later (g : GSem nD τ sig) : ∀ r, 1 ≤ r → (rsRd (F := F) m).duties g r = ∅ := fun r hr => by
  simp only [rsRd]; rw [if_neg (fun h => by omega)]
theorem amount_bar (r : ℕ) (d : Bool) : (rsRd (F := F) m).amount (barCell c) r d = 1 := by simp only [rsRd, kindOf_bar]
theorem amount_sy (r : ℕ) (d : Bool) : (rsRd (F := F) m).amount (syCell k c) r d = Ncr := by simp only [rsRd, kindOf_sy]
theorem amount_ry (r : ℕ) (d : Bool) : (rsRd (F := F) m).amount (ryCell k c) r d = Ncr := by simp only [rsRd, kindOf_ry]
theorem amount_sx (r : ℕ) (d : Bool) : (rsRd (F := F) m).amount (sxCell k c) r d = Ncr := by simp only [rsRd, kindOf_sx]
theorem amount_rx (r : ℕ) (d : Bool) : (rsRd (F := F) m).amount (rxCell k c) r d = Ncr := by simp only [rsRd, kindOf_rx]
theorem expect_bar : (rsRd (F := F) m).expect (barCell c) 0 = 2 := by
  unfold Schedule.expect Schedule.amountOf
  rw [duties_bar, Finset.sum_congr rfl fun d _ => amount_bar m c 0 d, Finset.sum_const, Finset.card_univ, Fintype.card_bool, smul_eq_mul]
theorem payload_bar_false : (rsRd (F := F) m).payload (barCell c) 0 false = barPayY c := by
  simp only [rsRd, kindOf_bar]; rfl
theorem payload_bar_true : (rsRd (F := F) m).payload (barCell c) 0 true = barPayX c := by
  simp only [rsRd, kindOf_bar]; rfl
theorem payload_sy (d : Bool) : (rsRd (F := F) m).payload (syCell k c) 0 d = syPay c k := by simp only [rsRd, kindOf_sy]
theorem payload_ry (d : Bool) : (rsRd (F := F) m).payload (ryCell k c) 0 d = ryPay m c k := by simp only [rsRd, kindOf_ry]
theorem payload_sx (d : Bool) : (rsRd (F := F) m).payload (sxCell k c) 0 d = sxPay c k := by simp only [rsRd, kindOf_sx]
theorem payload_rx (d : Bool) : (rsRd (F := F) m).payload (rxCell k c) 0 d = rxPay m c k := by simp only [rsRd, kindOf_rx]
theorem rest_bar : bigSep ((rsRd (F := F) m).duties (barCell c) 0 \ ∅) (fun d => (rsRd (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
end Tables
end Cert.KernelIdeal.RS
end
-- ==== Proof.Inv.lean ====
import proofs.«900302_g7700000000000303_dist_rs_v7x_xy2x2_y_m16384_n1024_bf16_1_alg».proof.Proof.Sched
noncomputable section
namespace Cert.KernelIdeal.RS
open Cert.KernelIdeal Cert.KernelIdeal.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
def csem (j : Fin 65) : SemLoc sig :=
  if j.val = 0 then .reg barS else .dma ⟨j.val - 1, show j.val - 1 < 72 by omega⟩
abbrev kcell (cj : Dev nD × Fin 65) : GSem nD τ sig := ((cj.1 : Thread nD τ), csem cj.2)
abbrev osem : Fin 72 → SemLoc sig := fun i => .dma ⟨i.val, i.isLt⟩
abbrev jbar : Fin 65 := 0
abbrev jsy (k : Fin 16) : Fin 65 := ⟨1 + k.val, by omega⟩
abbrev jry (k : Fin 16) : Fin 65 := ⟨17 + k.val, by omega⟩
abbrev jsx (k : Fin 16) : Fin 65 := ⟨33 + k.val, by omega⟩
abbrev jrx (k : Fin 16) : Fin 65 := ⟨49 + k.val, by omega⟩
theorem csem_sy (k : Fin 16) : csem (jsy k) = .dma (syS k) := by revert k; decide
theorem csem_ry (k : Fin 16) : csem (jry k) = .dma (ryS k) := by revert k; decide
theorem csem_sx (k : Fin 16) : csem (jsx k) = .dma (sxS k) := by revert k; decide
theorem csem_rx (k : Fin 16) : csem (jrx k) = .dma (rxS k) := by revert k; decide
theorem kcell_sy (c : Dev nD) (k : Fin 16) : kcell (c, jsy k) = syCell k c := congrArg (Prod.mk (c : Thread nD τ)) (csem_sy k)
theorem kcell_ry (c : Dev nD) (k : Fin 16) : kcell (c, jry k) = ryCell k c := congrArg (Prod.mk (c : Thread nD τ)) (csem_ry k)
theorem kcell_sx (c : Dev nD) (k : Fin 16) : kcell (c, jsx k) = sxCell k c := congrArg (Prod.mk (c : Thread nD τ)) (csem_sx k)
theorem kcell_rx (c : Dev nD) (k : Fin 16) : kcell (c, jrx k) = rxCell k c := congrArg (Prod.mk (c : Thread nD τ)) (csem_rx k)
def tal (c : Dev nD) (i : ℕ) : CellTallies nD τ sig Unit :=
  if i = 0 then tallyAt (barCell (ynb c)) () 1
  else if i = 1 then tallyAt (barCell (xnb c)) () 1
  else if h : i < 18 then tallyAt (ryCell ⟨i - 2, by omega⟩ (ynb c)) () Ncr
  else if h : i < 34 then tallyAt (rxCell ⟨i - 18, by omega⟩ (xnb c)) () Ncr
  else 0
-- The payments a device still owes, last first: n of its thirty-four payments are left.
def owedN (c : Dev nD) : ℕ → CellTallies nD τ sig Unit
  | 0 => 0
  | n + 1 => owedN c n + tal c (33 - n)
def O₀ (c : Dev nD) : CellTallies nD τ sig Unit := owedN c 34
theorem owedN_succ (c : Dev nD) (n : ℕ) : owedN c (n + 1) = owedN c n + tal c (33 - n) := rfl
def L (g : GSem nD τ sig) : Finset Unit := if g.1.2 = .tc then {()} else ∅
-- Levels: send and local cells 0, a barrier cell 1, a y-receive cell 2, x-receive cell k at 3 + k.
def lv (g : GSem nD τ sig) (_ : Unit) : ℕ :=
  match kindOf g.2 with
  | .bar => 1
  | .ry _ => 2
  | .rx k => 3 + k.val
  | _ => 0
theorem L_of_ne (g : GSem nD τ sig) (h : g.1.2 ≠ .tc) : L g = ∅ := if_neg h
theorem L_tc (c : Dev nD) (sm : SemLoc sig) : L ((c : Thread nD τ), sm) = {()} := if_pos rfl
def lvTal (i : ℕ) : ℕ := if i < 2 then 1 else if i < 18 then 2 else 3 + (i - 18)
variable (m : Mem F)
def invs (K : Dev nD × Fin 65 → ℕ) (c : Dev nD) : sProp 𝕄 :=
  iprop((bigSep Finset.univ fun j : Fin 65 => cellInv ER (rsRd m) (K (c, j)) (kcell (c, j)))
    ∗ cellInv ER (rsRd m) (K (ynb c, jbar)) (barCell (ynb c)) ∗ cellInv ER (rsRd m) (K (xnb c, jbar)) (barCell (xnb c))
    ∗ (bigSep Finset.univ fun k : Fin 16 => cellInv ER (rsRd m) (K (ynb c, jry k)) (ryCell k (ynb c)))
    ∗ (bigSep Finset.univ fun k : Fin 16 => cellInv ER (rsRd m) (K (xnb c, jrx k)) (rxCell k (xnb c))))
instance invs_persistent (K : Dev nD × Fin 65 → ℕ) (c : Dev nD) : BI.Persistent (invs m K c) := by unfold invs; infer_instance
def payToks (c : Dev nD) : sProp 𝕄 :=
  iprop(dutyTok ER (barCell (ynb c)) 0 false ∗ dutyTok ER (barCell (xnb c)) 0 true
    ∗ (bigSep Finset.univ fun k : Fin 16 => dutyTok ER (ryCell k (ynb c)) 0 false)
    ∗ (bigSep Finset.univ fun k : Fin 16 => dutyTok ER (rxCell k (xnb c)) 0 false)
    ∗ (bigSep Finset.univ fun k : Fin 16 => dutyTok ER (syCell k c) 0 false)
    ∗ (bigSep Finset.univ fun k : Fin 16 => dutyTok ER (sxCell k c) 0 false))
def ghost (K : Dev nD × Fin 65 → ℕ) (c : Dev nD) : sProp 𝕄 :=
  iprop(invs m K c
    ∗ (bigSep Finset.univ fun j : Fin 65 => atPos ER (kcell (c, j)) 0 ∅ 0)
    ∗ (bigSep Finset.univ fun j : Fin 65 => reached ER (kcell (c, j)) 0)
    ∗ reached ER (barCell (ynb c)) 0 ∗ reached ER (barCell (xnb c)) 0
    ∗ payToks c
    ∗ (bigSep Finset.univ fun s : Fin 4 => semVal ((c : Thread nD τ), SemLoc.dma (ldS s)) 0)
    ∗ (bigSep Finset.univ fun s : Fin 4 => semVal ((c : Thread nD τ), SemLoc.dma (stS s)) 0))
def creds (c : Dev nD) : sProp 𝕄 :=
  iprop(cred (tallyAt (barCell c) () 2)
    ∗ (bigSep Finset.univ fun k : Fin 16 => cred (tallyAt (ryCell k c) () Ncr))
    ∗ (bigSep Finset.univ fun k : Fin 16 => cred (tallyAt (rxCell k c) () Ncr)))
def start (c : Dev nD) : sProp 𝕄 := iprop((∃ K, ghost m K c) ∗ creds c ∗ levAts L lv)
def hbm0 (c : Dev nD) : sProp 𝕄 :=
  iprop((((c : Thread nD τ).loc main_arg0) ↦{fullShare} slab m c) ∗ bufAny main_v1 c)
def hbm1 (c : Dev nD) : sProp 𝕄 :=
  iprop((((c : Thread nD τ).loc main_arg0) ↦{fullShare} slab m c)
    ∗ ∃ o : Buf (Elt F) (((c : Dev nD) : Thread nD τ).loc main_v1), ⌜OutOK m c o⌝ ∗ (((c : Thread nD τ).loc main_v1) ↦{fullShare} o))
def scratch (c : Dev nD) : sProp 𝕄 :=
  iprop(bufAny cc0_scratch0 c ∗ bufAny cc0_scratch1 c ∗ bufAny cc0_scratch2 c ∗ bufAny cc0_scratch3 c ∗ bufAny cc0_scratch4 c)
def Φ₀ (c : Dev nD) : sProp 𝕄 := iprop(start m c ∗ hbm0 m c ∗ scratch c)
def Φ₁ (c : Dev nD) : sProp 𝕄 :=
  iprop(hbm1 m c ∗ scratch c ∗ bigSep Finset.univ fun i : Fin 72 => semVal ((c : Thread nD τ), osem i) 0)
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0
def BodyStmt (c : Dev nD) : Prop :=
  ∀ (W : Waits sig Unit),
    iprop(Φ₀ m c ∗ owes (c : Thread nD τ) (O₀ c) W)
      ⊢ wp frame (wpE (defs₀ (F := F)) 𝒱₀ (c : Thread nD τ) none) Set.univ (bodyAt0 (F := F) Gen.t0_0)
          (fun _ => iprop(Φ₁ m c ∗ ∃ W', owes (c : Thread nD τ) 0 W'))
end Cert.KernelIdeal.RS
end
-- ==== Proof.Levels.lean ====
import proofs.«900302_g7700000000000303_dist_rs_v7x_xy2x2_y_m16384_n1024_bf16_1_alg».proof.Proof.Inv
noncomputable section
namespace Cert.KernelIdeal.RS
open Idealize.ShloMosaic
open Idealize.ShloMosaic.TcCoe
open Idealize.SL Idealize.SL.RA Idealize.SL.BI
open Idealize.SL.BI.BIBase Idealize.SL.BI.Laws Idealize.SL.ProofMode Idealize.SL.Sem
variable {F : FTy → Type} [FloatOps F]
local notation "𝕄" => MT nD τ sig Unit (Elt F) ℕ UU ℕ
theorem owedN_pos (c : Dev nD) (n : ℕ) {g : GSem nD τ sig} {u : Unit} (h : 0 < owedN c n g u) :
    ∃ i, 34 - n ≤ i ∧ i < 34 ∧ 0 < tal c i g u := by
  induction n with
  | zero => exact absurd h (Nat.lt_irrefl 0)
  | succ n ih =>
    rcases Pipeline.add_pos_cases (show 0 < (owedN c n + tal c (33 - n)) g u from h) with h1 | h2
    · obtain ⟨i, hi1, hi2, hi3⟩ := ih h1
      exact ⟨i, by omega, hi2, hi3⟩
    · exact ⟨33 - n, by omega, by omega, h2⟩
theorem tal_pos (c : Dev nD) (i : ℕ) {g : GSem nD τ sig} {u : Unit} (h : 0 < tal c i g u) :
    u ∈ L g ∧ lv g u = lvTal i := by
  have key : ∀ (nb : Dev nD) (s : SemLoc sig) (N : ℕ), 0 < tallyAt ((nb : Thread nD τ), s) () N g u →
      lv ((nb : Thread nD τ), s) () = lvTal i → u ∈ L g ∧ lv g u = lvTal i := fun nb s N h hl => by
    obtain ⟨rfl, rfl⟩ := Pipeline.tallyAt_pos h
    exact ⟨by rw [L_tc]; exact Finset.mem_singleton_self _, hl⟩
  unfold tal at h
  split_ifs at h with h0 h1 h2 h3
  · exact key _ _ _ h (by subst h0; simp only [lv, kindOf_bar]; rfl)
  · exact key _ _ _ h (by subst h1; simp only [lv, kindOf_bar]; rfl)
  · exact key _ _ _ h (by simp only [lv, kindOf_ry]; unfold lvTal; rw [if_neg (by omega), if_pos h2])
  · exact key _ _ _ h (by simp only [lv, kindOf_rx]; unfold lvTal; rw [if_neg (by omega), if_neg h2])
  · exact absurd h (Nat.lt_irrefl 0)
-- A wait is allowed on a cell whose level is below the level of every payment still owed.
theorem mayWait_owedN (c : Dev nD) (s : SemLoc sig) (n : ℕ) (hn : n ≤ 34)
    (h : ∀ i, 34 - n ≤ i → i < 34 → lv ((c : Thread nD τ), s) () < lvTal i) :
    (levAts L lv : sProp 𝕄) ⊢ MayWait (c : Thread nD τ) s () (owedN c n) := by
  refine Pipeline.mayWait_of_levAts (by rw [L_tc]; exact Finset.mem_singleton_self _) fun g u hg => ?_
  obtain ⟨i, hi1, hi2, hi3⟩ := owedN_pos c n hg
  obtain ⟨hL, hlv⟩ := tal_pos c i hi3
  exact ⟨hL, by rw [hlv]; exact h i hi1 hi2⟩
theorem owedN_eq_sum (c : Dev nD) (n : ℕ) : owedN c n = ∑ i ∈ Finset.range n, tal c (33 - i) := by
  induction n with
  | zero => rfl
  | succ n ih => rw [owedN_succ, ih, Finset.sum_range_succ]
theorem sum_range_rev {M : Type} [AddCommMonoid M] (f : ℕ → M) (n : ℕ) :
    ∑ i ∈ Finset.range n, f (n - 1 - i) = ∑ i ∈ Finset.range n, f i := by
  induction n with
  | zero => rfl
  | succ n ih =>
    rw [Finset.sum_range_succ', Finset.sum_range_succ, ← ih]
    congr 1
    exact Finset.sum_congr rfl fun i _ => congrArg f (by omega)
theorem tal_ry (c : Dev nD) (k : Fin 16) : tal c (2 + k.val) = tallyAt (ryCell k (ynb c)) () Ncr := by
  unfold tal
  rw [if_neg (by omega), if_neg (by omega), dif_pos (show 2 + k.val < 18 by omega)]
  simp only [Nat.add_sub_cancel_left, Fin.eta]
theorem tal_rx (c : Dev nD) (k : Fin 16) : tal c (18 + k.val) = tallyAt (rxCell k (xnb c)) () Ncr := by
  unfold tal
  rw [if_neg (by omega), if_neg (by omega), dif_neg (show ¬ 18 + k.val < 18 by omega), dif_pos (show 18 + k.val < 34 by omega)]
  simp only [Nat.add_sub_cancel_left, Fin.eta]
theorem O₀_eq (c : Dev nD) : O₀ c = ((tallyAt (barCell (ynb c)) () 1 + tallyAt (barCell (xnb c)) () 1)
      + ∑ k : Fin 16, tallyAt (ryCell k (ynb c)) () Ncr) + ∑ k : Fin 16, tallyAt (rxCell k (xnb c)) () Ncr := by
  unfold O₀
  rw [owedN_eq_sum]
  have e0 : ∑ i ∈ Finset.range 34, tal c (33 - i) = ∑ i ∈ Finset.range 34, tal c i := sum_range_rev (fun i => tal c i) 34
  have e1 : ∑ i ∈ Finset.range 34, tal c i = ∑ i ∈ Finset.range 18, tal c i + ∑ i ∈ Finset.range 16, tal c (18 + i) :=
    Finset.sum_range_add (fun i => tal c i) 18 16
  have e2 : ∑ i ∈ Finset.range 18, tal c i = ∑ i ∈ Finset.range 2, tal c i + ∑ i ∈ Finset.range 16, tal c (2 + i) :=
    Finset.sum_range_add (fun i => tal c i) 2 16
  have e3 : ∑ i ∈ Finset.range 2, tal c i = tal c 0 + tal c 1 := by
    rw [Finset.sum_range_succ, Finset.sum_range_one]
  rw [e0, e1, e2, e3, Finset.sum_range, Finset.sum_range,
    Finset.sum_congr rfl fun k _ => tal_ry c k, Finset.sum_congr rfl fun k _ => tal_rx c k]
  rfl
theorem creds_of_launch (c : Dev nD) : (Pipeline.launchCred O₀ c : sProp 𝕄) ⊢ creds c := by
  have hO : (O₀ : Dev nD → CellTallies nD τ sig Unit)
      = fun d => ((tallyAt (barCell (ynb d)) () 1 + tallyAt (barCell (xnb d)) () 1)
          + ∑ k : Fin 16, tallyAt (ryCell k (ynb d)) () Ncr) + ∑ k : Fin 16, tallyAt (rxCell k (xnb d)) () Ncr := funext O₀_eq
  rw [hO, Pipeline.launchCred_add, Pipeline.launchCred_add, Pipeline.launchCred_add, Pipeline.launchCred_sum, Pipeline.launchCred_sum]
  unfold creds
  have hbar : (tallyAt (barCell c) () 2 : CellTallies nD τ sig Unit) = tallyAt (barCell c) () 1 + tallyAt (barCell c) () 1 :=
    (tallyAt_add _ _ 1 1).symm
  rw [hbar]
  have hR : (bigSep Finset.univ fun k : Fin 16 => Pipeline.launchCred (fun d => tallyAt (ryCell k (ynb d)) () Ncr) c : sProp 𝕄)
      ⊢ bigSep Finset.univ fun k : Fin 16 => cred (tallyAt (ryCell k c) () Ncr) :=
    bigSep_mono fun k _ => Pipeline.launchCred_tallyAt (.dma (ryS k)) ynb ynb ynb_ynb ynb_ynb () Ncr c
  have hX : (bigSep Finset.univ fun k : Fin 16 => Pipeline.launchCred (fun d => tallyAt (rxCell k (xnb d)) () Ncr) c : sProp 𝕄)
      ⊢ bigSep Finset.univ fun k : Fin 16 => cred (tallyAt (rxCell k c) () Ncr) :=
    bigSep_mono fun k _ => Pipeline.launchCred_tallyAt (.dma (rxS k)) xnb xnb xnb_xnb xnb_xnb () Ncr c
  iintro ⟨⟨⟨HA, HB⟩, HR⟩, HX⟩
  isplitl [HA HB]
  · iapply (cred_add _ _).2
    isplitl [HA]
    · iapply (Pipeline.launchCred_tallyAt (.reg barS) ynb ynb ynb_ynb ynb_ynb () 1 c); iexact HA
    · iapply (Pipeline.launchCred_tallyAt (.reg barS) xnb xnb xnb_xnb xnb_xnb () 1 c); iexact HB
  isplitl [HR]
  · iapply hR; iexact HR
  · iapply hX; iexact HX
end Cert.KernelIdeal.RS
end
-- ==== Proof.Fam.lean ====
import proofs.«900302_g7700000000000303_dist_rs_v7x_xy2x2_y_m16384_n1024_bf16_1_alg».proof.Proof.Inv
noncomputable section
namespace Cert.KernelIdeal.RS
open Idealize.ShloMosaic
open Idealize.ShloMosaic.TcCoe
open Idealize.SL Idealize.SL.RA Idealize.SL.BI
open Idealize.SL.BI.BIBase Idealize.SL.BI.Laws Idealize.SL.ProofMode Idealize.SL.Sem
variable {F : FTy → Type} [FloatOps F]
local notation "𝕄" => MT nD τ sig Unit (Elt F) ℕ UU ℕ
variable (m : Mem F) (c : Dev nD)
theorem fam_add (a b : ℕ) (Φ : Fin (a + b) → sProp 𝕄) :
    bigSep Finset.univ Φ
      = iprop((bigSep Finset.univ fun i : Fin a => Φ (Fin.castAdd b i)) ∗ (bigSep Finset.univ fun j : Fin b => Φ (Fin.natAdd a j))) := by
  rw [bigSep_univ_equiv finSumFinEquiv Φ, bigSep_univ_sum]
  rfl
-- A family over a device's sixty-five cells splits into the barrier cell and four families of sixteen.
theorem fam_roles (Φ : GSem nD τ sig → sProp 𝕄) :
    (bigSep Finset.univ fun j : Fin 65 => Φ (kcell (c, j)))
      = iprop(Φ (barCell c) ∗ (bigSep Finset.univ fun k : Fin 16 => Φ (syCell k c)) ∗ (bigSep Finset.univ fun k : Fin 16 => Φ (ryCell k c))
          ∗ (bigSep Finset.univ fun k : Fin 16 => Φ (sxCell k c)) ∗ (bigSep Finset.univ fun k : Fin 16 => Φ (rxCell k c))) := by
  have h1 := fam_add (F := F) 1 64 (fun j => Φ (kcell (c, j)))
  have h2 := fam_add (F := F) 16 48 (fun j => Φ (kcell (c, Fin.natAdd 1 j)))
  have h3 := fam_add (F := F) 16 32 (fun j => Φ (kcell (c, Fin.natAdd 1 (Fin.natAdd 16 j))))
  have h4 := fam_add (F := F) 16 16 (fun j => Φ (kcell (c, Fin.natAdd 1 (Fin.natAdd 16 (Fin.natAdd 16 j)))))
  have ebar : (bigSep Finset.univ fun i : Fin 1 => Φ (kcell (c, (Fin.castAdd 64 i : Fin 65)))) = Φ (barCell c) :=
    bigSep_univ_of_subsingleton (0 : Fin 1)
  have e (j : Fin 16 → Fin 65) (s : Fin 16 → DmaSem sig) (h : ∀ k, csem (j k) = .dma (s k)) :
      (bigSep Finset.univ fun k : Fin 16 => Φ (kcell (c, j k))) = bigSep Finset.univ fun k : Fin 16 => Φ ((c : Thread nD τ), .dma (s k)) :=
    bigSep_congr fun k _ => congrArg (fun x => Φ ((c : Thread nD τ), x)) (h k)
  exact h1.trans (congrArg₂ BI.sep ebar (h2.trans (congrArg₂ BI.sep (e _ syS (by decide)) (h3.trans (congrArg₂ BI.sep (e _ ryS (by decide))
    (h4.trans (congrArg₂ BI.sep (e _ sxS (by decide)) (e _ rxS (by decide)))))))))
theorem osem_of_val (i : Fin 72) (q : DmaSem sig) (h : i.val = q.val) : osem i = .dma q := congrArg SemLoc.dma (Fin.ext h)
theorem sems72 :
    (bigSep Finset.univ fun i : Fin 72 => semVal ((c : Thread nD τ), osem i) 0 : sProp 𝕄)
      = iprop((bigSep Finset.univ fun k : Fin 16 => semVal (syCell k c) 0) ∗ (bigSep Finset.univ fun k : Fin 16 => semVal (ryCell k c) 0)
        ∗ (bigSep Finset.univ fun k : Fin 16 => semVal (sxCell k c) 0) ∗ (bigSep Finset.univ fun k : Fin 16 => semVal (rxCell k c) 0)
        ∗ (bigSep Finset.univ fun s : Fin 4 => semVal ((c : Thread nD τ), SemLoc.dma (ldS s)) 0)
        ∗ (bigSep Finset.univ fun s : Fin 4 => semVal ((c : Thread nD τ), SemLoc.dma (stS s)) 0)) := by
  let Z : SemLoc sig → sProp 𝕄 := fun s => semVal ((c : Thread nD τ), s) 0
  have h1 := fam_add (F := F) 16 56 (fun i => Z (osem i))
  have h2 := fam_add (F := F) 16 40 (fun i => Z (osem (Fin.natAdd 16 i)))
  have h3 := fam_add (F := F) 16 24 (fun i => Z (osem (Fin.natAdd 16 (Fin.natAdd 16 i))))
  have h4 := fam_add (F := F) 16 8 (fun i => Z (osem (Fin.natAdd 16 (Fin.natAdd 16 (Fin.natAdd 16 i)))))
  have h5 := fam_add (F := F) 4 4 (fun i => Z (osem (Fin.natAdd 16 (Fin.natAdd 16 (Fin.natAdd 16 (Fin.natAdd 16 i))))))
  have esy : (bigSep Finset.univ fun k : Fin 16 => Z (osem (Fin.castAdd 56 k))) = bigSep Finset.univ fun k : Fin 16 => semVal (syCell k c) 0 :=
    bigSep_congr fun k _ => congrArg Z (osem_of_val _ (syS k) rfl)
  have ery : (bigSep Finset.univ fun k : Fin 16 => Z (osem (Fin.natAdd 16 (Fin.castAdd 40 k)))) = bigSep Finset.univ fun k : Fin 16 => semVal (ryCell k c) 0 :=
    bigSep_congr fun k _ => congrArg Z (osem_of_val _ (ryS k) rfl)
  have esx : (bigSep Finset.univ fun k : Fin 16 => Z (osem (Fin.natAdd 16 (Fin.natAdd 16 (Fin.castAdd 24 k)))))
      = bigSep Finset.univ fun k : Fin 16 => semVal (sxCell k c) 0 :=
    bigSep_congr fun k _ => congrArg Z (osem_of_val _ (sxS k) (by show 16 + (16 + k.val) = 32 + k.val; omega))
  have erx : (bigSep Finset.univ fun k : Fin 16 => Z (osem (Fin.natAdd 16 (Fin.natAdd 16 (Fin.natAdd 16 (Fin.castAdd 8 k))))))
      = bigSep Finset.univ fun k : Fin 16 => semVal (rxCell k c) 0 :=
    bigSep_congr fun k _ => congrArg Z (osem_of_val _ (rxS k) (by show 16 + (16 + (16 + k.val)) = 48 + k.val; omega))
  have eld : (bigSep Finset.univ fun s : Fin 4 => Z (osem (Fin.natAdd 16 (Fin.natAdd 16 (Fin.natAdd 16 (Fin.natAdd 16 (Fin.castAdd 4 s)))))))
      = bigSep Finset.univ fun s : Fin 4 => semVal ((c : Thread nD τ), SemLoc.dma (ldS s)) 0 :=
    bigSep_congr fun s _ => congrArg Z (osem_of_val _ (ldS s) (by show 16 + (16 + (16 + (16 + s.val))) = 64 + s.val; omega))
  have est : (bigSep Finset.univ fun s : Fin 4 => Z (osem (Fin.natAdd 16 (Fin.natAdd 16 (Fin.natAdd 16 (Fin.natAdd 16 (Fin.natAdd 4 s)))))))
      = bigSep Finset.univ fun s : Fin 4 => semVal ((c : Thread nD τ), SemLoc.dma (stS s)) 0 :=
    bigSep_congr fun s _ => congrArg Z (osem_of_val _ (stS s) (by show 16 + (16 + (16 + (16 + (4 + s.val)))) = 68 + s.val; omega))
  exact h1.trans (congrArg₂ BI.sep esy (h2.trans (congrArg₂ BI.sep ery (h3.trans (congrArg₂ BI.sep esx (h4.trans (congrArg₂ BI.sep erx
      (h5.trans (congrArg₂ BI.sep eld est)))))))))
theorem fam16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
theorem fam4 (Φ : Fin 4 → sProp 𝕄) : bigSep Finset.univ Φ = iprop(Φ 0 ∗ Φ 1 ∗ Φ 2 ∗ Φ 3) :=
  bigSep_univ_eq_bigSepL [0, 1, 2, 3] (by decide) (by decide) Φ
end Cert.KernelIdeal.RS
end
-- ==== Proof.Alloc.lean ====
import proofs.«900302_g7700000000000303_dist_rs_v7x_xy2x2_y_m16384_n1024_bf16_1_alg».proof.Proof.Fam
noncomputable section
namespace Cert.KernelIdeal.RS
open Cert.KernelIdeal Cert.KernelIdeal.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : Mem F)
theorem csem_injective : Function.Injective (csem : Fin 65 → SemLoc sig) := by decide
theorem kcell_injective : Function.Injective (kcell : Dev nD × Fin 65 → GSem nD τ sig) := by
  rintro ⟨c, j⟩ ⟨c', j'⟩ h
  have h1 : c = c' := by have := congrArg (fun g : GSem nD τ sig => g.1.1) h; exact this
  subst h1
  have h2 : csem j = csem j' := congrArg Prod.snd h
  rw [csem_injective h2]
def ringCells : Finset (GSem nD τ sig) := Finset.univ.map ⟨kcell, kcell_injective⟩
abbrev tokOf (cj : Dev nD × Fin 66) : GSem nD τ sig × ℕ × Bool :=
  if h : cj.2.val < 65 then (kcell (cj.1, ⟨cj.2.val, h⟩), 0, false) else (barCell cj.1, 0, true)
theorem tokOf_injective : Function.Injective (tokOf : Dev nD × Fin 66 → GSem nD τ sig × ℕ × Bool) := by
  rintro ⟨c, j⟩ ⟨c', j'⟩ h
  have h1 : c = c' := by
    have := congrArg (fun x : GSem nD τ sig × ℕ × Bool => x.1.1.1) h
    simp only [tokOf] at this
    split_ifs at this <;> exact this
  subst h1
  have h2 : j = j' := by
    simp only [tokOf] at h
    split_ifs at h with ha hb hb
    · have h3 := kcell_injective (congrArg Prod.fst h)
      exact Fin.ext (congrArg (fun x : Dev nD × Fin 65 => x.2.val) h3)
    · have h3 : false = true := congrArg (fun x : GSem nD τ sig × ℕ × Bool => x.2.2) h
      cases h3
    · have h3 : true = false := congrArg (fun x : GSem nD τ sig × ℕ × Bool => x.2.2) h
      cases h3
    · exact Fin.ext (by omega)
  rw [h2]
def ringToks : Finset (GSem nD τ sig × ℕ × Bool) := Finset.univ.map ⟨tokOf, tokOf_injective⟩
def u₀ : UU :=
  (initOf (Pipeline.cells cfgs cellOf_inj) (Pipeline.launchToks cfgs cellOf_inj), (initOf ringCells ringToks, 1))
def G (c : Dev nD) : sProp 𝕄 :=
  iprop((bigSep Finset.univ fun j : Fin 65 => roundState ER (rsRd m) (kcell (c, j)) 0)
    ∗ (bigSep Finset.univ fun j : Fin 65 => iprop(atPos ER (kcell (c, j)) 0 ∅ 0 ∗ reached ER (kcell (c, j)) 0))
    ∗ (bigSep Finset.univ fun j : Fin 66 => dutyTok ER (tokOf (c, j)).1 (tokOf (c, j)).2.1 (tokOf (c, j)).2.2))
def G' (c : Dev nD) : sProp 𝕄 := iprop(∃ K, ghost m K c)
theorem ER_apply (b : UB) :
    (ER : Emb UB 𝕄) b = ((Emb.inl : Emb UB (UB × Counters)).trans (embR : Emb (UB × Counters) 𝕄)) b := rfl
theorem fund_ring : BI.own ((ER : Emb UB 𝕄) (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun j : Fin 65 => Φ (kcell (c, j)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun j : Fin 66 =>
          (dutyTok ER (tokOf (c, j)).1 (tokOf (c, j)).2.1 (tokOf (c, j)).2.2 : sProp 𝕄) := by
    unfold ringToks; rw [bigSep_map, bigSep_univ_prod]; rfl
  iintro HX
  imod (Rounds.fund ER (rsRd m) ringCells ringToks) $$ HX with ⟨Hst, Hr, Hat, Htok⟩
  imodintro
  ihave Hst' := (Entails.of_eq (hX fun g => roundState ER (rsRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'
theorem hu0 : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb (embR : Emb (UB × Counters) 𝕄) (initOf ringCells ringToks) (1 : Counters)) $$ HX
  icases H2 with ⟨HR, -⟩
  rw [← ER_apply]
  imod (fund_ring m) $$ HR with HG
  imodintro
  isplitl [HP] <;> iassumption
theorem unscopedSems0_eq (c : Dev nD) : (unscopedSems0 c : sProp 𝕄) = semVal (barCell c) 0 := by
  unfold unscopedSems0; rw [bigSep_eq_bigSepL_of_eq [SemLoc.reg barS] (by decide) (by decide)]; rfl
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun j : Fin 65 => semVal (kcell (c, j)) 0)
          ∗ (bigSep Finset.univ fun s : Fin 4 => semVal ((c : Thread nD τ), SemLoc.dma (ldS s)) 0)
          ∗ (bigSep Finset.univ fun s : Fin 4 => semVal ((c : Thread nD τ), SemLoc.dma (stS s)) 0)) : sProp 𝕄) := by
  show iprop((bigSep Finset.univ fun i : Fin 72 => semVal ((c : Thread nD τ), osem i) 0) ∗ unscopedSems0 c) ⊢ _
  rw [sems72 c, unscopedSems0_eq, fam_roles c (fun g => (semVal g 0 : sProp 𝕄))]
  iintro ⟨⟨Hsy, Hry, Hsx, Hrx, Hld, Hst⟩, HB⟩
  isplitl [HB Hsy Hry Hsx Hrx]
  · isplitl [HB]; · iexact HB
    isplitl [Hsy]; · iexact Hsy
    isplitl [Hry]; · iexact Hry
    isplitl [Hsx] <;> iassumption
  isplitl [Hld] <;> iassumption
def toks (c : Dev nD) : sProp 𝕄 :=
  iprop((dutyTok ER (barCell c) 0 false
      ∗ (bigSep Finset.univ fun k : Fin 16 => dutyTok ER (syCell k c) 0 false)
      ∗ (bigSep Finset.univ fun k : Fin 16 => dutyTok ER (ryCell k c) 0 false)
      ∗ (bigSep Finset.univ fun k : Fin 16 => dutyTok ER (sxCell k c) 0 false)
      ∗ (bigSep Finset.univ fun k : Fin 16 => dutyTok ER (rxCell k c) 0 false))
    ∗ dutyTok ER (barCell c) 0 true)
theorem tokOf_lt (c : Dev nD) (i : Fin 65) : tokOf (c, Fin.castAdd 1 i) = (kcell (c, i), 0, false) := dif_pos i.isLt
theorem tokOf_last (c : Dev nD) : tokOf (c, Fin.natAdd 65 (0 : Fin 1)) = (barCell c, 0, true) :=
  dif_neg (show ¬ (Fin.natAdd 65 (0 : Fin 1)).val < 65 by decide)
theorem toks_eq (c : Dev nD) :
    (bigSep Finset.univ fun j : Fin 66 => (dutyTok ER (tokOf (c, j)).1 (tokOf (c, j)).2.1 (tokOf (c, j)).2.2 : sProp 𝕄)) = toks c := by
  refine (fam_add 65 1 (fun j : Fin 66 => (dutyTok ER (tokOf (c, j)).1 (tokOf (c, j)).2.1 (tokOf (c, j)).2.2 : sProp 𝕄))).trans ?_
  refine congrArg₂ (fun X Y : sProp 𝕄 => iprop(X ∗ Y)) ?_ ?_
  · refine (bigSep_congr (Ψ := fun i : Fin 65 => (dutyTok ER (kcell (c, i)) 0 false : sProp 𝕄)) fun i _ => by rw [tokOf_lt]).trans ?_
    exact fam_roles c (fun g => (dutyTok ER g 0 false : sProp 𝕄))
  · refine (bigSep_univ_of_subsingleton (0 : Fin 1)).trans ?_
    show (dutyTok ER (tokOf (c, Fin.natAdd 65 (0 : Fin 1))).1 (tokOf (c, Fin.natAdd 65 (0 : Fin 1))).2.1 (tokOf (c, Fin.natAdd 65 (0 : Fin 1))).2.2 : sProp 𝕄) = _
    rw [tokOf_last]
def mid (c : Dev nD) : sProp 𝕄 :=
  iprop((bigSep Finset.univ fun j : Fin 65 => iprop(∃ κ : ℕ, cellInv ER (rsRd m) κ (kcell (c, j))))
    ∗ (bigSep Finset.univ fun j : Fin 65 => iprop(atPos ER (kcell (c, j)) 0 ∅ 0 ∗ reached ER (kcell (c, j)) 0))
    ∗ toks c
    ∗ (bigSep Finset.univ fun s : Fin 4 => semVal ((c : Thread nD τ), SemLoc.dma (ldS s)) 0)
    ∗ (bigSep Finset.univ fun s : Fin 4 => semVal ((c : Thread nD τ), SemLoc.dma (stS s)) 0))
theorem core_alloc (c : Dev nD) :
    iprop(Pipeline.ownSems0 (Ix := Unit) (Name := ℕ) (U := UU) (Lvl := ℕ) (Val := Elt F) (τ := τ) osem c ∗ unscopedSems0 c ∗ G m c) ⊢ |={Set.univ}=> mid m c := by
  unfold G mid
  iintro ⟨Hos, Hus, Hst, Hat, Htok⟩
  ihave Hv := (sems0_eq (F := F) c) $$ [Hos Hus]
  · isplitl [Hos] <;> iassumption
  icases Hv with ⟨Hv, Hld, Hsto⟩
  imod (show iprop((bigSep Finset.univ fun j : Fin 65 => semVal (kcell (c, j)) 0) ∗ bigSep Finset.univ fun j : Fin 65 => roundState ER (rsRd m) (kcell (c, j)) 0)
      ⊢ (|={Set.univ}=> bigSep Finset.univ fun j : Fin 65 => iprop(∃ κ : ℕ, cellInv ER (rsRd m) κ (kcell (c, j))) : sProp 𝕄) from by
        rw [← bigSep_sep']
        exact (bigSep_mono fun j _ => (Rounds.body_intro ER (rsRd m) (kcell (c, j))).trans inv_alloc).trans (bigSep_fupd _ _)) $$ [Hv Hst] with Hinv
  · isplitl [Hv] <;> iassumption
  imodintro
  ihave Htok' := (Entails.of_eq (toks_eq (F := F) c)) $$ Htok
  isplitl [Hinv]; · iexact Hinv
  isplitl [Hat]; · iexact Hat
  isplitl [Htok']; · iexact Htok'
  isplitl [Hld]; · iexact Hld
  iexact Hsto
def records (K : Dev nD × Fin 65 → ℕ) : sProp 𝕄 :=
  iprop((bigSep Finset.univ fun cj : Dev nD × Fin 65 => cellInv ER (rsRd m) (K cj) (kcell cj))
    ∗ bigSep Finset.univ fun cj : Dev nD × Fin 65 => reached ER (kcell cj) 0)
instance records_persistent (K : Dev nD × Fin 65 → ℕ) : BI.Persistent (records m K) := by unfold records; infer_instance
theorem inv_at (K : Dev nD × Fin 65 → ℕ) (cj : Dev nD × Fin 65) :
    (bigSep Finset.univ fun cj : Dev nD × Fin 65 => (cellInv ER (rsRd m) (K cj) (kcell cj) : sProp 𝕄)) ⊢ cellInv ER (rsRd m) (K cj) (kcell cj) :=
  bigSep_elim (Finset.mem_univ cj)
theorem reached_at (cj : Dev nD × Fin 65) :
    (bigSep Finset.univ fun cj : Dev nD × Fin 65 => (reached ER (kcell cj) 0 : sProp 𝕄)) ⊢ reached ER (kcell cj) 0 :=
  bigSep_elim (Finset.mem_univ cj)
theorem inv_ry (K : Dev nD × Fin 65 → ℕ) (c : Dev nD) (k : Fin 16) :
    (bigSep Finset.univ fun cj : Dev nD × Fin 65 => (cellInv ER (rsRd m) (K cj) (kcell cj) : sProp 𝕄)) ⊢ cellInv ER (rsRd m) (K (c, jry k)) (ryCell k c) :=
  (inv_at m K (c, jry k)).trans (Entails.of_eq (congrArg (fun g => (cellInv ER (rsRd m) (K (c, jry k)) g : sProp 𝕄)) (kcell_ry c k)))
theorem inv_rx (K : Dev nD × Fin 65 → ℕ) (c : Dev nD) (k : Fin 16) :
    (bigSep Finset.univ fun cj : Dev nD × Fin 65 => (cellInv ER (rsRd m) (K cj) (kcell cj) : sProp 𝕄)) ⊢ cellInv ER (rsRd m) (K (c, jrx k)) (rxCell k c) :=
  (inv_at m K (c, jrx k)).trans (Entails.of_eq (congrArg (fun g => (cellInv ER (rsRd m) (K (c, jrx k)) g : sProp 𝕄)) (kcell_rx c k)))
def linear (c : Dev nD) : sProp 𝕄 :=
  iprop((bigSep Finset.univ fun j : Fin 65 => atPos ER (kcell (c, j)) 0 ∅ 0)
    ∗ payToks c
    ∗ (bigSep Finset.univ fun s : Fin 4 => semVal ((c : Thread nD τ), SemLoc.dma (ldS s)) 0)
    ∗ (bigSep Finset.univ fun s : Fin 4 => semVal ((c : Thread nD τ), SemLoc.dma (stS s)) 0))
theorem ghost_intro (K : Dev nD × Fin 65 → ℕ) (c : Dev nD) : iprop(records m K ∗ linear c) ⊢ G' m c := by
  unfold records linear G' ghost invs
  iintro ⟨⟨#HI, #HR⟩, Hat, Htok, Hld, Hst⟩
  iexists K
  isplitr
  · isplitr
    · iapply (bigSep_intro_persistent (S := Finset.univ) fun (j : Fin 65) _ => inv_at m K (c, j)); iexact HI
    isplitr; · iapply (inv_at m K (ynb c, jbar)); iexact HI
    isplitr; · iapply (inv_at m K (xnb c, jbar)); iexact HI
    isplitr
    · iapply (bigSep_intro_persistent (S := Finset.univ) fun (k : Fin 16) _ => inv_ry m K (ynb c) k); iexact HI
    · iapply (bigSep_intro_persistent (S := Finset.univ) fun (k : Fin 16) _ => inv_rx m K (xnb c) k); iexact HI
  isplitl [Hat]; · iexact Hat
  isplitr
  · iapply (bigSep_intro_persistent (S := Finset.univ) fun (j : Fin 65) _ => reached_at (F := F) (c, j)); iexact HR
  isplitr; · iapply (reached_at (F := F) (ynb c, jbar)); iexact HR
  isplitr; · iapply (reached_at (F := F) (xnb c, jbar)); iexact HR
  isplitl [Htok]; · iexact Htok
  isplitl [Hld]; · iexact Hld
  iexact Hst
-- Each duty token is dealt to the neighbour that pays with it; both neighbour maps are bijections.
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv ynbE (fun c : Dev nD => (dutyTok ER (barCell c) 0 false : sProp 𝕄)),
    bigSep_univ_equiv xnbE (fun c : Dev nD => (dutyTok ER (barCell c) 0 true : sProp 𝕄)),
    bigSep_univ_equiv ynbE (fun c : Dev nD => (bigSep Finset.univ fun k : Fin 16 => dutyTok ER (ryCell k c) 0 false : sProp 𝕄)),
    bigSep_univ_equiv xnbE (fun c : Dev nD => (bigSep Finset.univ fun k : Fin 16 => dutyTok ER (rxCell k c) 0 false : sProp 𝕄))]
  iintro ⟨⟨HbF, Hsy, Hry, Hsx, Hrx⟩, HbT⟩
  isplitl [HbF]; · iexact HbF
  isplitl [HbT]; · iexact HbT
  isplitl [Hry]; · iexact Hry
  isplitl [Hrx]; · iexact Hrx
  isplitl [Hsy]; · iexact Hsy
  iexact Hsx
theorem regroup : (bigSep Finset.univ fun c : Dev nD => mid m c) ⊢ bigSep Finset.univ (G' m) := by
  unfold mid
  rw [bigSep_sep', bigSep_sep', bigSep_sep', bigSep_sep',
    ← bigSep_univ_prod (fun cj : Dev nD × Fin 65 => iprop(∃ κ : ℕ, cellInv ER (rsRd m) κ (kcell cj))),
    bigSep_congr (s := Finset.univ) (fun (c : Dev nD) _ => bigSep_sep' Finset.univ (fun j : Fin 65 => (atPos ER (kcell (c, j)) 0 ∅ 0 : sProp 𝕄)) (fun j => reached ER (kcell (c, j)) 0)),
    bigSep_sep', ← bigSep_univ_prod (fun cj : Dev nD × Fin 65 => (reached ER (kcell cj) 0 : sProp 𝕄))]
  iintro ⟨HI, ⟨Hat, #HR⟩, Htok, Hld, Hst⟩
  ihave HK := (BI.bigSep_exists_pi Finset.univ (fun (cj : Dev nD × Fin 65) (κ : ℕ) => (cellInv ER (rsRd m) κ (kcell cj) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · unfold linear
    rw [bigSep_sep', bigSep_sep', bigSep_sep']
    isplitl [Hat]; · iexact Hat
    isplitl [Htk]; · iexact Htk
    isplitl [Hld]; · iexact Hld
    iexact Hst
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))
end Cert.KernelIdeal.RS
end
-- ==== Proof.Launch.lean ====
import proofs.«900302_g7700000000000303_dist_rs_v7x_xy2x2_y_m16384_n1024_bf16_1_alg».proof.Proof.Levels
import proofs.«900302_g7700000000000303_dist_rs_v7x_xy2x2_y_m16384_n1024_bf16_1_alg».proof.Proof.Alloc
noncomputable section
namespace Cert.KernelIdeal.RS
open Cert.KernelIdeal Cert.KernelIdeal.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]
local notation "𝕄" => MT nD τ sig Unit (Elt F) ℕ UU ℕ
variable (m : Mem F) (ρ : Dev nD → PrngReg)
theorem bigSep_noWin (Φ : Fin cfg0.W → sProp 𝕄) : bigSep Finset.univ Φ = iprop(emp) := rfl
theorem body_prog : (defs₀ (F := F)) .tc cfg0.body (cfg0.bodyArgs t0_0 (cfg0.slots t0_0)) = bodyAt0 (F := F) t0_0 := rfl
set_option maxRecDepth 8000 in
theorem body_obligation (hbody : ∀ c : Dev nD, BodyStmt m c) (c : Dev nD) :
    BodyObligation (dats (F := F) m 0 c) (defs₀ (F := F)) 𝒱₀ () Set.univ := fun t => by
  rw [fin_N0 t, bigSep_noWin, bigSep_noWin, body_prog]
  have hpost : ∀ u : PUnit, iprop(Φ₁ m c ∗ ∃ W', owes (c : Thread nD τ) (0 : CellTallies nD τ sig Unit) W')
      ⊢ iprop((dats m 0 c).Φ t0_0.succ ∗ (dats m 0 c).owesAt () t0_0.succ ∗ emp) := fun _ => by
    unfold Dat.owesAt Pipeline.owesWithin
    rw [show (dats m 0 c).owed t0_0.succ = 0 from rfl, show (dats m 0 c).Φ t0_0.succ = Φ₁ m c from rfl]
    iintro ⟨HΦ, ⟨%W', HO⟩⟩
    isplitl [HΦ]; · iexact HΦ
    isplitl
    · iexists W'; isplitr; · ipureintro; exact fun _ _ => Or.inl trivial
      iexact HO
    · iempintro
  unfold Dat.owesAt Pipeline.owesWithin
  rw [show (dats m 0 c).owed t0_0.castSucc = O₀ c from rfl, show (dats m 0 c).Φ t0_0.castSucc = Φ₀ m c from rfl]
  iintro ⟨HΦ, ⟨%W, -, HO⟩, -⟩
  iapply (wp_mono _ _ _ hpost)
  iapply (hbody c W)
  isplitl [HΦ] <;> iassumption
theorem ownSemFacts : Pipeline.OwnSemFacts cfg0.spec osem := by decide
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(iprop(start m c ∗ hbm0 m c) ∗ emp) := by
  rw [Pipeline.unscopedRestP_none, unscopedRest0_eq]
  iintro ⟨⟨Ha, Hv⟩, Hlev, Hcr, -, HG⟩
  ihave Hc := (creds_of_launch (F := F) c) $$ Hcr
  imodintro
  unfold start G' hbm0 bufAny
  isplitl
  · isplitl [HG Hc Hlev]
    · isplitl [HG]; · iexact HG
      isplitl [Hc]; · iexact Hc
      iexact Hlev
    · isplitl [Ha]; · iexact Ha
      iexists _; iexact Hv
  · iempintro
theorem phi0_intro (c : Dev nD) :
    iprop(iprop(start m c ∗ hbm0 m c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch bufAny
  iintro ⟨⟨Hs, Hh⟩, -, Hr⟩
  isplitl [Hs]; · iexact Hs
  isplitl [Hh]; · iexact Hh
  iexact Hr
theorem phi1_exit (c : Dev nD) :
    (dats m 0 c).Φ (Fin.last cfg0.N) ⊢ iprop(hbm1 m c ∗ Pipeline.ownSems0 osem c ∗ Pipeline.scopedRest cfg0.spec c) := by
  rw [show (dats m 0 c).Φ (Fin.last cfg0.N) = Φ₁ m c from rfl, scopedRest0_eq]
  unfold Φ₁ scratch bufAny Pipeline.ownSems0
  iintro ⟨Hh, Hr, Hz⟩
  isplitl [Hh]; · iexact Hh
  isplitl [Hz]; · iexact Hz
  iexact Hr
theorem waits (c : Dev nD) : (levAts L lv : sProp 𝕄) ⊢ Pipeline.cellsWaits cfgs (dats m) () 0 c :=
  Pipeline.cellsWaits_intro cfgs (dats m) () 0 c fun w _ _ => w.elim0
def QC : PUnit × MemSt nD τ sig (Elt F) → Prop := fun r =>
  ∀ c : Dev nD, r.2.mem ((c.tc : Thread nD τ).loc main_arg0) = m ((c.tc : Thread nD τ).loc main_arg0)
    ∧ OutOK m c (r.2.mem ((c.tc : Thread nD τ).loc main_v1))
theorem run_main (hbody : ∀ c : Dev nD, BodyStmt m c) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m hbody c).loose) (hne := fun w => w.elim0) (harr := arr_whole0) (hstage := stage_whole0)
    (hshare := fun _ w => w.elim0) (hdistinct := fun w => w.elim0)
    (O₀ := O₀) (howed₀ := fun _ => rfl) (howedN := fun _ => rfl)
    (L := L) (lv := lv) (hL := L_of_ne) (hwaits := waits m)
    (G := G m) (G' := G' m) (u₀ := u₀)
    (hu₀ := hu0 m)
    (hglob := glob m)
    (hA := fun _ w => w.elim0) (hpf := fun _ k => k.elim0)
    (X := fun c => iprop(start m c ∗ hbm0 m c)) (Y := hbm1 m) (Z := fun _ => iprop(emp))
    (hX := start_intro m ρ) (hin := phi0_intro m) (hout := phi1_exit m)
    (QY := fun c s => s.mem ((c.tc : Thread nD τ).loc main_arg0) = m ((c.tc : Thread nD τ).loc main_arg0)
      ∧ OutOK m c (s.mem ((c.tc : Thread nD τ).loc main_v1)))
    (hY := fun c s' => by
      unfold hbm1
      iintro ⟨⟨Ha, ⟨%o, %ho, Hv⟩⟩, -, HSI⟩
      icombine HSI Ha gives %ha
      icombine HSI Hv gives %hv
      imodintro
      isplitr
      · ipureintro
        refine ⟨Buf.eq_of_forall_mem_univ ha, ?_⟩
        rw [Buf.eq_of_forall_mem_univ hv]; exact ho
      iexact HSI)
    (hQ := fun _ h c => (h c).2.2)
end Cert.KernelIdeal.RS
end
-- ==== Proof.ValueBridge.lean ====
import proofs.«900302_g7700000000000303_dist_rs_v7x_xy2x2_y_m16384_n1024_bf16_1_alg».proof.Proof.Spec
import proofs.«900302_g7700000000000303_dist_rs_v7x_xy2x2_y_m16384_n1024_bf16_1_alg».proof.Proof.Gen.ReferenceIdeal.Read
import Idealize.ShloMosaic.Lib.Layout
import Idealize.ShloMosaic.Lib.Pipeline.Value
import Idealize.ShloMosaic.PureOps.Ideal.Laws
noncomputable section
namespace Cert.KernelIdeal.RS
open Cert.KernelIdeal Cert.KernelIdeal.Gen
open Idealize.ShloMosaic
theorem read_v1_slice (off : Fin 2 → Nat) (inb : ∀ a, off a + S512x1024.size a ≤ S16384x1024.size a)
    (c : Dev nD) (o : Buf (Elt Ideal) ((c.tc : Thread nD τ).loc main_v1)) (x : S512x1024.Idx) (i : S16384x1024.Idx)
    (h0 : (i 0).val = off 0 + (x 0).val) (h1 : (i 1).val = off 1 + (x 1).val) :
    ((Memref.whole main_v1).slice (Rect.unit (s := S16384x1024) off S512x1024.size inb) (fun _ => rfl) : Memref sig .tc .hbm S512x1024 .bf16).view.read (Elt Ideal) o x = o i := by
  show o _ = o i
  congr 1
  funext a
  apply Fin.ext
  match a with
  | ⟨0, _⟩ => show off 0 + 1 * (x 0).val = (i 0).val; omega
  | ⟨1, _⟩ => show off 1 + 1 * (x 1).val = (i 1).val; omega
theorem read_arg0_slice (off : Fin 3 → Nat) (inb : ∀ a, off a + S1x512x1024.size a ≤ S1x16384x2048.size a)
    (c : Dev nD) (f : Buf (Elt Ideal) ((c.tc : Thread nD τ).loc main_arg0)) (x : S512x1024.Idx) (i : S1x16384x2048.Idx)
    (h0 : (i 0).val = off 0) (h1 : (i 1).val = off 1 + (x 0).val) (h2 : (i 2).val = off 2 + (x 1).val) :
    (((Memref.whole main_arg0).slice (Rect.unit (s := S1x16384x2048) off S1x512x1024.size inb) (fun _ => rfl)).squeeze S512x1024 squeezes_S1x512x1024_S512x1024 : Memref sig .tc .hbm S512x1024 .f32).view.read (Elt Ideal) f x = f i := by
  rw [Memref.read_squeeze_slice (Val := Elt Ideal) (Memref.whole main_arg0) (Rect.unit (s := S1x16384x2048) off S1x512x1024.size inb) (fun _ => rfl)
    squeezes_S1x512x1024_S512x1024 shapeCasts_S1x512x1024_S512x1024 f]
  rw [shapeCast_dropUnit_apply ![512, 1024]]
  show f _ = f i
  congr 1
  funext a
  apply Fin.ext
  match a with
  | ⟨0, _⟩ => show off 0 + 1 * 0 = (i 0).val; omega
  | ⟨1, _⟩ => show off 1 + 1 * (x 0).val = (i 1).val; omega
  | ⟨2, _⟩ => show off 2 + 1 * (x 1).val = (i 2).val; omega
theorem foldOut_apply (P Q : S512x1024.Idx → Elt Ideal .f32) (x : S512x1024.Idx) :
    foldOut (F := Ideal) (ldV P) (toSend (ldV Q)) x = (show EReal from P x) + (show EReal from Q x) := by
  unfold foldOut toSend k0_pay17 k0_pay1 ldV
  simp only [shapeCast_shapeCast, shapeCast_self]
  rfl
def idx2 {n0 n1 : Nat} (p q : Nat) (hp : p < n0) (hq : q < n1) : (⟨2, ![n0, n1]⟩ : Shape).Idx :=
  fun t => match t with | ⟨0, _⟩ => ⟨p, hp⟩ | ⟨1, _⟩ => ⟨q, hq⟩
def idx3 {n0 n1 n2 : Nat} (p q r : Nat) (hp : p < n0) (hq : q < n1) (hr : r < n2) : (⟨3, ![n0, n1, n2]⟩ : Shape).Idx :=
  fun t => match t with | ⟨0, _⟩ => ⟨p, hp⟩ | ⟨1, _⟩ => ⟨q, hq⟩ | ⟨2, _⟩ => ⟨r, hr⟩
@[simp] theorem idx2_0 {n0 n1 : Nat} (p q : Nat) (hp : p < n0) (hq : q < n1) : (idx2 p q hp hq 0).val = p := rfl
@[simp] theorem idx2_1 {n0 n1 : Nat} (p q : Nat) (hp : p < n0) (hq : q < n1) : (idx2 p q hp hq 1).val = q := rfl
@[simp] theorem idx3_0 {n0 n1 n2 : Nat} (p q r : Nat) (hp : p < n0) (hq : q < n1) (hr : r < n2) : (idx3 p q r hp hq hr 0).val = p := rfl
@[simp] theorem idx3_1 {n0 n1 n2 : Nat} (p q r : Nat) (hp : p < n0) (hq : q < n1) (hr : r < n2) : (idx3 p q r hp hq hr 1).val = q := rfl
@[simp] theorem idx3_2 {n0 n1 n2 : Nat} (p q r : Nat) (hp : p < n0) (hq : q < n1) (hr : r < n2) : (idx3 p q r hp hq hr 2).val = r := rfl
theorem vec3_congr {a b b' c c' : Nat} (hb : b = b') (hc : c = c') : (![a, b, c] : Fin 3 → Nat) = ![a, b', c'] := by
  subst hb hc; rfl
theorem meshLin_col : ∀ c : Dev nD, Layout.meshLin [2, 2] c.val [1] = c.val % 2 := by decide
theorem slab_apply (m : Mem Ideal)
    (X : Buf (Elt Ideal) (((0 : Dev Cert.ReferenceIdeal.nD).tc : Thread Cert.ReferenceIdeal.nD Cert.ReferenceIdeal.τ).loc Cert.ReferenceIdeal.main_arg0))
    (hagree : ∀ c : Dev nD, m ((c.tc : Thread nD τ).loc main_arg0) = Layout.blockN ⟨3, ![1, 16384, 2048]⟩ ⟨3, ![2, 16384, 2048]⟩ (Layout.meshBlock [2, 2] ![[1], [], []] c) X)
    (c : Dev nD) (a : S1x16384x2048.Idx) (I : Cert.ReferenceIdeal.S2x16384x2048.Idx)
    (h0 : (I 0).val = c.val % 2) (h1 : (I 1).val = (a 1).val) (h2 : (I 2).val = (a 2).val) :
    slab m c a = X I := by
  have ha0 : (a 0).val < 1 := (a 0).isLt
  show m ((c.tc : Thread nD τ).loc main_arg0) a = X I
  rw [hagree c, Layout.blockN_apply]
  congr 1
  funext b
  apply Fin.ext
  rw [Layout.TilesN.idx_val]
  match b with
  | ⟨0, _⟩ =>
    show ((Layout.meshBlock [2, 2] ![[1], [], []] c) 0).val * 1 + (a 0).val = (I 0).val
    rw [Layout.meshBlock_val]
    show Layout.meshLin [2, 2] c.val [1] * 1 + (a 0).val = (I 0).val
    rw [meshLin_col]; omega
  | ⟨1, _⟩ =>
    show ((Layout.meshBlock [2, 2] ![[1], [], []] c) 1).val * 16384 + (a 1).val = (I 1).val
    rw [Layout.meshBlock_val]
    show 0 * 16384 + (a 1).val = (I 1).val
    omega
  | ⟨2, _⟩ =>
    show ((Layout.meshBlock [2, 2] ![[1], [], []] c) 2).val * 2048 + (a 2).val = (I 2).val
    rw [Layout.meshBlock_val]
    show 0 * 2048 + (a 2).val = (I 2).val
    omega
theorem ref_apply
    (X : Buf (Elt Ideal) (((0 : Dev Cert.ReferenceIdeal.nD).tc : Thread Cert.ReferenceIdeal.nD Cert.ReferenceIdeal.τ).loc Cert.ReferenceIdeal.main_arg0))
    (I : Cert.ReferenceIdeal.S16384x2048.Idx) (I0 I1 : Cert.ReferenceIdeal.S2x16384x2048.Idx)
    (h00 : (I0 0).val = 0) (h01 : (I0 1).val = (I 0).val) (h02 : (I0 2).val = (I 1).val)
    (h10 : (I1 0).val = 1) (h11 : (I1 1).val = (I 0).val) (h12 : (I1 2).val = (I 1).val) :
    Cert.ReferenceIdeal.Read.val_main_v1 (F := Ideal) X I = (show EReal from X I0) + (show EReal from X I1) := by
  have e0 : Cert.ReferenceIdeal.Read.idx_main_v0 I 0 = I0 := funext fun a => Fin.ext (by
    match a with | ⟨0, _⟩ => exact h00.symm | ⟨1, _⟩ => exact h01.symm | ⟨2, _⟩ => exact h02.symm)
  have e1 : Cert.ReferenceIdeal.Read.idx_main_v0 I 1 = I1 := funext fun a => Fin.ext (by
    match a with | ⟨0, _⟩ => exact h10.symm | ⟨1, _⟩ => exact h11.symm | ⟨2, _⟩ => exact h12.symm)
  rw [Cert.ReferenceIdeal.Read.val_main_v1_apply, Cert.ReferenceIdeal.Read.val_main_v0_apply,
    Cert.ReferenceIdeal.Read.val_main_cst_apply, Fin.sum_univ_two, e0, e1]
  simp only [Ideal.truncf_def, Ideal.ofBits_def, Ideal.ofBits_zero_f32]
  exact zero_add _
theorem two_slabs (m : Mem Ideal)
    (X : Buf (Elt Ideal) (((0 : Dev Cert.ReferenceIdeal.nD).tc : Thread Cert.ReferenceIdeal.nD Cert.ReferenceIdeal.τ).loc Cert.ReferenceIdeal.main_arg0))
    (hagree : ∀ c : Dev nD, m ((c.tc : Thread nD τ).loc main_arg0) = Layout.blockN ⟨3, ![1, 16384, 2048]⟩ ⟨3, ![2, 16384, 2048]⟩ (Layout.meshBlock [2, 2] ![[1], [], []] c) X)
    (c c' : Dev nD) (hcc : c'.val % 2 = 1 - c.val % 2) (a a' : S1x16384x2048.Idx) (I : Cert.ReferenceIdeal.S16384x2048.Idx)
    (ha1 : (a 1).val = (I 0).val) (ha2 : (a 2).val = (I 1).val) (ha1' : (a' 1).val = (I 0).val) (ha2' : (a' 2).val = (I 1).val) :
    (show EReal from slab m c a) + (show EReal from slab m c' a') = Cert.ReferenceIdeal.Read.val_main_v1 (F := Ideal) X I := by
  have hI0 : (I 0).val < 16384 := (I 0).isLt
  have hI1 : (I 1).val < 2048 := (I 1).isLt
  have hc : c.val % 2 = 0 ∨ c.val % 2 = 1 := by omega
  rw [ref_apply X I (idx3 (n0 := 2) (n1 := 16384) (n2 := 2048) 0 (I 0).val (I 1).val (by decide) hI0 hI1)
    (idx3 (n0 := 2) (n1 := 16384) (n2 := 2048) 1 (I 0).val (I 1).val (by decide) hI0 hI1) rfl rfl rfl rfl rfl rfl]
  rcases hc with hc | hc
  · rw [slab_apply m X hagree c a (idx3 (n0 := 2) (n1 := 16384) (n2 := 2048) 0 (I 0).val (I 1).val (by decide) hI0 hI1)
        (by rw [idx3_0]; omega) (by rw [idx3_1]; omega) (by rw [idx3_2]; omega),
      slab_apply m X hagree c' a' (idx3 (n0 := 2) (n1 := 16384) (n2 := 2048) 1 (I 0).val (I 1).val (by decide) hI0 hI1)
        (by rw [idx3_0]; omega) (by rw [idx3_1]; omega) (by rw [idx3_2]; omega)]
  · rw [slab_apply m X hagree c a (idx3 (n0 := 2) (n1 := 16384) (n2 := 2048) 1 (I 0).val (I 1).val (by decide) hI0 hI1)
        (by rw [idx3_0]; omega) (by rw [idx3_1]; omega) (by rw [idx3_2]; omega),
      slab_apply m X hagree c' a' (idx3 (n0 := 2) (n1 := 16384) (n2 := 2048) 0 (I 0).val (I 1).val (by decide) hI0 hI1)
        (by rw [idx3_0]; omega) (by rw [idx3_1]; omega) (by rw [idx3_2]; omega)]
    exact add_comm (G := EReal) _ _
theorem entry_gen (m : Mem Ideal)
    (X : Buf (Elt Ideal) (((0 : Dev Cert.ReferenceIdeal.nD).tc : Thread Cert.ReferenceIdeal.nD Cert.ReferenceIdeal.τ).loc Cert.ReferenceIdeal.main_arg0))
    (hagree : ∀ c : Dev nD, m ((c.tc : Thread nD τ).loc main_arg0) = Layout.blockN ⟨3, ![1, 16384, 2048]⟩ ⟨3, ![2, 16384, 2048]⟩ (Layout.meshBlock [2, 2] ![[1], [], []] c) X)
    (c c' : Dev nD) (hcc : c'.val % 2 = 1 - c.val % 2) (o : Buf (Elt Ideal) ((c.tc : Thread nD τ).loc main_v1))
    (R : Nat) (offD : Fin 2 → Nat) (inbD : ∀ a, offD a + S512x1024.size a ≤ S16384x1024.size a)
    (offS : Fin 3 → Nat) (inbS : ∀ a, offS a + S1x512x1024.size a ≤ S1x16384x2048.size a)
    (offP : Fin 3 → Nat) (inbP : ∀ a, offP a + S1x512x1024.size a ≤ S1x16384x2048.size a)
    (hD : offD = ![R, 0]) (hS : offS = ![0, R, 1024 * (c.val % 2)]) (hP : offP = ![0, R, 1024 * (c.val % 2)])
    (heq : ((Memref.whole main_v1).slice (Rect.unit (s := S16384x1024) offD S512x1024.size inbD) (fun _ => rfl) : Memref sig .tc .hbm S512x1024 .bf16).view.read (Elt Ideal) o
      = foldOut (ldV ((((Memref.whole main_arg0).slice (Rect.unit (s := S1x16384x2048) offS S1x512x1024.size inbS) (fun _ => rfl)).squeeze S512x1024 squeezes_S1x512x1024_S512x1024 : Memref sig .tc .hbm S512x1024 .f32).view.read (Elt Ideal) (slab m c)))
          (toSend (ldV ((((Memref.whole main_arg0).slice (Rect.unit (s := S1x16384x2048) offP S1x512x1024.size inbP) (fun _ => rfl)).squeeze S512x1024 squeezes_S1x512x1024_S512x1024 : Memref sig .tc .hbm S512x1024 .f32).view.read (Elt Ideal) (slab m c')))))
    (x : S512x1024.Idx) (i : S16384x1024.Idx) (h0 : (i 0).val = R + (x 0).val) (h1 : (i 1).val = (x 1).val)
    (I : Cert.ReferenceIdeal.S16384x2048.Idx) (hI0 : (I 0).val = (i 0).val) (hI1 : (I 1).val = 1024 * (c.val % 2) + (i 1).val) :
    o i = Cert.ReferenceIdeal.Read.val_main_v1 (F := Ideal) X I := by
  subst hD hS hP
  have hr : (i 0).val < 16384 := (i 0).isLt
  have hj : (i 1).val < 1024 := (i 1).isLt
  have hJ : 1024 * (c.val % 2) + (i 1).val < 2048 := by omega
  have s1 := read_v1_slice ![R, 0] inbD c o x i (by show (i 0).val = R + (x 0).val; exact h0) (by show (i 1).val = 0 + (x 1).val; omega)
  rw [← s1, heq, foldOut_apply]
  rw [read_arg0_slice ![0, R, 1024 * (c.val % 2)] inbS c (slab m c) x
      (idx3 (n0 := 1) (n1 := 16384) (n2 := 2048) 0 (i 0).val (1024 * (c.val % 2) + (i 1).val) (by decide) hr hJ) rfl
      (by show (i 0).val = R + (x 0).val; exact h0) (by show 1024 * (c.val % 2) + (i 1).val = 1024 * (c.val % 2) + (x 1).val; omega),
    read_arg0_slice ![0, R, 1024 * (c.val % 2)] inbP c' (slab m c') x
      (idx3 (n0 := 1) (n1 := 16384) (n2 := 2048) 0 (i 0).val (1024 * (c.val % 2) + (i 1).val) (by decide) hr hJ) rfl
      (by show (i 0).val = R + (x 0).val; exact h0) (by show 1024 * (c.val % 2) + (i 1).val = 1024 * (c.val % 2) + (x 1).val; omega)]
  exact two_slabs m X hagree c c' hcc _ _ I (by rw [idx3_1]; omega) (by rw [idx3_2]; omega) (by rw [idx3_1]; omega) (by rw [idx3_2]; omega)
theorem ynb_row : ∀ c : Dev nD, (ynb c).val / 2 = c.val / 2 := by decide
theorem ynb_col : ∀ c : Dev nD, (ynb c).val % 2 = 1 - c.val % 2 := by decide
theorem ynb_xnb_row : ∀ c : Dev nD, (ynb (xnb c)).val / 2 = 1 - c.val / 2 := by decide
theorem ynb_xnb_col : ∀ c : Dev nD, (ynb (xnb c)).val % 2 = 1 - c.val % 2 := by decide
theorem out_is_block (m : Mem Ideal)
    (X : Buf (Elt Ideal) (((0 : Dev Cert.ReferenceIdeal.nD).tc : Thread Cert.ReferenceIdeal.nD Cert.ReferenceIdeal.τ).loc Cert.ReferenceIdeal.main_arg0))
    (hagree : ∀ c : Dev nD, m ((c.tc : Thread nD τ).loc main_arg0) = Layout.blockN ⟨3, ![1, 16384, 2048]⟩ ⟨3, ![2, 16384, 2048]⟩ (Layout.meshBlock [2, 2] ![[1], [], []] c) X)
    (c : Dev nD) (o : Buf (Elt Ideal) ((c.tc : Thread nD τ).loc main_v1)) (h : OutOK m c o) :
    o = Layout.blockN ⟨2, ![16384, 1024]⟩ ⟨2, ![16384, 2048]⟩ (Layout.meshBlock [2, 2] ![[], [1]] c) (Cert.ReferenceIdeal.Read.val_main_v1 (F := Ideal) X) := by
  obtain ⟨hY, hX⟩ := h
  refine funext fun (i : S16384x1024.Idx) => ?_
  have hr : (i 0).val < 16384 := (i 0).isLt
  have hj : (i 1).val < 1024 := (i 1).isLt
  have hcl : c.val < 4 := c.isLt
  have hd : c.val / 2 = 0 ∨ c.val / 2 = 1 := by omega
  have hm : c.val % 2 = 0 ∨ c.val % 2 = 1 := by omega
  rw [Layout.blockN_apply]
  have hI0 : ((Layout.TilesN.idx (S := ⟨2, ![16384, 1024]⟩) (T := ⟨2, ![16384, 2048]⟩) (by decide) (Layout.meshBlock [2, 2] ![[], [1]] c) i) 0).val = (i 0).val := by
    rw [Layout.TilesN.idx_val]
    show ((Layout.meshBlock [2, 2] ![[], [1]] c) 0).val * 16384 + (i 0).val = (i 0).val
    rw [Layout.meshBlock_val]
    show 0 * 16384 + (i 0).val = (i 0).val
    omega
  have hI1 : ((Layout.TilesN.idx (S := ⟨2, ![16384, 1024]⟩) (T := ⟨2, ![16384, 2048]⟩) (by decide) (Layout.meshBlock [2, 2] ![[], [1]] c) i) 1).val = 1024 * (c.val % 2) + (i 1).val := by
    rw [Layout.TilesN.idx_val]
    show ((Layout.meshBlock [2, 2] ![[], [1]] c) 1).val * 1024 + (i 1).val = 1024 * (c.val % 2) + (i 1).val
    rw [Layout.meshBlock_val]
    show Layout.meshLin [2, 2] c.val [1] * 1024 + (i 1).val = 1024 * (c.val % 2) + (i 1).val
    rw [meshLin_col]; omega
  by_cases hown : 8192 * (c.val / 2) ≤ (i 0).val ∧ (i 0).val < 8192 * (c.val / 2) + 8192
  ·
    have hk : ((i 0).val - 8192 * (c.val / 2)) / 512 < 16 := by omega
    have hx : ((i 0).val - 8192 * (c.val / 2)) % 512 < 512 := by omega
    refine entry_gen m X hagree c (ynb c) (ynb_col c) o
      (8192 * (c.val / 2) + 512 * (((i 0).val - 8192 * (c.val / 2)) / 512))
      (k0_off4 c (w512 ⟨_, hk⟩)) (k0_off4_inb c ⟨_, hk⟩) (k0_off2 c (w512 ⟨_, hk⟩)) (k0_off2_inb c ⟨_, hk⟩)
      (k0_off1 (ynb c) (w512 ⟨_, hk⟩)) (k0_off1_inb (ynb c) ⟨_, hk⟩)
      (k0_off4_eq c ⟨_, hk⟩) (k0_off2_eq c ⟨_, hk⟩)
      ((k0_off1_eq (ynb c) ⟨_, hk⟩).trans (vec3_congr (by rw [ynb_row c]) (by rw [ynb_col c]; omega)))
      (hY ⟨_, hk⟩) (idx2 (n0 := 512) (n1 := 1024) (((i 0).val - 8192 * (c.val / 2)) % 512) (i 1).val hx hj) i
      (by rw [idx2_0]; omega) (by rw [idx2_1]) _ hI0 hI1
  ·
    have hk : ((i 0).val - (8192 - 8192 * (c.val / 2))) / 512 < 16 := by omega
    have hx : ((i 0).val - (8192 - 8192 * (c.val / 2))) % 512 < 512 := by omega
    refine entry_gen m X hagree c (ynb (xnb c)) (ynb_xnb_col c) o
      ((512 * (((i 0).val - (8192 - 8192 * (c.val / 2))) / 512) + 8192) - 8192 * (c.val / 2))
      (k0_off5 c (w512 ⟨_, hk⟩)) (k0_off5_inb c ⟨_, hk⟩) (k0_off3 c (w512 ⟨_, hk⟩)) (k0_off3_inb c ⟨_, hk⟩)
      (k0_off1 (ynb (xnb c)) (w512 ⟨_, hk⟩)) (k0_off1_inb (ynb (xnb c)) ⟨_, hk⟩)
      (k0_off5_eq c ⟨_, hk⟩) (k0_off3_eq c ⟨_, hk⟩)
      ((k0_off1_eq (ynb (xnb c)) ⟨_, hk⟩).trans (vec3_congr
        (by rw [ynb_xnb_row c]
            show 8192 * (1 - c.val / 2) + 512 * (((i 0).val - (8192 - 8192 * (c.val / 2))) / 512) = _
            omega)
        (by rw [ynb_xnb_col c]; omega)))
      (hX ⟨_, hk⟩) (idx2 (n0 := 512) (n1 := 1024) (((i 0).val - (8192 - 8192 * (c.val / 2))) % 512) (i 1).val hx hj) i
      (by rw [idx2_0]; omega) (by rw [idx2_1]) _ hI0 hI1
end Cert.KernelIdeal.RS
end
-- ==== Proof.Assemble.lean ====
import proofs.«900302_g7700000000000303_dist_rs_v7x_xy2x2_y_m16384_n1024_bf16_1_alg».proof.Defs
import proofs.«900302_g7700000000000303_dist_rs_v7x_xy2x2_y_m16384_n1024_bf16_1_alg».proof.Proof.Launch
import proofs.«900302_g7700000000000303_dist_rs_v7x_xy2x2_y_m16384_n1024_bf16_1_alg».proof.Proof.ValueBridge
import proofs.«900302_g7700000000000303_dist_rs_v7x_xy2x2_y_m16384_n1024_bf16_1_alg».proof.Proof.Gen.ReferenceIdeal.Run
import proofs.«900302_g7700000000000303_dist_rs_v7x_xy2x2_y_m16384_n1024_bf16_1_alg».proof.Proof.Gen.ReferenceIdeal.Read
import proofs.«900302_g7700000000000303_dist_rs_v7x_xy2x2_y_m16384_n1024_bf16_1_alg».proof.Proof.Gen.ReferenceIdeal
import proofs.«900302_g7700000000000303_dist_rs_v7x_xy2x2_y_m16384_n1024_bf16_1_alg».proof.Proof.Gen.Pre_finite_inputs_Kernel
import proofs.«900302_g7700000000000303_dist_rs_v7x_xy2x2_y_m16384_n1024_bf16_1_alg».proof.Proof.Gen.Pre_finite_inputs_ReferenceIdeal
noncomputable section
namespace Cert.KernelIdeal.RS
open Idealize.ShloMosaic
variable {F : FTy → Type} [FloatOps F]
theorem frame_ki (hbody : ∀ (m : Mem Ideal) (c : Dev nD), BodyStmt m c) : Cert.frame_KernelIdeal := fun m ρ _ =>
  (θ_run _ _ _).mono (fun _ h c => (h c).1) (run_main m ρ (hbody m))
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial
theorem algebraic (hbody : ∀ (m : Mem Ideal) (c : Dev nD), BodyStmt m c) : Cert.algebraic_KernelIdeal_ReferenceIdeal := by
  intro m ρ m' ρ' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · exact (θ_run _ _ _).mono (fun _ h c => ⟨out_is_block m _ hagree c _ (h c).2, (h c).1⟩) (run_main m ρ (hbody m))
  · exact (θ_run Cert.ReferenceIdeal.defs _ _).mono
      (fun _ h => ⟨(h 0).1.trans (Cert.ReferenceIdeal.Read.val_main_v1_eq _), (h 0).2⟩)
      (Cert.ReferenceIdeal.Value.run (F := Ideal) m' ρ')
end Cert.KernelIdeal.RS
end
-- ==== Proof.Steps.lean ====
import proofs.«900302_g7700000000000303_dist_rs_v7x_xy2x2_y_m16384_n1024_bf16_1_alg».proof.Proof.Levels
noncomputable section
namespace Cert.KernelIdeal.RS
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : Mem F) (c : Dev nD) {α : Type} {Q : α → sProp (MT nD τ sig Unit (Elt F) ℕ UU ℕ)}
theorem step_sigY {kont : PUnit → Prog (TpuEff nD τ sig (Elt F) Λ₀ .tc) α} (nd : Dev nD) (hn : nd = ynb c) {a : ℕ} (ha : 1 = a)
    {κ : ℕ} {W : Waits sig Unit} :
    iprop(cellInv ER (rsRd m) κ (barCell (ynb c)) ∗ owes (c : Thread nD τ) (owedN c 34) W ∗ dutyTok ER (barCell (ynb c)) 0 false
        ∗ bufAny cc0_scratch1 c ∗ (bigSep Finset.univ fun k : Fin 16 => reached ER (ryCell k c) 0) ∗ reached ER (barCell (ynb c)) 0)
      ⊢ iprop((owes (c : Thread nD τ) (owedN c 33) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal ((nd : Dev nD) : Thread nD τ) barS a) kont) Q) := by
  subst hn; subst ha
  have hO : owedN c 34 = owedN c 33 + tallyAt (barCell (ynb c)) () 1 := by
    rw [owedN_succ]; rfl
  iintro ⟨Hg, HL, Htok, Hbuf, Hr16, Hr⟩
  iapply (Rounds.wp_signal 𝒱₀ ER (rsRd m) (c : Thread nD τ) none (dst := (ynb c : Thread nD τ)) (sem := barS) (κ := κ) (r := 0) (d := false)
    (by rw [duties_bar]; exact Finset.mem_univ _) (amount_bar m (ynb c) 0 false) () (owedN c 33) hO)
  isplitl [Hg]; · iexact Hg
  isplitl [HL]; · iexact HL
  isplitl [Htok]; · iexact Htok
  isplitr [Hr]
  · rw [payload_bar_false]; unfold barPayY; rw [ynb_ynb]
    isplitl [Hbuf] <;> iassumption
  · iexact Hr
theorem step_sigX {kont : PUnit → Prog (TpuEff nD τ sig (Elt F) Λ₀ .tc) α} (nd : Dev nD) (hn : nd = xnb c) {a : ℕ} (ha : 1 = a)
    {κ : ℕ} {W : Waits sig Unit} :
    iprop(cellInv ER (rsRd m) κ (barCell (xnb c)) ∗ owes (c : Thread nD τ) (owedN c 33) W ∗ dutyTok ER (barCell (xnb c)) 0 true
        ∗ bufAny cc0_scratch2 c ∗ (bigSep Finset.univ fun k : Fin 16 => reached ER (rxCell k c) 0) ∗ reached ER (barCell (xnb c)) 0)
      ⊢ iprop((owes (c : Thread nD τ) (owedN c 32) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal ((nd : Dev nD) : Thread nD τ) barS a) kont) Q) := by
  subst hn; subst ha
  have hO : owedN c 33 = owedN c 32 + tallyAt (barCell (xnb c)) () 1 := by
    rw [owedN_succ]; rfl
  iintro ⟨Hg, HL, Htok, Hbuf, Hr16, Hr⟩
  iapply (Rounds.wp_signal 𝒱₀ ER (rsRd m) (c : Thread nD τ) none (dst := (xnb c : Thread nD τ)) (sem := barS) (κ := κ) (r := 0) (d := true)
    (by rw [duties_bar]; exact Finset.mem_univ _) (amount_bar m (xnb c) 0 true) () (owedN c 32) hO)
  isplitl [Hg]; · iexact Hg
  isplitl [HL]; · iexact HL
  isplitl [Htok]; · iexact Htok
  isplitr [Hr]
  · rw [payload_bar_true]; unfold barPayX; rw [xnb_xnb]
    isplitl [Hbuf] <;> iassumption
  · iexact Hr
theorem step_barwait {kont : PUnit → Prog (TpuEff nD τ sig (Elt F) Λ₀ .tc) α} {a : ℕ} (ha : 2 = a) {κ : ℕ} {W : Waits sig Unit} :
    iprop(cellInv ER (rsRd m) κ (barCell c) ∗ cred (tallyAt (barCell c) () 2) ∗ owes (c : Thread nD τ) (owedN c 32) W
        ∗ levAts L lv ∗ atPos ER (barCell c) 0 ∅ 0)
      ⊢ iprop(((owes (c : Thread nD τ) (owedN c 32) (insert (SemLoc.reg barS, ()) W) ∗ atPos ER (barCell c) 1 ∅ 0
              ∗ barPayY c ∗ barPayX c) -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS a) kont) Q) := by
  subst ha
  have hlev : (levAts L lv : sProp 𝕄) ⊢ MayWait (c : Thread nD τ) (.reg barS) () (owedN c 32) :=
    mayWait_owedN c (.reg barS) 32 (by decide) (fun i hi hi' => by
      show 1 < lvTal i
      unfold lvTal; split_ifs <;> omega)
  have h := Rounds.wp_wait_rest_token (defs := defs₀ (F := F)) 𝒱₀ ER (rsRd m) (c : Thread nD τ) none (κ := κ) (Q := Q) (k := kont)
      (w := TpuEff.semWait barS 2) (sm := .reg barS) (k' := 2)
      (wpE_semWait_eq 𝒱₀ (c : Thread nD τ) none Set.univ) (Set.mem_univ _) () (O := owedN c 32) (W := W) (R := 0) (m := 0) (T := ∅)
      (by rw [expect_bar])
  rw [rest_bar] at h
  iintro ⟨Hg, Hc, HL, Hlev, Hat⟩ Hk
  iapply h $$ [Hg Hc HL Hlev Hat]
  · isplitl [Hg]; · iexact Hg
    isplitl [Hc]; · iexact Hc
    isplitl [HL]; · iexact HL
    isplitl [Hlev]
    · iapply hlev; iexact Hlev
    · iexact Hat
  iintro ⟨HL, Hat, Hr, HY, HX⟩
  iapply Hk
  isplitl [HL]; · iexact HL
  isplitl [Hat]; · iexact Hat
  isplitl [HY] <;> iassumption
-- The copy of chunk k to the y-neighbour pays the device's send cell and the neighbour's receive cell.
theorem step_sendY (k : Fin 16) (n : ℕ) (hnk : n + k.val = 31) (nd : Dev nD) (hn : nd = ynb c)
    {hsc : ((ryM k : Memref sig .tc .vmem S512x1024 .bf16) : Memref sig (Dev.tc nd : Thread nD τ).2.kind .vmem S512x1024 .bf16).view.ref.isScScratch = false}
    {hsrc : (sbM k).view.WordExact} {hdst : (ryM k).view.WordExact}
    {hsem : DmaTarget.Typed .vmem (.dma (ryS k)) (.remote (Dev.tc nd : Thread nD τ) (ryM k) (.dma (syS k)) hsc)}
    {kont : PUnit → Prog (TpuEff nD τ sig (Elt F) Λ₀ .tc) α} {κ₁ κ₂ : ℕ}
    (fs : Buf (Elt F) ((sbM k).view.loc (c : Thread nD τ))) (fd : Buf (Elt F) ((ryM k).view.loc ((ynb c : Dev nD) : Thread nD τ)))
    (hv : (sbM k).view.read (Elt F) fs = sentY m c k) {W : Waits sig Unit} :
    iprop(cellInv ER (rsRd m) κ₁ (syCell k c) ∗ cellInv ER (rsRd m) κ₂ (ryCell k (ynb c))
        ∗ ((sbM k).view.loc (c : Thread nD τ) ↦[(sbM k).view.set]{fullShare} fs)
        ∗ ((ryM k).view.loc ((ynb c : Dev nD) : Thread nD τ) ↦[(ryM k).view.set]{fullShare} fd)
        ∗ owes (c : Thread nD τ) (owedN c (n + 1)) W
        ∗ dutyTok ER (syCell k c) 0 false ∗ reached ER (syCell k c) 0
        ∗ dutyTok ER (ryCell k (ynb c)) 0 false ∗ reached ER (ryCell k (ynb c)) 0)
      ⊢ iprop(((cred (tallyAt (syCell k c) () Ncr) ∗ owes (c : Thread nD τ) (owedN c n) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sbM k) (.remote (Dev.tc nd : Thread nD τ) (ryM k) (.dma (syS k)) hsc) (.dma (ryS k)) hsrc hdst hsem) kont) Q) := by
  subst hn
  have hO : owedN c (n + 1) = owedN c n + tallyAt (ryCell k (ynb c)) () Ncr := by
    rw [owedN_succ, show 33 - n = 2 + k.val by omega, tal_ry]
  have hpay₁ : ((sbM k).view.loc (c : Thread nD τ) ↦[(sbM k).view.set]{fullShare} fs)
      ⊢ (rsRd (F := F) m).payload (syCell k c) 0 false := by
    rw [payload_sy]; unfold syPay pieceAny
    iintro H; iexists fs; iexact H
  have hpay₂ : ((ryM k).view.loc ((ynb c : Dev nD) : Thread nD τ) ↦[(ryM k).view.set]{fullShare}
        ((ryM k).view.write (Elt F) fd ((sbM k).view.read (Elt F) fs) Finset.univ))
      ⊢ (rsRd (F := F) m).payload (ryCell k (ynb c)) 0 false := by
    rw [payload_ry]; unfold ryPay pieceAt
    iintro H; iexists ((ryM k).view.write (Elt F) fd ((sbM k).view.read (Elt F) fs) Finset.univ)
    isplitr
    · ipureintro; rw [View.read_write_univ, hv, ynb_ynb]
    · iexact H
  exact Rounds.wp_send_pointsTo 𝒱₀ ER (rsRd m) (c : Thread nD τ) none (c' := ((ynb c : Dev nD) : Thread nD τ))
    (src := sbM k) (dst := ryM k) (sS := .dma (syS k)) (sem := .dma (ryS k)) (κ₁ := κ₁) (κ₂ := κ₂)
    (r₁ := 0) (r₂ := 0) (d₁ := false) (d₂ := false) (fs := fs) (fd := fd) (q := fullShare)
    (by rw [duties_sy]; exact Finset.mem_singleton_self _) (by rw [duties_ry]; exact Finset.mem_singleton_self _)
    () () Ncr rfl (amount_sy m c k 0 false) (amount_ry m (ynb c) k 0 false) (owedN c n) hO hpay₁ hpay₂
theorem step_sendX (k : Fin 16) (n : ℕ) (hnk : n + k.val = 15) (nd : Dev nD) (hn : nd = xnb c)
    {hsc : ((rxM k : Memref sig .tc .vmem S512x1024 .bf16) : Memref sig (Dev.tc nd : Thread nD τ).2.kind .vmem S512x1024 .bf16).view.ref.isScScratch = false}
    {hsrc : (ryM k).view.WordExact} {hdst : (rxM k).view.WordExact}
    {hsem : DmaTarget.Typed .vmem (.dma (rxS k)) (.remote (Dev.tc nd : Thread nD τ) (rxM k) (.dma (sxS k)) hsc)}
    {kont : PUnit → Prog (TpuEff nD τ sig (Elt F) Λ₀ .tc) α} {κ₁ κ₂ : ℕ}
    (fs : Buf (Elt F) ((ryM k).view.loc (c : Thread nD τ))) (fd : Buf (Elt F) ((rxM k).view.loc ((xnb c : Dev nD) : Thread nD τ)))
    (hv : (ryM k).view.read (Elt F) fs = sentY m (ynb c) k) {W : Waits sig Unit} :
    iprop(cellInv ER (rsRd m) κ₁ (sxCell k c) ∗ cellInv ER (rsRd m) κ₂ (rxCell k (xnb c))
        ∗ ((ryM k).view.loc (c : Thread nD τ) ↦[(ryM k).view.set]{fullShare.left} fs)
        ∗ ((rxM k).view.loc ((xnb c : Dev nD) : Thread nD τ) ↦[(rxM k).view.set]{fullShare} fd)
        ∗ owes (c : Thread nD τ) (owedN c (n + 1)) W
        ∗ dutyTok ER (sxCell k c) 0 false ∗ reached ER (sxCell k c) 0
        ∗ dutyTok ER (rxCell k (xnb c)) 0 false ∗ reached ER (rxCell k (xnb c)) 0)
      ⊢ iprop(((cred (tallyAt (sxCell k c) () Ncr) ∗ owes (c : Thread nD τ) (owedN c n) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (ryM k) (.remote (Dev.tc nd : Thread nD τ) (rxM k) (.dma (sxS k)) hsc) (.dma (rxS k)) hsrc hdst hsem) kont) Q) := by
  subst hn
  have hO : owedN c (n + 1) = owedN c n + tallyAt (rxCell k (xnb c)) () Ncr := by
    rw [owedN_succ, show 33 - n = 18 + k.val by omega, tal_rx]
  have hpay₁ : ((ryM k).view.loc (c : Thread nD τ) ↦[(ryM k).view.set]{fullShare.left} fs)
      ⊢ (rsRd (F := F) m).payload (sxCell k c) 0 false := by
    rw [payload_sx]; unfold sxPay pieceAny
    iintro H; iexists fs; iexact H
  have hpay₂ : ((rxM k).view.loc ((xnb c : Dev nD) : Thread nD τ) ↦[(rxM k).view.set]{fullShare}
        ((rxM k).view.write (Elt F) fd ((ryM k).view.read (Elt F) fs) Finset.univ))
      ⊢ (rsRd (F := F) m).payload (rxCell k (xnb c)) 0 false := by
    rw [payload_rx]; unfold rxPay pieceAt
    iintro H; iexists ((rxM k).view.write (Elt F) fd ((ryM k).view.read (Elt F) fs) Finset.univ)
    isplitr
    · ipureintro; rw [View.read_write_univ, hv, xnb_xnb]
    · iexact H
  exact Rounds.wp_send_pointsTo 𝒱₀ ER (rsRd m) (c : Thread nD τ) none (c' := ((xnb c : Dev nD) : Thread nD τ))
    (src := ryM k) (dst := rxM k) (sS := .dma (sxS k)) (sem := .dma (rxS k)) (κ₁ := κ₁) (κ₂ := κ₂)
    (r₁ := 0) (r₂ := 0) (d₁ := false) (d₂ := false) (fs := fs) (fd := fd) (q := fullShare.left)
    (by rw [duties_sx]; exact Finset.mem_singleton_self _) (by rw [duties_rx]; exact Finset.mem_singleton_self _)
    () () Ncr rfl (amount_sx m c k 0 false) (amount_rx m (xnb c) k 0 false) (owedN c n) hO hpay₁ hpay₂
section Waits
variable {sp' : Space} {s' : Shape} {e' : EltTy} {src : Memref sig .tc sp' s' e'} {κ' : Idealize.ShloMosaic.Kind}
  {dst : Memref sig κ' .vmem S512x1024 .bf16} {hsrc : src.view.WordExact} {hdst : dst.view.WordExact}
  {kont : PUnit → Prog (TpuEff nD τ sig (Elt F) Λ₀ .tc) α} {κ : ℕ} {W : Waits sig Unit}
theorem lev_ry (k : Fin 16) (n : ℕ) (hnk : n + k.val = 16) :
    (levAts L lv : sProp 𝕄) ⊢ MayWait (c : Thread nD τ) (.dma (ryS k)) () (owedN c n) :=
  mayWait_owedN c (.dma (ryS k)) n (by omega) (fun i hi hi' => by
    have h2 : lv ((c : Thread nD τ), SemLoc.dma (ryS k)) () = 2 := by simp only [lv, kindOf_ry]
    rw [h2]; unfold lvTal; split_ifs <;> omega)
theorem lev_rx (k : Fin 16) (n : ℕ) (hnk : n + k.val < 16) :
    (levAts L lv : sProp 𝕄) ⊢ MayWait (c : Thread nD τ) (.dma (rxS k)) () (owedN c n) :=
  mayWait_owedN c (.dma (rxS k)) n (by omega) (fun i hi hi' => by
    have h3 : lv ((c : Thread nD τ), SemLoc.dma (rxS k)) () = 3 + k.val := by simp only [lv, kindOf_rx]
    rw [h3]; unfold lvTal; split_ifs <;> omega)
theorem lev_done (s : SemLoc sig) : (levAts L lv : sProp 𝕄) ⊢ MayWait (c : Thread nD τ) s () (owedN c 0) :=
  mayWait_owedN c s 0 (by omega) (fun i hi hi' => by omega)
-- A wait for the whole of a copy's round returns the chunk the copy handed over, for any cell paid by one copy.
theorem step_wait (s : DmaSem sig) (P : sProp 𝕄) (n : ℕ) (hdu : (rsRd (F := F) m).duties ((c : Thread nD τ), .dma s) 0 = {false})
    (ham : (rsRd (F := F) m).amount ((c : Thread nD τ), .dma s) 0 false = Ncr) (hp : (rsRd (F := F) m).payload ((c : Thread nD τ), .dma s) 0 false = P)
    (hlev : (levAts L lv : sProp 𝕄) ⊢ MayWait (c : Thread nD τ) (.dma s) () (owedN c n)) (hd : dst.view.dmaCredit = Ncr) :
    iprop(cellInv ER (rsRd m) κ ((c : Thread nD τ), .dma s) ∗ cred (tallyAt ((c : Thread nD τ), .dma s) () Ncr) ∗ owes (c : Thread nD τ) (owedN c n) W
        ∗ levAts L lv ∗ atPos ER ((c : Thread nD τ), .dma s) 0 ∅ 0)
      ⊢ iprop(((owes (c : Thread nD τ) (owedN c n) (insert (SemLoc.dma s, ()) W) ∗ atPos ER ((c : Thread nD τ), .dma s) 1 ∅ 0 ∗ P)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 s src dst hsrc hdst) kont) Q) := by
  have h := Rounds.wp_wait_rest_token (defs := defs₀ (F := F)) 𝒱₀ ER (rsRd m) (c : Thread nD τ) none (κ := κ) (Q := Q) (k := kont)
      (w := TpuEff.waitDma2 s src dst hsrc hdst) (sm := .dma s) (k' := dst.view.dmaCredit)
      (wpE_waitDma2_eq 𝒱₀ (c : Thread nD τ) none Set.univ) (Set.mem_univ _) () (O := owedN c n) (W := W) (R := 0) (m := 0) (T := ∅)
      (by unfold Schedule.expect Schedule.amountOf; rw [Nat.zero_add, hd, hdu, Finset.sum_singleton, ham])
  rw [Finset.sdiff_empty, hdu, bigSep_singleton, hp, hd] at h
  iintro ⟨Hg, Hc, HL, Hlev, Hat⟩ Hk
  iapply h $$ [Hg Hc HL Hlev Hat]
  · isplitl [Hg]; · iexact Hg
    isplitl [Hc]; · iexact Hc
    isplitl [HL]; · iexact HL
    isplitl [Hlev]
    · iapply hlev; iexact Hlev
    · iexact Hat
  iintro ⟨HL, Hat, Hr, Hpay⟩
  iapply Hk
  isplitl [HL]; · iexact HL
  isplitl [Hat] <;> iassumption
end Waits
theorem step_close (j : Fin 65) (hj : j ≠ jbar) {κ : ℕ} :
    iprop(cellInv ER (rsRd m) κ (kcell (c, j)) ∗ atPos ER (kcell (c, j)) 1 ∅ 0) ⊢ |={Set.univ}=> (semVal (kcell (c, j)) 0 : sProp (MT nD τ sig Unit (Elt F) ℕ UU ℕ)) := by
  exact Rounds.cell_close ER (rsRd m) (Set.mem_univ κ) (fun h => h) (R := 0 + 1) (duties_later m (kcell (c, j)))
end Cert.KernelIdeal.RS
end
-- ==== Proof.Carve.lean ====
import proofs.«900302_g7700000000000303_dist_rs_v7x_xy2x2_y_m16384_n1024_bf16_1_alg».proof.Proof.Inv
noncomputable section
namespace Cert.KernelIdeal.RS
open Idealize.ShloMosaic
variable {F : FTy → Type} [FloatOps F]
-- A chunk still lies in what is held after a different chunk has been carved out.
theorem chunk_sub_sdiff {S : Finset S8192x1024.Idx} (j k : Fin 16) (h : j ≠ k) (hS : (chunkR k).set ⊆ S) :
    (chunkR k).set ⊆ S \ (chunkR j).set :=
  Finset.subset_sdiff.mpr ⟨hS, chunk_disjoint k j h.symm⟩
theorem sbM_set (k : Fin 16) : (sbM k).view.set = (chunkR k).set := View.set_slice_whole cc0_scratch0 (chunkR k)
theorem ryM_set (k : Fin 16) : (ryM k).view.set = (chunkR k).set := View.set_slice_whole cc0_scratch1 (chunkR k)
theorem rxM_set (k : Fin 16) : (rxM k).view.set = (chunkR k).set := View.set_slice_whole cc0_scratch2 (chunkR k)
end Cert.KernelIdeal.RS
end
-- ==== Proof.Exit.lean ====
import proofs.«900302_g7700000000000303_dist_rs_v7x_xy2x2_y_m16384_n1024_bf16_1_alg».proof.Proof.Inv
noncomputable section
namespace Cert.KernelIdeal.RS
open Idealize.ShloMosaic
open Idealize.ShloMosaic.TcCoe
open Idealize.SL Idealize.SL.RA Idealize.SL.BI
open Idealize.SL.BI.BIBase Idealize.SL.BI.Laws Idealize.SL.ProofMode Idealize.SL.Sem
variable {F : FTy → Type} [FloatOps F]
local notation "𝕄" => MT nD τ sig Unit (Elt F) ℕ UU ℕ
theorem chunk_cover : (Finset.univ : Finset (Fin 16)).biUnion (fun k => (chunkR k).set) = Finset.univ := by
  ext i
  simp only [Finset.mem_biUnion, Finset.mem_univ, true_and, iff_true]
  have h0 : (i 0).val < 8192 := (i 0).isLt
  have h1 : (i 1).val < 1024 := (i 1).isLt
  refine ⟨⟨(i 0).val / 512, by omega⟩, ?_⟩
  rw [Rect.mem_set_unit]
  intro a
  match a with
  | ⟨0, _⟩ =>
    show 512 * ((i 0).val / 512) ≤ (i 0).val ∧ (i 0).val < 512 * ((i 0).val / 512) + 512
    omega
  | ⟨1, _⟩ =>
    show 0 ≤ (i 1).val ∧ (i 1).val < 0 + 1024
    omega
-- Sixteen pairwise disjoint pieces that cover a buffer join into the whole buffer.
theorem join_cover (ℓ : Loc nD τ sig) (K : Fin 16 → Finset (Idx ℓ)) (q : PosShare TreeShare) (f₀ : Buf (Elt F) ℓ)
    (hdis : ∀ j k : Fin 16, j ≠ k → Disjoint (K j) (K k)) (hcov : Finset.univ.biUnion K = Finset.univ) :
    (bigSep Finset.univ fun k : Fin 16 => (iprop(∃ f, ℓ ↦[K k]{q} f) : sProp 𝕄)) ⊢ iprop(∃ g, ℓ ↦[Finset.univ]{q} g) := by
  haveI : ∀ _ : Fin 16, Nonempty (Buf (Elt F) ℓ) := fun _ => ⟨f₀⟩
  refine (bigSep_exists_pi (Y := fun _ => Buf (Elt F) ℓ) Finset.univ (fun k f => (ℓ ↦[K k]{q} f : sProp 𝕄))).trans (exists_elim fun fs => ?_)
  have hj := pointsTo_biUnion_join (Ix := Unit) (Name := ℕ) (U := UU) (Lvl := ℕ) (q := q) Finset.univ K fs f₀ (fun t _ t' _ h => hdis t t' h)
  rw [hcov] at hj
  refine hj.trans ?_
  iintro ⟨%g, -, H⟩
  iexists g
  iexact H
theorem halves_join (ℓ : Loc nD τ sig) (I : Finset (Idx ℓ)) (f g : Buf (Elt F) ℓ) :
    iprop((ℓ ↦[I]{fullShare.left} f) ∗ ℓ ↦[I]{fullShare.right} g) ⊢ (ℓ ↦[I]{fullShare} f : sProp 𝕄) := by
  refine pure_elim _ pointsTo_agree fun hag => ?_
  have e : (ℓ ↦[I]{fullShare.right} g : sProp 𝕄) = ℓ ↦[I]{fullShare.right} f :=
    pointsTo_congr fun i hi => ((hag i (Finset.mem_inter.mpr ⟨hi, hi⟩)).1).symm
  rw [e]
  exact (pointsTo_share (PosShare.mem_left_op_right fullShare)).2
theorem piece_halves (M : Memref sig .tc .vmem S512x1024 .bf16) (o : Dev nD) :
    iprop(pieceAny M o fullShare.left ∗ pieceAny M o fullShare.right) ⊢ (pieceAny M o fullShare : sProp 𝕄) := by
  unfold pieceAny
  iintro ⟨⟨%f, Hf⟩, ⟨%g, Hg⟩⟩
  iexists f
  iapply (halves_join (M.view.loc (o : Thread nD τ)) M.view.set f g)
  isplitl [Hf]
  · iexact Hf
  · iexact Hg
theorem join_sb (c : Dev nD) : (bigSep Finset.univ fun k : Fin 16 => (pieceAny (sbM k) c fullShare : sProp 𝕄)) ⊢ bufAny cc0_scratch0 c := by
  have hs : ∀ k : Fin 16, (sbM k).view.set = (chunkR k).set := fun k => View.set_slice_whole cc0_scratch0 (chunkR k)
  exact join_cover ((c : Thread nD τ).loc cc0_scratch0) (fun k => (sbM k).view.set) fullShare (fun _ => (FloatOps.ofBits .bf16 0 : F .bf16))
    (fun j k h => by rw [hs j, hs k]; exact chunk_disjoint j k h)
    (by rw [show (fun k => (sbM k).view.set) = fun k => (chunkR k).set from funext hs]; exact chunk_cover)
theorem join_ry (c : Dev nD) :
    (bigSep Finset.univ fun k : Fin 16 => (iprop(pieceAny (ryM k) c fullShare.left ∗ pieceAny (ryM k) c fullShare.right) : sProp 𝕄)) ⊢ bufAny cc0_scratch1 c := by
  have hs : ∀ k : Fin 16, (ryM k).view.set = (chunkR k).set := fun k => View.set_slice_whole cc0_scratch1 (chunkR k)
  refine (bigSep_mono fun k _ => piece_halves (ryM k) c).trans ?_
  exact join_cover ((c : Thread nD τ).loc cc0_scratch1) (fun k => (ryM k).view.set) fullShare (fun _ => (FloatOps.ofBits .bf16 0 : F .bf16))
    (fun j k h => by rw [hs j, hs k]; exact chunk_disjoint j k h)
    (by rw [show (fun k => (ryM k).view.set) = fun k => (chunkR k).set from funext hs]; exact chunk_cover)
theorem join_rx (c : Dev nD) : (bigSep Finset.univ fun k : Fin 16 => (pieceAny (rxM k) c fullShare : sProp 𝕄)) ⊢ bufAny cc0_scratch2 c := by
  have hs : ∀ k : Fin 16, (rxM k).view.set = (chunkR k).set := fun k => View.set_slice_whole cc0_scratch2 (chunkR k)
  exact join_cover ((c : Thread nD τ).loc cc0_scratch2) (fun k => (rxM k).view.set) fullShare (fun _ => (FloatOps.ofBits .bf16 0 : F .bf16))
    (fun j k h => by rw [hs j, hs k]; exact chunk_disjoint j k h)
    (by rw [show (fun k => (rxM k).view.set) = fun k => (chunkR k).set from funext hs]; exact chunk_cover)
end Cert.KernelIdeal.RS
end
-- ==== Proof.ExitCells.lean ====
import proofs.«900302_g7700000000000303_dist_rs_v7x_xy2x2_y_m16384_n1024_bf16_1_alg».proof.Proof.Steps
noncomputable section
namespace Cert.KernelIdeal.RS
open Idealize.ShloMosaic
open Idealize.SL Idealize.SL.RA Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : Mem F) (c : Dev nD)
theorem close_of_family (K : Dev nD × Fin 65 → ℕ) (j : Fin 65) (hj : j ≠ jbar) :
    iprop((bigSep Finset.univ fun j : Fin 65 => cellInv ER (rsRd m) (K (c, j)) (kcell (c, j))) ∗ atPos ER (kcell (c, j)) 1 ∅ 0)
      ⊢ |={Set.univ}=> (semVal (kcell (c, j)) 0 : sProp (MT nD τ sig Unit (Elt F) ℕ UU ℕ)) := by
  have e : (bigSep Finset.univ (fun j : Fin 65 => cellInv ER (rsRd m) (K (c, j)) (kcell (c, j))) : sProp (MT nD τ sig Unit (Elt F) ℕ UU ℕ))
      ⊢ cellInv ER (rsRd m) (K (c, j)) (kcell (c, j)) := bigSep_elim (Finset.mem_univ j)
  exact (sep_mono_left e).trans (step_close m c j hj)
-- Once its round is consumed a cell closes, and its counter at zero is the device's again; here for one family of sixteen.
theorem close_role (K : Dev nD × Fin 65 → ℕ) (j : Fin 16 → Fin 65) (cell : Fin 16 → GSem nD τ sig) (hj : ∀ k, j k ≠ jbar) (hc : ∀ k, kcell (c, j k) = cell k) :
    iprop((bigSep Finset.univ fun j : Fin 65 => cellInv ER (rsRd m) (K (c, j)) (kcell (c, j))) ∗ (bigSep Finset.univ fun k : Fin 16 => atPos ER (cell k) 1 ∅ 0))
      ⊢ |={Set.univ}=> (bigSep Finset.univ fun k : Fin 16 => semVal (cell k) 0 : sProp 𝕄) := by
  have h : ∀ k : Fin 16, iprop((bigSep Finset.univ fun j : Fin 65 => cellInv ER (rsRd m) (K (c, j)) (kcell (c, j))) ∗ atPos ER (cell k) 1 ∅ 0)
      ⊢ iprop(|={Set.univ}=> semVal (cell k) 0) := fun k => by
    have h := close_of_family m c K (j k) (hj k)
    rwa [hc k] at h
  exact (bigSep_with_persistent (S := Finset.univ) (fun k _ => h k)).trans (bigSep_fupd Finset.univ _)
theorem exit_cells (K : Dev nD × Fin 65 → ℕ) :
    iprop((bigSep Finset.univ fun j : Fin 65 => cellInv ER (rsRd m) (K (c, j)) (kcell (c, j)))
        ∗ (bigSep Finset.univ fun k : Fin 16 => atPos ER (syCell k c) 1 ∅ 0) ∗ (bigSep Finset.univ fun k : Fin 16 => atPos ER (ryCell k c) 1 ∅ 0)
        ∗ (bigSep Finset.univ fun k : Fin 16 => atPos ER (sxCell k c) 1 ∅ 0) ∗ (bigSep Finset.univ fun k : Fin 16 => atPos ER (rxCell k c) 1 ∅ 0))
      ⊢ |={Set.univ}=> (iprop((bigSep Finset.univ fun k : Fin 16 => semVal (syCell k c) 0) ∗ (bigSep Finset.univ fun k : Fin 16 => semVal (ryCell k c) 0)
          ∗ (bigSep Finset.univ fun k : Fin 16 => semVal (sxCell k c) 0) ∗ (bigSep Finset.univ fun k : Fin 16 => semVal (rxCell k c) 0)) : sProp 𝕄) := by
  iintro ⟨#HR, HA, HB, HC, HD⟩
  imod (close_role m c K jsy (fun k => syCell k c) (fun k h => absurd (show 1 + k.val = 0 from congrArg Fin.val h) (by omega)) (kcell_sy c)) $$ [HA] with HA'
  · isplitr; · iexact HR
    iexact HA
  imod (close_role m c K jry (fun k => ryCell k c) (fun k h => absurd (show 17 + k.val = 0 from congrArg Fin.val h) (by omega)) (kcell_ry c)) $$ [HB] with HB'
  · isplitr; · iexact HR
    iexact HB
  imod (close_role m c K jsx (fun k => sxCell k c) (fun k h => absurd (show 33 + k.val = 0 from congrArg Fin.val h) (by omega)) (kcell_sx c)) $$ [HC] with HC'
  · isplitr; · iexact HR
    iexact HC
  imod (close_role m c K jrx (fun k => rxCell k c) (fun k h => absurd (show 49 + k.val = 0 from congrArg Fin.val h) (by omega)) (kcell_rx c)) $$ [HD] with HD'
  · isplitr; · iexact HR
    iexact HD
  imodintro
  isplitl [HA']; · iexact HA'
  isplitl [HB']; · iexact HB'
  isplitl [HC'] <;> iassumption
end Cert.KernelIdeal.RS
end
-- ==== Proof.SendVal.lean ====
import proofs.«900302_g7700000000000303_dist_rs_v7x_xy2x2_y_m16384_n1024_bf16_1_alg».proof.Proof.Carve
noncomputable section
namespace Cert.KernelIdeal.RS
open Cert.KernelIdeal Cert.KernelIdeal.Gen
open Idealize.ShloMosaic
variable {F : FTy → Type} [FloatOps F]
abbrev ldSlotM (off : Fin 3 → Nat) (inb : ∀ a, off a + S1x512x1024.size a ≤ S4x512x1024.size a) : Memref sig .tc .vmem S512x1024 .f32 :=
  ((Memref.whole cc0_scratch3).slice (Rect.unit (s := S4x512x1024) off S1x512x1024.size inb) (fun _ => rfl)).squeeze S512x1024 squeezes_S1x512x1024_S512x1024
-- Reading back the slot just written gives what was written.
theorem ld_read_same (off : Fin 3 → Nat) (inb : ∀ a, off a + S1x512x1024.size a ≤ S4x512x1024.size a)
    (g : (cc0_scratch3 : Ref sig .tc).ty.Contents (Elt F)) (P : S512x1024.Idx → Elt F .f32) :
    (Memref.whole cc0_scratch3 : Memref sig .tc .vmem S4x512x1024 .f32).view.readAt (Elt F) (Rect.unit (s := S4x512x1024) off S1x512x1024.size inb).toLoadRect
        (View.write (Elt F) (ldSlotM off inb).view g P Finset.univ)
      = ldV P := by
  have h : S512x1024.numel = (Rect.unit (s := S4x512x1024) off S1x512x1024.size inb).shape.numel :=
    squeezes_S1x512x1024_S512x1024.numel_eq
  show ((View.whole cc0_scratch3).slice (Rect.unit (s := S4x512x1024) off S1x512x1024.size inb)).read (Elt F)
      ((((View.whole cc0_scratch3).slice (Rect.unit (s := S4x512x1024) off S1x512x1024.size inb)).reshape S512x1024 h).write (Elt F) g P Finset.univ) = ldV P
  rw [View.write_reshape_univ, View.read_write_univ]
  funext x
  unfold ldV shapeCast
  rw [Shape.reshapeEquiv_symm]
theorem ld_read_other (off off' : Fin 3 → Nat) (inb : ∀ a, off a + S1x512x1024.size a ≤ S4x512x1024.size a)
    (inb' : ∀ a, off' a + S1x512x1024.size a ≤ S4x512x1024.size a) (hne : off 0 ≠ off' 0)
    (g : (cc0_scratch3 : Ref sig .tc).ty.Contents (Elt F)) (P : S512x1024.Idx → Elt F .f32) :
    (Memref.whole cc0_scratch3 : Memref sig .tc .vmem S4x512x1024 .f32).view.readAt (Elt F) (Rect.unit (s := S4x512x1024) off S1x512x1024.size inb).toLoadRect
        (View.write (Elt F) (ldSlotM off' inb').view g P Finset.univ)
      = (Memref.whole cc0_scratch3 : Memref sig .tc .vmem S4x512x1024 .f32).view.readAt (Elt F) (Rect.unit (s := S4x512x1024) off S1x512x1024.size inb).toLoadRect g := by
  have h : S512x1024.numel = (Rect.unit (s := S4x512x1024) off' S1x512x1024.size inb').shape.numel :=
    squeezes_S1x512x1024_S512x1024.numel_eq
  show ((View.whole cc0_scratch3).slice (Rect.unit (s := S4x512x1024) off S1x512x1024.size inb)).read (Elt F)
      ((((View.whole cc0_scratch3).slice (Rect.unit (s := S4x512x1024) off' S1x512x1024.size inb')).reshape S512x1024 h).write (Elt F) g P Finset.univ)
    = ((View.whole cc0_scratch3).slice (Rect.unit (s := S4x512x1024) off S1x512x1024.size inb)).read (Elt F) g
  rw [View.write_reshape_univ]
  refine View.read_slice_write_slice_of_disjoint (v := View.whole cc0_scratch3) _ _ g _ Finset.univ ?_
  rw [View.setOn_univ, View.set_slice_whole, View.set_slice_whole]
  refine Rect.unit_disjoint (0 : Fin 3) ?_
  show off 0 + 1 ≤ off' 0 ∨ off' 0 + 1 ≤ off 0
  omega
theorem sb_read_head (k : Fin 16) (inb : ∀ a, chunkOff k a + S512x1024.size a ≤ S8192x1024.size a)
    (f0 : (cc0_scratch0 : Ref sig .tc).ty.Contents (Elt F)) (P : S512x1024.Idx → Elt F .bf16)
    (Lst : List (Σ r : Rect S8192x1024, (r.shape.Idx → Elt F .bf16))) :
    (sbM k).view.read (Elt F)
        ((Memref.whole cc0_scratch0 : Memref sig .tc .vmem S8192x1024 .bf16).view.writes (Elt F) f0
          (⟨Rect.unit (s := S8192x1024) (chunkOff k) S512x1024.size inb, P⟩ :: Lst))
      = P := by
  rw [View.writes_cons]
  exact View.read_write_univ (v := (sbM k).view) _ P
end Cert.KernelIdeal.RS
end
-- ==== Proof.FoldVal.lean ====
import proofs.«900302_g7700000000000303_dist_rs_v7x_xy2x2_y_m16384_n1024_bf16_1_alg».proof.Proof.Carve
noncomputable section
namespace Cert.KernelIdeal.RS
open Cert.KernelIdeal Cert.KernelIdeal.Gen
open Idealize.ShloMosaic
variable {F : FTy → Type} [FloatOps F]
def foldStore (v : Vec F S1x512x1024 .f32) (w : Vec F S512x1024 .bf16) : FVec F S1x512x1024 .bf16 :=
  shapeCast S1x512x1024 (foldOut v w) shapeCasts_S512x1024_S1x512x1024
abbrev obSlotM (off : Fin 3 → Nat) (inb : ∀ a, off a + S1x512x1024.size a ≤ S4x512x1024.size a) : Memref sig .tc .vmem S512x1024 .bf16 :=
  ((Memref.whole cc0_scratch4).slice (Rect.unit (s := S4x512x1024) off S1x512x1024.size inb) (fun _ => rfl)).squeeze S512x1024 squeezes_S1x512x1024_S512x1024
-- The staged output slot reads back as the sum that was stored in it.
theorem ob_read_head (off : Fin 3 → Nat) (inb : ∀ a, off a + S1x512x1024.size a ≤ S4x512x1024.size a)
    (f4 : (cc0_scratch4 : Ref sig .tc).ty.Contents (Elt F)) (v : Vec F S1x512x1024 .f32) (w : Vec F S512x1024 .bf16)
    (Lst : List (Σ r : Rect S4x512x1024, (r.shape.Idx → Elt F .bf16))) :
    (obSlotM off inb).view.read (Elt F)
        ((Memref.whole cc0_scratch4 : Memref sig .tc .vmem S4x512x1024 .bf16).view.writes (Elt F) f4
          (⟨Rect.unit (s := S4x512x1024) off S1x512x1024.size inb, foldStore v w⟩ :: Lst))
      = foldOut v w := by
  have h : S512x1024.numel = (Rect.unit (s := S4x512x1024) off S1x512x1024.size inb).shape.numel :=
    squeezes_S1x512x1024_S512x1024.numel_eq
  rw [View.writes_cons]
  funext x
  show ((View.whole cc0_scratch4).slice (Rect.unit (s := S4x512x1024) off S1x512x1024.size inb)).read (Elt F)
      (((View.whole cc0_scratch4).slice (Rect.unit (s := S4x512x1024) off S1x512x1024.size inb)).write (Elt F) _ (foldStore v w) Finset.univ)
      (Shape.reshapeEquiv h x) = foldOut v w x
  rw [View.read_write_univ]
  unfold foldStore shapeCast
  rw [Shape.reshapeEquiv_reshapeEquiv, Shape.reshapeEquiv_self]
end Cert.KernelIdeal.RS
end
-- ==== Proof.OutVal.lean ====
import proofs.«900302_g7700000000000303_dist_rs_v7x_xy2x2_y_m16384_n1024_bf16_1_alg».proof.Proof.Spec
noncomputable section
namespace Cert.KernelIdeal.RS
open Idealize.ShloMosaic
variable {F : FTy → Type} [FloatOps F]
abbrev outWinM (off : Fin 2 → Nat) (inb : ∀ a, off a + S512x1024.size a ≤ S16384x1024.size a) : Memref sig .tc .hbm S512x1024 .bf16 :=
  (Memref.whole main_v1).slice (Rect.unit (s := S16384x1024) off S512x1024.size inb) (fun _ => rfl)
theorem out_read_same (off : Fin 2 → Nat) (inb : ∀ a, off a + S512x1024.size a ≤ S16384x1024.size a)
    (g : (main_v1 : Ref sig .tc).ty.Contents (Elt F)) (P : S512x1024.Idx → Elt F .bf16) :
    (outWinM off inb).view.read (Elt F) (View.write (Elt F) (outWinM off inb).view g P Finset.univ) = P :=
  View.read_write_univ (v := (outWinM off inb).view) g P
-- Writing one 512-row window of the result leaves a window with other rows as it was.
theorem out_read_other (off off' : Fin 2 → Nat) (inb : ∀ a, off a + S512x1024.size a ≤ S16384x1024.size a)
    (inb' : ∀ a, off' a + S512x1024.size a ≤ S16384x1024.size a) (hd : off 0 + 512 ≤ off' 0 ∨ off' 0 + 512 ≤ off 0)
    (g : (main_v1 : Ref sig .tc).ty.Contents (Elt F)) (P : S512x1024.Idx → Elt F .bf16) :
    (outWinM off inb).view.read (Elt F) (View.write (Elt F) (outWinM off' inb').view g P Finset.univ) = (outWinM off inb).view.read (Elt F) g := by
  show ((View.whole main_v1).slice (Rect.unit (s := S16384x1024) off S512x1024.size inb)).read (Elt F)
      (((View.whole main_v1).slice (Rect.unit (s := S16384x1024) off' S512x1024.size inb')).write (Elt F) g P Finset.univ)
    = ((View.whole main_v1).slice (Rect.unit (s := S16384x1024) off S512x1024.size inb)).read (Elt F) g
  refine View.read_slice_write_slice_of_disjoint (v := View.whole main_v1) _ _ g _ Finset.univ ?_
  rw [View.setOn_univ, View.set_slice_whole, View.set_slice_whole]
  refine Rect.unit_disjoint (0 : Fin 2) ?_
  show off 0 + 512 ≤ off' 0 ∨ off' 0 + 512 ≤ off 0
  exact hd
theorem outWin_disj (off off' : Fin 2 → Nat) (inb : ∀ a, off a + S512x1024.size a ≤ S16384x1024.size a)
    (inb' : ∀ a, off' a + S512x1024.size a ≤ S16384x1024.size a) (hd : off 0 + 512 ≤ off' 0 ∨ off' 0 + 512 ≤ off 0) :
    Disjoint (outWinM off inb).view.set (outWinM off' inb').view.set := by
  show Disjoint ((View.whole main_v1).slice (Rect.unit (s := S16384x1024) off S512x1024.size inb)).set
      ((View.whole main_v1).slice (Rect.unit (s := S16384x1024) off' S512x1024.size inb')).set
  rw [View.set_slice_whole, View.set_slice_whole]
  refine Rect.unit_disjoint (0 : Fin 2) ?_
  show off 0 + 512 ≤ off' 0 ∨ off' 0 + 512 ≤ off 0
  exact hd
end Cert.KernelIdeal.RS
end
-- ==== Proof.RowTab.lean ====
import proofs.«900302_g7700000000000303_dist_rs_v7x_xy2x2_y_m16384_n1024_bf16_1_alg».proof.Proof.OutVal
noncomputable section
namespace Cert.KernelIdeal.RS
open Cert.KernelIdeal Cert.KernelIdeal.Gen
open Idealize.ShloMosaic Idealize.ShloMosaic.TcCoe
-- The first row of each of the thirty-two result windows, in closed form.
theorem row_lits (c : Dev nD) :
    (k0_off4 c (BitVec.ofNat 32 0)) 0 = 8192 * (c.val / 2) + 0
    ∧ (k0_off4 c (BitVec.ofNat 32 512)) 0 = 8192 * (c.val / 2) + 512
    ∧ (k0_off4 c (BitVec.ofNat 32 1024)) 0 = 8192 * (c.val / 2) + 1024
    ∧ (k0_off4 c (BitVec.ofNat 32 1536)) 0 = 8192 * (c.val / 2) + 1536
    ∧ (k0_off4 c (BitVec.ofNat 32 2048)) 0 = 8192 * (c.val / 2) + 2048
    ∧ (k0_off4 c (BitVec.ofNat 32 2560)) 0 = 8192 * (c.val / 2) + 2560
    ∧ (k0_off4 c (BitVec.ofNat 32 3072)) 0 = 8192 * (c.val / 2) + 3072
    ∧ (k0_off4 c (BitVec.ofNat 32 3584)) 0 = 8192 * (c.val / 2) + 3584
    ∧ (k0_off4 c (BitVec.ofNat 32 4096)) 0 = 8192 * (c.val / 2) + 4096
    ∧ (k0_off4 c (BitVec.ofNat 32 4608)) 0 = 8192 * (c.val / 2) + 4608
    ∧ (k0_off4 c (BitVec.ofNat 32 5120)) 0 = 8192 * (c.val / 2) + 5120
    ∧ (k0_off4 c (BitVec.ofNat 32 5632)) 0 = 8192 * (c.val / 2) + 5632
    ∧ (k0_off4 c (BitVec.ofNat 32 6144)) 0 = 8192 * (c.val / 2) + 6144
    ∧ (k0_off4 c (BitVec.ofNat 32 6656)) 0 = 8192 * (c.val / 2) + 6656
    ∧ (k0_off4 c (BitVec.ofNat 32 7168)) 0 = 8192 * (c.val / 2) + 7168
    ∧ (k0_off4 c (BitVec.ofNat 32 7680)) 0 = 8192 * (c.val / 2) + 7680
    ∧ (k0_off5 c (BitVec.ofNat 32 0)) 0 = (0 + 8192) - 8192 * (c.val / 2)
    ∧ (k0_off5 c (BitVec.ofNat 32 512)) 0 = (512 + 8192) - 8192 * (c.val / 2)
    ∧ (k0_off5 c (BitVec.ofNat 32 1024)) 0 = (1024 + 8192) - 8192 * (c.val / 2)
    ∧ (k0_off5 c (BitVec.ofNat 32 1536)) 0 = (1536 + 8192) - 8192 * (c.val / 2)
    ∧ (k0_off5 c (BitVec.ofNat 32 2048)) 0 = (2048 + 8192) - 8192 * (c.val / 2)
    ∧ (k0_off5 c (BitVec.ofNat 32 2560)) 0 = (2560 + 8192) - 8192 * (c.val / 2)
    ∧ (k0_off5 c (BitVec.ofNat 32 3072)) 0 = (3072 + 8192) - 8192 * (c.val / 2)
    ∧ (k0_off5 c (BitVec.ofNat 32 3584)) 0 = (3584 + 8192) - 8192 * (c.val / 2)
    ∧ (k0_off5 c (BitVec.ofNat 32 4096)) 0 = (4096 + 8192) - 8192 * (c.val / 2)
    ∧ (k0_off5 c (BitVec.ofNat 32 4608)) 0 = (4608 + 8192) - 8192 * (c.val / 2)
    ∧ (k0_off5 c (BitVec.ofNat 32 5120)) 0 = (5120 + 8192) - 8192 * (c.val / 2)
    ∧ (k0_off5 c (BitVec.ofNat 32 5632)) 0 = (5632 + 8192) - 8192 * (c.val / 2)
    ∧ (k0_off5 c (BitVec.ofNat 32 6144)) 0 = (6144 + 8192) - 8192 * (c.val / 2)
    ∧ (k0_off5 c (BitVec.ofNat 32 6656)) 0 = (6656 + 8192) - 8192 * (c.val / 2)
    ∧ (k0_off5 c (BitVec.ofNat 32 7168)) 0 = (7168 + 8192) - 8192 * (c.val / 2)
    ∧ (k0_off5 c (BitVec.ofNat 32 7680)) 0 = (7680 + 8192) - 8192 * (c.val / 2) :=
  ⟨congrFun (k0_off4_eq c 0) 0, congrFun (k0_off4_eq c 1) 0, congrFun (k0_off4_eq c 2) 0, congrFun (k0_off4_eq c 3) 0, congrFun (k0_off4_eq c 4) 0, congrFun (k0_off4_eq c 5) 0, congrFun (k0_off4_eq c 6) 0, congrFun (k0_off4_eq c 7) 0, congrFun (k0_off4_eq c 8) 0, congrFun (k0_off4_eq c 9) 0, congrFun (k0_off4_eq c 10) 0, congrFun (k0_off4_eq c 11) 0, congrFun (k0_off4_eq c 12) 0, congrFun (k0_off4_eq c 13) 0, congrFun (k0_off4_eq c 14) 0, congrFun (k0_off4_eq c 15) 0, congrFun (k0_off5_eq c 0) 0, congrFun (k0_off5_eq c 1) 0, congrFun (k0_off5_eq c 2) 0, congrFun (k0_off5_eq c 3) 0, congrFun (k0_off5_eq c 4) 0, congrFun (k0_off5_eq c 5) 0, congrFun (k0_off5_eq c 6) 0, congrFun (k0_off5_eq c 7) 0, congrFun (k0_off5_eq c 8) 0, congrFun (k0_off5_eq c 9) 0, congrFun (k0_off5_eq c 10) 0, congrFun (k0_off5_eq c 11) 0, congrFun (k0_off5_eq c 12) 0, congrFun (k0_off5_eq c 13) 0, congrFun (k0_off5_eq c 14) 0, congrFun (k0_off5_eq c 15) 0⟩
end Cert.KernelIdeal.RS
end
-- ==== Proof.Body.lean ====
import proofs.«900302_g7700000000000303_dist_rs_v7x_xy2x2_y_m16384_n1024_bf16_1_alg».proof.Proof.Steps
import proofs.«900302_g7700000000000303_dist_rs_v7x_xy2x2_y_m16384_n1024_bf16_1_alg».proof.Proof.Fam
import proofs.«900302_g7700000000000303_dist_rs_v7x_xy2x2_y_m16384_n1024_bf16_1_alg».proof.Proof.Carve
import proofs.«900302_g7700000000000303_dist_rs_v7x_xy2x2_y_m16384_n1024_bf16_1_alg».proof.Proof.Exit
import proofs.«900302_g7700000000000303_dist_rs_v7x_xy2x2_y_m16384_n1024_bf16_1_alg».proof.Proof.ExitCells
import proofs.«900302_g7700000000000303_dist_rs_v7x_xy2x2_y_m16384_n1024_bf16_1_alg».proof.Proof.SendVal
import proofs.«900302_g7700000000000303_dist_rs_v7x_xy2x2_y_m16384_n1024_bf16_1_alg».proof.Proof.FoldVal
import proofs.«900302_g7700000000000303_dist_rs_v7x_xy2x2_y_m16384_n1024_bf16_1_alg».proof.Proof.OutVal
import proofs.«900302_g7700000000000303_dist_rs_v7x_xy2x2_y_m16384_n1024_bf16_1_alg».proof.Proof.RowTab
noncomputable section
namespace Cert.KernelIdeal.RS
open Cert.KernelIdeal Cert.KernelIdeal.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
open Idealize.ShloMosaic.Tactic
variable (m : Mem F)
omit [FloatOps F] in
theorem whole_spell (b : Ref sig .tc) (c : Dev nD) (q : PosShare TreeShare) (f : Buf (Elt F) (((c : Dev nD) : Thread nD τ).loc b)) :
    ((((c : Thread nD τ).loc b) ↦{q} f : sProp 𝕄)) = ((Memref.whole b).view.loc (c : Thread nD τ) ↦{q} f) := rfl
theorem bigSep_take {I : Type} [DecidableEq I] {s : Finset I} {i : I} (hi : i ∈ s) (Φ : I → sProp 𝕄) :
    bigSep s Φ = iprop(Φ i ∗ bigSep (s.erase i) Φ) := bigSep_erase hi
theorem binv (K : Dev nD × Fin 65 → ℕ) (c : Dev nD) (j : Fin 65) {g : GSem nD τ sig} (h : kcell (c, j) = g) :
    (bigSep Finset.univ fun j : Fin 65 => (cellInv ER (rsRd m) (K (c, j)) (kcell (c, j)) : sProp 𝕄)) ⊢ cellInv ER (rsRd m) (K (c, j)) g := by
  subst h; exact bigSep_elim (Finset.mem_univ j)
theorem mayWait_local (c : Dev nD) (i : ℕ) (hi : i < 72) (h : 64 ≤ i) (n : ℕ) (hn : n ≤ 32) :
    (levAts L lv : sProp 𝕄) ⊢ MayWait (c : Thread nD τ) (SemLoc.dma (⟨i, hi⟩ : DmaSem sig)) () (owedN c n) :=
  mayWait_owedN c _ n (by omega) (fun j _ _ => by
    have h0 : lv ((c : Thread nD τ), SemLoc.dma (⟨i, hi⟩ : DmaSem sig)) () = 0 := by
      simp only [lv, kindOf]
      rw [dif_neg (show ¬ i < 16 by omega), dif_neg (show ¬ i < 32 by omega), dif_neg (show ¬ i < 48 by omega), dif_neg (show ¬ i < 64 by omega)]
    rw [h0]; unfold lvTal; split_ifs <;> omega)
theorem binv_ryN (K : Dev nD × Fin 65 → ℕ) (c : Dev nD) (k : Fin 16) :
    (bigSep Finset.univ fun k : Fin 16 => (cellInv ER (rsRd m) (K (ynb c, jry k)) (ryCell k (ynb c)) : sProp 𝕄)) ⊢ cellInv ER (rsRd m) (K (ynb c, jry k)) (ryCell k (ynb c)) :=
  bigSep_elim (Finset.mem_univ k)
theorem binv_rxN (K : Dev nD × Fin 65 → ℕ) (c : Dev nD) (k : Fin 16) :
    (bigSep Finset.univ fun k : Fin 16 => (cellInv ER (rsRd m) (K (xnb c, jrx k)) (rxCell k (xnb c)) : sProp 𝕄)) ⊢ cellInv ER (rsRd m) (K (xnb c, jrx k)) (rxCell k (xnb c)) :=
  bigSep_elim (Finset.mem_univ k)
omit [FloatOps F] in
theorem reach_at (cell : Fin 16 → GSem nD τ sig) (k : Fin 16) :
    (bigSep Finset.univ fun k : Fin 16 => (reached ER (cell k) 0 : sProp 𝕄)) ⊢ reached ER (cell k) 0 :=
  bigSep_elim (Finset.mem_univ k)
omit [FloatOps F] in
theorem sb_sub_sdiff {S : Finset S8192x1024.Idx} (j k : Fin 16) (h : j ≠ k) (hS : (sbM k).view.set ⊆ S) : (sbM k).view.set ⊆ S \ (sbM j).view.set := by
  rw [sbM_set k, sbM_set j]; rw [sbM_set k] at hS; exact chunk_sub_sdiff j k h hS
omit [FloatOps F] in
theorem ry_sub_sdiff {S : Finset S8192x1024.Idx} (j k : Fin 16) (h : j ≠ k) (hS : (ryM k).view.set ⊆ S) : (ryM k).view.set ⊆ S \ (ryM j).view.set := by
  rw [ryM_set k, ryM_set j]; rw [ryM_set k] at hS; exact chunk_sub_sdiff j k h hS
omit [FloatOps F] in
theorem rx_sub_sdiff {S : Finset S8192x1024.Idx} (j k : Fin 16) (h : j ≠ k) (hS : (rxM k).view.set ⊆ S) : (rxM k).view.set ⊆ S \ (rxM j).view.set := by
  rw [rxM_set k, rxM_set j]; rw [rxM_set k] at hS; exact chunk_sub_sdiff j k h hS
open Lean in
def rsErased (n : Nat) : MacroM Term := do
  let mut s ← `((Finset.univ : Finset (Fin 16)))
  for j in [0:n] do
    s ← `(Finset.erase $s ($(Syntax.mkNumLit (toString j)) : Fin 16))
  return s
open Lean in
def rsSub (lem : Ident) (n : Nat) : MacroM Term := do
  let kk := Syntax.mkNumLit (toString n)
  let mut p ← `(Finset.subset_univ _)
  for j in [0:n] do
    p ← `($lem ($(Syntax.mkNumLit (toString j)) : Fin 16) ($kk : Fin 16) (by decide) $p)
  return p
set_option hygiene false in
open Lean in
macro "rs_send_y " k:num n:num dv:ident dvlt:ident dveq:ident : tactic => do
  let kk := k.getNat
  let nm (s : String) := mkIdent (Name.mkSimple (s ++ "_" ++ toString kk))
  let er ← rsErased kk
  let sbs ← rsSub (mkIdent `sb_sub_sdiff) kk
  let rys ← rsSub (mkIdent `ry_sub_sdiff) kk
  `(tactic| (
    ihave Hcv := ((pointsTo_split_subset (I := (sbM $k).view.set) $sbs).1) $$ Hsb
    icases Hcv with ⟨Hs_c, Hsb⟩
    ihave Hcv := ((pointsTo_split_subset (I := (ryM $k).view.set) $rys).1) $$ Hyb
    icases Hcv with ⟨Hy_c, Hyb⟩
    ihave #HIsy_c := (binv m K c (jsy $k) (kcell_sy c $k)) $$ HIown
    ihave #HIryN_c := (binv_ryN m K c $k) $$ HIry
    ihave #HrSy_c := (reach_at (F := F) (fun k => syCell k c) $k) $$ HrSy
    ihave #HrRyN_c := (reach_at (F := F) (fun k => ryCell k (ynb c)) $k) $$ HrRyN
    ihave Hb := (Entails.of_eq (bigSep_take (i := ($k : Fin 16)) (s := $er) (by decide) _)) $$ HtSy
    icases Hb with ⟨HtSy_c, HtSy⟩
    ihave Hb := (Entails.of_eq (bigSep_take (i := ($k : Fin 16)) (s := $er) (by decide) _)) $$ HtRy
    icases Hb with ⟨HtRy_c, HtRy⟩
    iapply (step_sendY m c $k $n rfl ⟨$dv c, $dvlt c⟩ (Fin.ext ($dveq c)) _ _ ?_) $$ [Hs_c Hy_c HO HtSy_c HtRy_c]
    rotate_left
    · sl_close
    rotate_left
    · refine (sb_read_head (F := F) $k _ _ _ _).trans ?_
      unfold sentY
      refine (congrArg (toSend (F := F)) ?_ : toSend (F := F) _ = toSend (F := F) _)
      sl_unfold_run_names
      repeat (first
        | exact ld_read_same _ _ _ _
        | refine (ld_read_other _ _ _ _ (by decide) _ _).trans ?_)
    iintro ⟨$(nm "HcSy"):ident, HO⟩
    iclear HIsy_c HIryN_c HrSy_c HrRyN_c))
def RSFact (p : Prop) : Prop := p
theorem RSFact.get {p : Prop} (h : RSFact p) : p := h
theorem RSFact.mk {p : Prop} (h : p) : RSFact p := h
macro "rs_hd" : tactic => `(tactic| (
  have hlt : (‹Dev nD› : Dev nD).val < 4 := Fin.isLt _
  simp only [row_lits, k0_off4_eq, k0_off5_eq, Matrix.cons_val_zero]
  omega))
macro "rs_ld" : tactic => `(tactic| (
  repeat (first
    | exact ld_read_same _ _ _ _
    | refine (ld_read_other _ _ _ _ (by decide) _ _).trans ?_)))
open Lean Elab Tactic Meta in
elab "rs_fact" : tactic => withMainContext do
  let g ← getMainGoal
  let t ← instantiateMVars (← g.getType)
  let some (_, _, rhs) := t.eq? | throwError "rs_fact: the goal is not an equation"
  let rhs := rhs.headBeta
  unless rhs.isApp do throwError "rs_fact: the right side is not an application"
  let kG := rhs.appArg!
  let fG := rhs.appFn!
  for d in (← getLCtx) do
    if d.isImplementationDetail then continue
    let ty ← instantiateMVars d.type
    unless ty.isAppOfArity ``Cert.KernelIdeal.RS.RSFact 1 do continue
    let some (_, _, r) := ty.appArg!.eq? | continue
    unless r.isApp do continue
    if r.appFn! == fG then
      if ← isDefEq r.appArg! kG then
        let pr ← mkAppM ``Cert.KernelIdeal.RS.RSFact.get #[d.toExpr]
        let prTy ← inferType pr
        if ← isDefEq prTy t then
          g.assign pr
          replaceMainGoal []
          return
  throwError "rs_fact: no kept fact matches {rhs}"
open Lean Elab Tactic Meta in
def isRunName (n : Name) : Bool := n.components.dropLast.any (· == `sl)
open Lean Elab Tactic Meta in
partial def openPath (e : Expr) : MetaM Expr := do
  let e := e.headBeta
  let f := e.getAppFn
  if let .const n _ := f then
    if isRunName n then
      if let some e' ← delta? e then return ← openPath e'
      return e
    let args := e.getAppArgs
    let k := args.size
    if n == ``Idealize.ShloMosaic.ReadAs.apply && k ≥ 1 then
      let e' ← whnfR e
      if e' != e then return ← openPath e'
      return e
    if (n == ``Idealize.ShloMosaic.View.read || n == ``Idealize.ShloMosaic.View.writes || n == ``Sigma.mk) && k ≥ 1 then
      return mkAppN f (args.set! (k - 1) (← openPath args[k - 1]!))
    if n == ``List.cons && k == 3 then
      return mkAppN f (args.set! 1 (← openPath args[1]!))
  return e
open Lean Elab Tactic Meta in
elab "rs_open" : tactic => withMainContext do
  let g ← getMainGoal
  let t ← instantiateMVars (← g.getType)
  let some (α, lhs, rhs) := t.eq? | throwError "rs_open: the goal is not an equation"
  let lhs' ← openPath lhs
  replaceMainGoal [← g.replaceTargetDefEq (← mkEq lhs' rhs)]
macro "rs_out" : tactic => `(tactic| (
  try beta_reduce
  rs_open
  repeat (refine (out_read_other _ _ _ _ ?_ _ _).trans ?_; (· rs_hd); rs_open)
  refine (out_read_same _ _ _ _).trans ?_
  rs_open
  refine (ob_read_head _ _ _ _ _ _).trans ?_
  refine congrArg₂ (foldOut (F := F)) ?_ ?_
  · rs_open
    rs_ld
  · rs_fact))
theorem prog_ret_bind {E : Type → Type} {α β : Type} (a : α) (k : α → Prog E β) : (Prog.ret a : Prog E α).bind k = k a := rfl
set_option hygiene false in
open Lean in
macro "rs_fwd " k:num n:num n':num dv:ident dvlt:ident dveq:ident : tactic => do
  let kk := k.getNat
  let nm (s : String) := mkIdent (Name.mkSimple (s ++ "_" ++ toString kk))
  let er ← rsErased kk
  let rxs ← rsSub (mkIdent `rx_sub_sdiff) kk
  `(tactic| (
    ihave #HI_c := (binv m K c (jry $k) (kcell_ry c $k)) $$ HIown
    ihave Hb := (Entails.of_eq (bigSep_take (i := ($k : Fin 16)) (s := $er) (by decide) _)) $$ HcRy
    icases Hb with ⟨Hc_c, HcRy⟩
    ihave Hb := (Entails.of_eq (bigSep_take (i := ($k : Fin 16)) (s := $er) (by decide) _)) $$ HaRy
    icases Hb with ⟨Ha_c, HaRy⟩
    iapply (step_wait m c (κ' := .tc) (dst := ryM $k) (ryS $k) _ $n (duties_ry m c $k) (amount_ry m c $k 0 false) (payload_ry m c $k false) (lev_ry c $k $n rfl) rfl (κ := K (c, jry $k))) $$ [Hc_c HO Ha_c]
    · sl_close
    iintro ⟨HO, $(nm "HaRy1"):ident, Hp⟩
    unfold ryPay pieceAt
    icases Hp with ⟨%fr, %$(nm "hry"):ident, Hr⟩
    ihave Hsh := ((pointsTo_share (PosShare.mem_left_op_right fullShare)).1) $$ Hr
    icases Hsh with ⟨HrL, $(nm "HryR"):ident⟩
    try sl_exec
    ihave Hcv := ((pointsTo_split_subset (I := (rxM $k).view.set) $rxs).1) $$ Hxb
    icases Hcv with ⟨Hx_c, Hxb⟩
    ihave #HIsx_c := (binv m K c (jsx $k) (kcell_sx c $k)) $$ HIown
    ihave #HIrxN_c := (binv_rxN m K c $k) $$ HIrx
    ihave #HrSx_c := (reach_at (F := F) (fun k => sxCell k c) $k) $$ HrSx
    ihave #HrRxN_c := (reach_at (F := F) (fun k => rxCell k (xnb c)) $k) $$ HrRxN
    ihave Hb := (Entails.of_eq (bigSep_take (i := ($k : Fin 16)) (s := $er) (by decide) _)) $$ HtSx
    icases Hb with ⟨HtSx_c, HtSx⟩
    ihave Hb := (Entails.of_eq (bigSep_take (i := ($k : Fin 16)) (s := $er) (by decide) _)) $$ HtRx
    icases Hb with ⟨HtRx_c, HtRx⟩
    iapply (step_sendX m c $k $n' rfl ⟨$dv c, $dvlt c⟩ (Fin.ext ($dveq c)) fr _ $(nm "hry"):ident) $$ [HrL Hx_c HO HtSx_c HtRx_c]
    · sl_close
    iintro ⟨$(nm "HcSx"):ident, HO⟩
    iclear HI_c HIsx_c HIrxN_c HrSx_c HrRxN_c
    replace $(nm "hry"):ident := RSFact.mk $(nm "hry"):ident
    try rw [prog_ret_bind]))
set_option hygiene false in
open Lean in
macro "rs_foldx " j:num n:num : tactic => do
  let jj := j.getNat
  let nm (s : String) := mkIdent (Name.mkSimple (s ++ "_" ++ toString jj))
  let er ← rsErased jj
  `(tactic| (
    ihave #HI_c := (binv m K c (jrx $j) (kcell_rx c $j)) $$ HIown
    ihave Hb := (Entails.of_eq (bigSep_take (i := ($j : Fin 16)) (s := $er) (by decide) _)) $$ HcRx
    icases Hb with ⟨Hc_c, HcRx⟩
    ihave Hb := (Entails.of_eq (bigSep_take (i := ($j : Fin 16)) (s := $er) (by decide) _)) $$ HaRx
    icases Hb with ⟨Ha_c, HaRx⟩
    iapply (step_wait m c (κ' := .tc) (dst := rxM $j) (rxS $j) _ $n (duties_rx m c $j) (amount_rx m c $j 0 false) (payload_rx m c $j false) (lev_rx c $j $n (by decide)) rfl (κ := K (c, jrx $j))) $$ [Hc_c HO Ha_c]
    · sl_close
    iintro ⟨HO, $(nm "HaRx1"):ident, Hp⟩
    unfold rxPay pieceAt
    icases Hp with ⟨%fq, %$(nm "hrx"):ident, $(nm "HrxW"):ident⟩
    replace $(nm "hrx"):ident := RSFact.mk $(nm "hrx"):ident
    iclear HI_c
    try rw [prog_ret_bind]))
set_option hygiene false in
open Lean in
macro "rs_wsend_y " k:num : tactic => do
  let kk := k.getNat
  let nm (s : String) := mkIdent (Name.mkSimple (s ++ "_" ++ toString kk))
  let er ← rsErased kk
  `(tactic| (
    ihave #HI_c := (binv m K c (jsy $k) (kcell_sy c $k)) $$ HIown
    ihave Hb := (Entails.of_eq (bigSep_take (i := ($k : Fin 16)) (s := $er) (by decide) _)) $$ HaSy
    icases Hb with ⟨Ha_c, HaSy⟩
    iapply (step_wait m c (κ' := .tc) (dst := sbM $k) (syS $k) _ 0 (duties_sy m c $k) (amount_sy m c $k 0 false) (payload_sy m c $k false) (lev_done c _) rfl (κ := K (c, jsy $k))) $$ [$(nm "HcSy"):ident HO Ha_c]
    · sl_close
    iintro ⟨HO, $(nm "HaSy1"):ident, $(nm "HsbP"):ident⟩
    iclear HI_c
    try rw [prog_ret_bind]))
set_option hygiene false in
open Lean in
macro "rs_wsend_x " k:num : tactic => do
  let kk := k.getNat
  let nm (s : String) := mkIdent (Name.mkSimple (s ++ "_" ++ toString kk))
  let er ← rsErased kk
  `(tactic| (
    ihave #HI_c := (binv m K c (jsx $k) (kcell_sx c $k)) $$ HIown
    ihave Hb := (Entails.of_eq (bigSep_take (i := ($k : Fin 16)) (s := $er) (by decide) _)) $$ HaSx
    icases Hb with ⟨Ha_c, HaSx⟩
    iapply (step_wait m c (κ' := .tc) (dst := ryM $k) (sxS $k) _ 0 (duties_sx m c $k) (amount_sx m c $k 0 false) (payload_sx m c $k false) (lev_done c _) rfl (κ := K (c, jsx $k))) $$ [$(nm "HcSx"):ident HO Ha_c]
    · sl_close
    iintro ⟨HO, $(nm "HaSx1"):ident, $(nm "HryL"):ident⟩
    iclear HI_c
    try rw [prog_ret_bind]))
set_option hygiene false in
macro "rs_disj" : tactic => `(tactic| (
  refine outWin_disj _ _ _ _ ?_
  have hc4 : c.val < 4 := c.isLt
  simp only [row_lits]
  omega))
set_option hygiene false in
open Lean in
macro "rs_wrap_y " k:num : tactic => do
  let nm (s : String) := mkIdent (Name.mkSimple (s ++ "_" ++ toString k.getNat))
  `(tactic| (
    ihave $(nm "HryR"):ident : (pieceAny (ryM $k) c fullShare.right : sProp 𝕄) $$ [$(nm "HryR"):ident]
    · unfold pieceAny; iexists _; iexact $(nm "HryR"):ident))
set_option hygiene false in
open Lean in
macro "rs_wrap_x " k:num : tactic => do
  let nm (s : String) := mkIdent (Name.mkSimple (s ++ "_" ++ toString k.getNat))
  `(tactic| (
    ihave $(nm "HrxW"):ident : (pieceAny (rxM $k) c fullShare : sProp 𝕄) $$ [$(nm "HrxW"):ident]
    · unfold pieceAny; iexists _; iexact $(nm "HrxW"):ident))
-- One device's body, from the invariant at entry with thirty-four payments owed to the invariant at exit with none.
set_option maxHeartbeats 40000000 in
set_option sl_exec.dmaWindow true in
set_option sl_exec.askDisjointFirst true in
set_option sl_exec.rejoinHeartbeats 400000 in
set_option sl_exec.stepHeartbeats 1000000 in
theorem body (c : Dev nD) : BodyStmt m c := by
  intro W
  have hmwL := mayWait_local (F := F) c
  unfold O₀ Φ₀ start hbm0 scratch ghost invs payToks creds bufAny
  rw [fam_roles c (fun g => atPos ER g 0 ∅ 0), fam_roles c (fun g => reached ER g 0)]
  iintro ⟨⟨⟨⟨%K, ⟨#HIown, #HIby, #HIbx, #HIry, #HIrx⟩, ⟨HaB, HaSy, HaRy, HaSx, HaRx⟩, ⟨#HrB, #HrSy, #HrRy, #HrSx, #HrRx⟩, #HrBy, #HrBx,
      ⟨HtBy, HtBx, HtRy, HtRx, HtSy, HtSx⟩, Hld, Hst⟩, ⟨HcB, HcRy, HcRx⟩, #Hlev⟩,
    ⟨Hx, ⟨%o0, Hout⟩⟩, ⟨%f0, Hsb⟩, ⟨%f1, Hryb⟩, ⟨%f2, Hrxb⟩, ⟨%f3, Hldb⟩, ⟨%f4, Hob⟩⟩, HO⟩
  ihave Hx := (Entails.of_eq (whole_spell main_arg0 c fullShare (slab m c))) $$ Hx
  ihave Hout := (Entails.of_eq (whole_spell main_v1 c fullShare o0)) $$ Hout
  ihave Hsb := (Entails.of_eq (whole_spell cc0_scratch0 c fullShare f0)) $$ Hsb
  ihave Hldb := (Entails.of_eq (whole_spell cc0_scratch3 c fullShare f3)) $$ Hldb
  ihave Hob := (Entails.of_eq (whole_spell cc0_scratch4 c fullShare f4)) $$ Hob
  ihave Hxs := ((Transfers.pointsTo_toks_range (ℓ := (Memref.whole main_arg0).view.loc (c : Thread nD τ)) (S := Finset.univ) (f := slab m c) fullShare 68).1) $$ Hx
  icases Hxs with ⟨Hx, Hxt⟩
  ihave Hxs := (Entails.of_eq (bigSep_take (i := 64) (s := Finset.range 68) (by decide) _)) $$ Hxt
  icases Hxs with ⟨Hx64, Hxt⟩
  ihave Hxs := (Entails.of_eq (bigSep_take (i := 65) (s := (Finset.range 68).erase 64) (by decide) _)) $$ Hxt
  icases Hxs with ⟨Hx65, Hxt⟩
  ihave Hxs := (Entails.of_eq (bigSep_take (i := 66) (s := ((Finset.range 68).erase 64).erase 65) (by decide) _)) $$ Hxt
  icases Hxs with ⟨Hx66, Hxt⟩
  ihave Hxs := (Entails.of_eq (bigSep_take (i := 67) (s := (((Finset.range 68).erase 64).erase 65).erase 66) (by decide) _)) $$ Hxt
  icases Hxs with ⟨Hx67, Hxt⟩
  ihave Hs4 := (Entails.of_eq (fam4 (fun s : Fin 4 => (semVal ((c : Thread nD τ), SemLoc.dma (ldS s)) 0 : sProp 𝕄)))) $$ Hld
  icases Hs4 with ⟨Hl0, Hl1, Hl2, Hl3⟩
  ihave Hs4 := (Entails.of_eq (fam4 (fun s : Fin 4 => (semVal ((c : Thread nD τ), SemLoc.dma (stS s)) 0 : sProp 𝕄)))) $$ Hst
  icases Hs4 with ⟨Hst0, Hst1, Hst2, Hst3⟩
  unfold bodyAt0
  rw [cc0_body_eq_skeleton]; unfold cc0_body_skel
  sl_exec
  iapply (step_sigY m c ⟨k0_dev1 c, k0_dev1_lt c⟩ (Fin.ext (k0_dev1_eq c)) rfl (κ := K (ynb c, jbar))) $$ [HO HtBy Hryb]
  · sl_close
  iintro HO
  sl_exec
  iapply (step_sigX m c ⟨k0_dev2 c, k0_dev2_lt c⟩ (Fin.ext (k0_dev2_eq c)) rfl (κ := K (xnb c, jbar))) $$ [HO HtBx Hrxb]
  · sl_close
  iintro HO
  sl_exec
  ihave #HIB := (binv m K c jbar (g := barCell c) rfl) $$ HIown
  iapply (step_barwait m c rfl (κ := K (c, jbar))) $$ [HcB HO HaB]
  · sl_close
  iintro ⟨HO, HaB, HpY, HpX⟩
  unfold barPayY barPayX bufAny
  icases HpY with ⟨⟨%fy, Hyb⟩, #HrRyN⟩
  icases HpX with ⟨⟨%fx, Hxb⟩, #HrRxN⟩
  ihave Hyb := (Entails.of_eq (whole_spell cc0_scratch1 (ynb c) fullShare fy)) $$ Hyb
  ihave Hxb := (Entails.of_eq (whole_spell cc0_scratch2 (xnb c) fullShare fx)) $$ Hxb
  sl_exec
  rs_send_y 0 31 k0_dev3 k0_dev3_lt k0_dev3_eq
  sl_exec
  rs_send_y 1 30 k0_dev4 k0_dev4_lt k0_dev4_eq
  sl_exec
  rs_send_y 2 29 k0_dev5 k0_dev5_lt k0_dev5_eq
  sl_exec
  rs_send_y 3 28 k0_dev6 k0_dev6_lt k0_dev6_eq
  sl_exec
  rs_send_y 4 27 k0_dev7 k0_dev7_lt k0_dev7_eq
  sl_exec
  rs_send_y 5 26 k0_dev8 k0_dev8_lt k0_dev8_eq
  sl_exec
  rs_send_y 6 25 k0_dev9 k0_dev9_lt k0_dev9_eq
  sl_exec
  rs_send_y 7 24 k0_dev10 k0_dev10_lt k0_dev10_eq
  sl_exec
  rs_send_y 8 23 k0_dev11 k0_dev11_lt k0_dev11_eq
  sl_exec
  rs_send_y 9 22 k0_dev12 k0_dev12_lt k0_dev12_eq
  sl_exec
  rs_send_y 10 21 k0_dev13 k0_dev13_lt k0_dev13_eq
  sl_exec
  rs_send_y 11 20 k0_dev14 k0_dev14_lt k0_dev14_eq
  sl_exec
  rs_send_y 12 19 k0_dev15 k0_dev15_lt k0_dev15_eq
  sl_exec
  rs_send_y 13 18 k0_dev16 k0_dev16_lt k0_dev16_eq
  sl_exec
  rs_send_y 14 17 k0_dev17 k0_dev17_lt k0_dev17_eq
  sl_exec
  rs_send_y 15 16 k0_dev18 k0_dev18_lt k0_dev18_eq
  sl_exec
  rs_fwd 0 16 15 k0_dev19 k0_dev19_lt k0_dev19_eq
  sl_exec (disch := rs_disj)
  rs_fwd 1 15 14 k0_dev20 k0_dev20_lt k0_dev20_eq
  sl_exec (disch := rs_disj)
  rs_foldx 0 14
  sl_exec (disch := rs_disj)
  rs_fwd 2 14 13 k0_dev21 k0_dev21_lt k0_dev21_eq
  sl_exec (disch := rs_disj)
  rs_foldx 1 13
  sl_exec (disch := rs_disj)
  rs_fwd 3 13 12 k0_dev22 k0_dev22_lt k0_dev22_eq
  sl_exec (disch := rs_disj)
  rs_foldx 2 12
  sl_exec (disch := rs_disj)
  rs_fwd 4 12 11 k0_dev23 k0_dev23_lt k0_dev23_eq
  sl_exec (disch := rs_disj)
  rs_foldx 3 11
  sl_exec (disch := rs_disj)
  rs_fwd 5 11 10 k0_dev24 k0_dev24_lt k0_dev24_eq
  sl_exec (disch := rs_disj)
  rs_foldx 4 10
  sl_exec (disch := rs_disj)
  rs_fwd 6 10 9 k0_dev25 k0_dev25_lt k0_dev25_eq
  sl_exec (disch := rs_disj)
  rs_foldx 5 9
  sl_exec (disch := rs_disj)
  rs_fwd 7 9 8 k0_dev26 k0_dev26_lt k0_dev26_eq
  sl_exec (disch := rs_disj)
  rs_foldx 6 8
  sl_exec (disch := rs_disj)
  rs_fwd 8 8 7 k0_dev27 k0_dev27_lt k0_dev27_eq
  sl_exec (disch := rs_disj)
  rs_foldx 7 7
  sl_exec (disch := rs_disj)
  rs_fwd 9 7 6 k0_dev28 k0_dev28_lt k0_dev28_eq
  sl_exec (disch := rs_disj)
  rs_foldx 8 6
  sl_exec (disch := rs_disj)
  rs_fwd 10 6 5 k0_dev29 k0_dev29_lt k0_dev29_eq
  sl_exec (disch := rs_disj)
  rs_foldx 9 5
  sl_exec (disch := rs_disj)
  rs_fwd 11 5 4 k0_dev30 k0_dev30_lt k0_dev30_eq
  sl_exec (disch := rs_disj)
  rs_foldx 10 4
  sl_exec (disch := rs_disj)
  rs_fwd 12 4 3 k0_dev31 k0_dev31_lt k0_dev31_eq
  sl_exec (disch := rs_disj)
  rs_foldx 11 3
  sl_exec (disch := rs_disj)
  rs_fwd 13 3 2 k0_dev32 k0_dev32_lt k0_dev32_eq
  sl_exec (disch := rs_disj)
  rs_foldx 12 2
  sl_exec (disch := rs_disj)
  rs_fwd 14 2 1 k0_dev33 k0_dev33_lt k0_dev33_eq
  sl_exec (disch := rs_disj)
  rs_foldx 13 1
  sl_exec (disch := rs_disj)
  rs_fwd 15 1 0 k0_dev34 k0_dev34_lt k0_dev34_eq
  sl_exec (disch := rs_disj)
  rs_foldx 14 0
  sl_exec (disch := rs_disj)
  rs_foldx 15 0
  sl_exec (disch := rs_disj)
  rs_wsend_y 0
  try sl_exec
  rs_wsend_x 0
  try sl_exec
  rs_wsend_y 1
  try sl_exec
  rs_wsend_x 1
  try sl_exec
  rs_wsend_y 2
  try sl_exec
  rs_wsend_x 2
  try sl_exec
  rs_wsend_y 3
  try sl_exec
  rs_wsend_x 3
  try sl_exec
  rs_wsend_y 4
  try sl_exec
  rs_wsend_x 4
  try sl_exec
  rs_wsend_y 5
  try sl_exec
  rs_wsend_x 5
  try sl_exec
  rs_wsend_y 6
  try sl_exec
  rs_wsend_x 6
  try sl_exec
  rs_wsend_y 7
  try sl_exec
  rs_wsend_x 7
  try sl_exec
  rs_wsend_y 8
  try sl_exec
  rs_wsend_x 8
  try sl_exec
  rs_wsend_y 9
  try sl_exec
  rs_wsend_x 9
  try sl_exec
  rs_wsend_y 10
  try sl_exec
  rs_wsend_x 10
  try sl_exec
  rs_wsend_y 11
  try sl_exec
  rs_wsend_x 11
  try sl_exec
  rs_wsend_y 12
  try sl_exec
  rs_wsend_x 12
  try sl_exec
  rs_wsend_y 13
  try sl_exec
  rs_wsend_x 13
  try sl_exec
  rs_wsend_y 14
  try sl_exec
  rs_wsend_x 14
  try sl_exec
  rs_wsend_y 15
  try sl_exec
  rs_wsend_x 15
  sl_exec (disch := rs_disj)
  unfold syPay sxPay
  rs_wrap_y 0
  rs_wrap_x 0
  rs_wrap_y 1
  rs_wrap_x 1
  rs_wrap_y 2
  rs_wrap_x 2
  rs_wrap_y 3
  rs_wrap_x 3
  rs_wrap_y 4
  rs_wrap_x 4
  rs_wrap_y 5
  rs_wrap_x 5
  rs_wrap_y 6
  rs_wrap_x 6
  rs_wrap_y 7
  rs_wrap_x 7
  rs_wrap_y 8
  rs_wrap_x 8
  rs_wrap_y 9
  rs_wrap_x 9
  rs_wrap_y 10
  rs_wrap_x 10
  rs_wrap_y 11
  rs_wrap_x 11
  rs_wrap_y 12
  rs_wrap_x 12
  rs_wrap_y 13
  rs_wrap_x 13
  rs_wrap_y 14
  rs_wrap_x 14
  rs_wrap_y 15
  rs_wrap_x 15
  ihave HBsb := (Entails.of_eq (fam16 (fun k : Fin 16 => (pieceAny (sbM k) c fullShare : sProp 𝕄))).symm) $$ [HsbP_0 HsbP_1 HsbP_2 HsbP_3 HsbP_4 HsbP_5 HsbP_6 HsbP_7 HsbP_8 HsbP_9 HsbP_10 HsbP_11 HsbP_12 HsbP_13 HsbP_14 HsbP_15]
  · sl_close
  ihave HBry := (Entails.of_eq (fam16 (fun k : Fin 16 => (iprop(pieceAny (ryM k) c fullShare.left ∗ pieceAny (ryM k) c fullShare.right) : sProp 𝕄))).symm) $$ [HryL_0 HryL_1 HryL_2 HryL_3 HryL_4 HryL_5 HryL_6 HryL_7 HryL_8 HryL_9 HryL_10 HryL_11 HryL_12 HryL_13 HryL_14 HryL_15 HryR_0 HryR_1 HryR_2 HryR_3 HryR_4 HryR_5 HryR_6 HryR_7 HryR_8 HryR_9 HryR_10 HryR_11 HryR_12 HryR_13 HryR_14 HryR_15]
  · sl_close
  ihave HBrx := (Entails.of_eq (fam16 (fun k : Fin 16 => (pieceAny (rxM k) c fullShare : sProp 𝕄))).symm) $$ [HrxW_0 HrxW_1 HrxW_2 HrxW_3 HrxW_4 HrxW_5 HrxW_6 HrxW_7 HrxW_8 HrxW_9 HrxW_10 HrxW_11 HrxW_12 HrxW_13 HrxW_14 HrxW_15]
  · sl_close
  ihave HS0 := (join_sb (F := F) c) $$ HBsb
  ihave HS1 := (join_ry (F := F) c) $$ HBry
  ihave HS2 := (join_rx (F := F) c) $$ HBrx
  ihave HAsy := (Entails.of_eq (fam16 (fun k : Fin 16 => (atPos ER (syCell k c) 1 ∅ 0 : sProp 𝕄))).symm) $$ [HaSy1_0 HaSy1_1 HaSy1_2 HaSy1_3 HaSy1_4 HaSy1_5 HaSy1_6 HaSy1_7 HaSy1_8 HaSy1_9 HaSy1_10 HaSy1_11 HaSy1_12 HaSy1_13 HaSy1_14 HaSy1_15]
  · sl_close
  ihave HAry := (Entails.of_eq (fam16 (fun k : Fin 16 => (atPos ER (ryCell k c) 1 ∅ 0 : sProp 𝕄))).symm) $$ [HaRy1_0 HaRy1_1 HaRy1_2 HaRy1_3 HaRy1_4 HaRy1_5 HaRy1_6 HaRy1_7 HaRy1_8 HaRy1_9 HaRy1_10 HaRy1_11 HaRy1_12 HaRy1_13 HaRy1_14 HaRy1_15]
  · sl_close
  ihave HAsx := (Entails.of_eq (fam16 (fun k : Fin 16 => (atPos ER (sxCell k c) 1 ∅ 0 : sProp 𝕄))).symm) $$ [HaSx1_0 HaSx1_1 HaSx1_2 HaSx1_3 HaSx1_4 HaSx1_5 HaSx1_6 HaSx1_7 HaSx1_8 HaSx1_9 HaSx1_10 HaSx1_11 HaSx1_12 HaSx1_13 HaSx1_14 HaSx1_15]
  · sl_close
  ihave HArx := (Entails.of_eq (fam16 (fun k : Fin 16 => (atPos ER (rxCell k c) 1 ∅ 0 : sProp 𝕄))).symm) $$ [HaRx1_0 HaRx1_1 HaRx1_2 HaRx1_3 HaRx1_4 HaRx1_5 HaRx1_6 HaRx1_7 HaRx1_8 HaRx1_9 HaRx1_10 HaRx1_11 HaRx1_12 HaRx1_13 HaRx1_14 HaRx1_15]
  · sl_close
  rw [wp_ret]
  imod (exit_cells m c K) $$ [HAsy HAry HAsx HArx] with ⟨HSsy, HSry, HSsx, HSrx⟩
  · sl_close
  ihave HLd := (Entails.of_eq (fam4 (fun s : Fin 4 => (semVal ((c : Thread nD τ), SemLoc.dma (ldS s)) 0 : sProp 𝕄))).symm) $$ [Hl0 Hl1 Hl2 Hl3]
  · sl_close
  ihave HSt := (Entails.of_eq (fam4 (fun s : Fin 4 => (semVal ((c : Thread nD τ), SemLoc.dma (stS s)) 0 : sProp 𝕄))).symm) $$ [Hst0 Hst1 Hst2 Hst3]
  · sl_close
  ihave HSems := (Entails.of_eq (sems72 (F := F) c).symm) $$ [HSsy HSry HSsx HSrx HLd HSt]
  · sl_close
  ihave Hxt := (Entails.of_eq (bigSep_take (i := 67) (s := (((Finset.range 68).erase 64).erase 65).erase 66) (by decide) (fun i => ((Memref.whole main_arg0).view.loc (c : Thread nD τ) ↦{Transfers.shareTokN fullShare i} slab m c : sProp 𝕄))).symm) $$ [Hx67 Hxt]
  · sl_close
  ihave Hxt := (Entails.of_eq (bigSep_take (i := 66) (s := ((Finset.range 68).erase 64).erase 65) (by decide) (fun i => ((Memref.whole main_arg0).view.loc (c : Thread nD τ) ↦{Transfers.shareTokN fullShare i} slab m c : sProp 𝕄))).symm) $$ [Hx66 Hxt]
  · sl_close
  ihave Hxt := (Entails.of_eq (bigSep_take (i := 65) (s := (Finset.range 68).erase 64) (by decide) (fun i => ((Memref.whole main_arg0).view.loc (c : Thread nD τ) ↦{Transfers.shareTokN fullShare i} slab m c : sProp 𝕄))).symm) $$ [Hx65 Hxt]
  · sl_close
  ihave Hxt := (Entails.of_eq (bigSep_take (i := 64) (s := Finset.range 68) (by decide) (fun i => ((Memref.whole main_arg0).view.loc (c : Thread nD τ) ↦{Transfers.shareTokN fullShare i} slab m c : sProp 𝕄))).symm) $$ [Hx64 Hxt]
  · sl_close
  ihave Hx := ((Transfers.pointsTo_toks_range (ℓ := (Memref.whole main_arg0).view.loc (c : Thread nD τ)) (S := Finset.univ) (f := slab m c) fullShare 68).2) $$ [Hx Hxt]
  · sl_close
  imodintro
  unfold Φ₁ hbm1 scratch
  isplitr [HO]
  · isplitl [Hx Hout]
    · isplitl [Hx]
      · iexact Hx
      · iexists _
        isplitr
        rotate_left
        · iexact Hout
        · ipureintro
          refine ⟨fun k => ?_, fun k => ?_⟩ <;> fin_cases k <;> rs_out
    isplitl [HS0 HS1 HS2 Hldb Hob]
    · isplitl [HS0]; · iexact HS0
      isplitl [HS1]; · iexact HS1
      isplitl [HS2]; · iexact HS2
      isplitl [Hldb]
      · unfold bufAny; iexists _; iexact Hldb
      · unfold bufAny; iexists _; iexact Hob
    iexact HSems
  · iexists _; iexact HO
end Cert.KernelIdeal.RS
end
-- ==== Proof.Bits.Common.lean ====
import proofs.«900302_g7700000000000303_dist_rs_v7x_xy2x2_y_m16384_n1024_bf16_1_alg».proof.Proof.Gen.Kernel
import proofs.«900302_g7700000000000303_dist_rs_v7x_xy2x2_y_m16384_n1024_bf16_1_alg».proof.Proof.Gen.Kernel.Skeleton
import proofs.«900302_g7700000000000303_dist_rs_v7x_xy2x2_y_m16384_n1024_bf16_1_alg».proof.Proof.Gen.Kernel.Launch
import proofs.«900302_g7700000000000303_dist_rs_v7x_xy2x2_y_m16384_n1024_bf16_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.Tactic
noncomputable section
namespace Cert.Kernel.RS
open Idealize.ShloMosaic
open Idealize.ShloMosaic.TcCoe
open Idealize.SL Idealize.SL.RA Idealize.SL.BI
open Idealize.ShloMosaic.Rounds
variable {F : FTy → Type} [FloatOps F]
abbrev UB : Type := URounds (GSem nD τ sig) Bool
abbrev UU : Type := UR sig nD τ × (UB × Counters)
local notation "𝕄" => MT nD τ sig Unit (Elt F) ℕ UU ℕ
abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev 𝒱₀ : Variants := Variants.none
abbrev Mem (F : FTy → Type) : Type := (ℓ : Loc nD τ sig) → Buf (Elt F) ℓ
def s₀ (m : Mem F) (ρ : Dev nD → PrngReg) : MemSt nD τ sig (Elt F) := ⟨m, fun _ => 0, ρ⟩
def ynb (c : Dev nD) : Dev nD := ⟨(2 * (c.val / 2) + 1) - (c.val % 2), by revert c; decide⟩
def xnb (c : Dev nD) : Dev nD := ⟨((c.val % 2) + 2) - 2 * (c.val / 2), by revert c; decide⟩
theorem ynb_ynb (c : Dev nD) : ynb (ynb c) = c := by revert c; decide
theorem xnb_xnb (c : Dev nD) : xnb (xnb c) = c := by revert c; decide
def ynbE : Dev nD ≃ Dev nD := ⟨ynb, ynb, ynb_ynb, ynb_ynb⟩
def xnbE : Dev nD ≃ Dev nD := ⟨xnb, xnb, xnb_xnb, xnb_xnb⟩
abbrev syS (k : Fin 16) : DmaSem sig := ⟨k.val, show k.val < 72 by omega⟩
abbrev ryS (k : Fin 16) : DmaSem sig := ⟨16 + k.val, show 16 + k.val < 72 by omega⟩
abbrev sxS (k : Fin 16) : DmaSem sig := ⟨32 + k.val, show 32 + k.val < 72 by omega⟩
abbrev rxS (k : Fin 16) : DmaSem sig := ⟨48 + k.val, show 48 + k.val < 72 by omega⟩
abbrev ldS (s : Fin 4) : DmaSem sig := ⟨64 + s.val, show 64 + s.val < 72 by omega⟩
abbrev stS (s : Fin 4) : DmaSem sig := ⟨68 + s.val, show 68 + s.val < 72 by omega⟩
abbrev barS : Sem sig := (SemArray.scalar (sig.barrier 0 rfl) : Sems sig S_).sem
abbrev barCell (c : Dev nD) : GSem nD τ sig := ((c : Thread nD τ), .reg barS)
abbrev syCell (k : Fin 16) (c : Dev nD) : GSem nD τ sig := ((c : Thread nD τ), .dma (syS k))
abbrev ryCell (k : Fin 16) (c : Dev nD) : GSem nD τ sig := ((c : Thread nD τ), .dma (ryS k))
abbrev sxCell (k : Fin 16) (c : Dev nD) : GSem nD τ sig := ((c : Thread nD τ), .dma (sxS k))
abbrev rxCell (k : Fin 16) (c : Dev nD) : GSem nD τ sig := ((c : Thread nD τ), .dma (rxS k))
abbrev chunkOff (k : Fin 16) : Fin 2 → Nat := ![512 * k.val, 0]
theorem chunk_inb (k : Fin 16) : ∀ a, chunkOff k a + S512x1024.size a ≤ S8192x1024.size a := by revert k; decide
abbrev chunkR (k : Fin 16) : Rect S8192x1024 := Rect.unit (s := S8192x1024) (chunkOff k) S512x1024.size (chunk_inb k)
abbrev sbM (k : Fin 16) : Memref sig .tc .vmem S512x1024 .bf16 := (Memref.whole cc0_scratch0).slice (chunkR k) (fun _ => rfl)
abbrev ryM (k : Fin 16) : Memref sig .tc .vmem S512x1024 .bf16 := (Memref.whole cc0_scratch1).slice (chunkR k) (fun _ => rfl)
abbrev rxM (k : Fin 16) : Memref sig .tc .vmem S512x1024 .bf16 := (Memref.whole cc0_scratch2).slice (chunkR k) (fun _ => rfl)
abbrev Ncr : ℕ := (sbM 0).view.dmaCredit
theorem Ncr_pos : 0 < Ncr := View.dmaCredit_pos _ (by decide)
-- Two different 512-row chunks of a half-height buffer share no row.
theorem chunk_disjoint (j k : Fin 16) (h : j ≠ k) : Disjoint (chunkR j).set (chunkR k).set := by
  rw [Finset.disjoint_left]
  intro i hi hk
  rw [Rect.mem_set_unit] at hi hk
  have h0 := hi 0; have h1 := hk 0
  simp only [chunkOff, Matrix.cons_val_zero] at h0 h1
  have : (S512x1024.size 0) = 512 := rfl
  apply h; apply Fin.ext; omega
end Cert.Kernel.RS
end
-- ==== Proof.Bits.Spec.lean ====
import proofs.«900302_g7700000000000303_dist_rs_v7x_xy2x2_y_m16384_n1024_bf16_1_alg».proof.Proof.Bits.Common
noncomputable section
namespace Cert.Kernel.RS
open Cert.Kernel Cert.Kernel.Gen
open Idealize.ShloMosaic
open Idealize.ShloMosaic.TcCoe
variable {F : FTy → Type} [FloatOps F]
abbrev w512 (k : Fin 16) : BitVec 32 := BitVec.ofNat 32 (512 * k.val)
abbrev srcP (c : Dev nD) (k : Fin 16) : Memref sig .tc .hbm S512x1024 .f32 :=
  ((Memref.whole main_arg0).slice (Rect.unit (s := S1x16384x2048) (k0_off1 c (w512 k)) S1x512x1024.size (k0_off1_inb c k)) (fun _ => rfl)).squeeze S512x1024 squeezes_S1x512x1024_S512x1024
abbrev srcY (c : Dev nD) (k : Fin 16) : Memref sig .tc .hbm S512x1024 .f32 :=
  ((Memref.whole main_arg0).slice (Rect.unit (s := S1x16384x2048) (k0_off2 c (w512 k)) S1x512x1024.size (k0_off2_inb c k)) (fun _ => rfl)).squeeze S512x1024 squeezes_S1x512x1024_S512x1024
abbrev srcX (c : Dev nD) (k : Fin 16) : Memref sig .tc .hbm S512x1024 .f32 :=
  ((Memref.whole main_arg0).slice (Rect.unit (s := S1x16384x2048) (k0_off3 c (w512 k)) S1x512x1024.size (k0_off3_inb c k)) (fun _ => rfl)).squeeze S512x1024 squeezes_S1x512x1024_S512x1024
abbrev dstY (c : Dev nD) (k : Fin 16) : Memref sig .tc .hbm S512x1024 .bf16 :=
  (Memref.whole main_v1).slice (Rect.unit (s := S16384x1024) (k0_off4 c (w512 k)) S512x1024.size (k0_off4_inb c k)) (fun _ => rfl)
abbrev dstX (c : Dev nD) (k : Fin 16) : Memref sig .tc .hbm S512x1024 .bf16 :=
  (Memref.whole main_v1).slice (Rect.unit (s := S16384x1024) (k0_off5 c (w512 k)) S512x1024.size (k0_off5_inb c k)) (fun _ => rfl)
abbrev slab (m : Mem F) (c : Dev nD) : Buf (Elt F) ((c : Thread nD τ).loc main_arg0) := m ((c : Thread nD τ).loc main_arg0)
def ldV (P : S512x1024.Idx → Elt F .f32) : Vec F S1x512x1024 .f32 := shapeCast S1x512x1024 P shapeCasts_S512x1024_S1x512x1024
abbrev toSend (v : Vec F S1x512x1024 .f32) : FVec F S512x1024 .bf16 := k0_pay1 v
abbrev foldOut (v : Vec F S1x512x1024 .f32) (w : Vec F S512x1024 .bf16) : FVec F S512x1024 .bf16 := k0_pay17 v w
-- Chunk k of what device c sends: its slab's rows of its own half at the other column block, as bf16.
def sentY (m : Mem F) (c : Dev nD) (k : Fin 16) : FVec F S512x1024 .bf16 :=
  toSend (ldV ((srcP c k).view.read (Elt F) (slab m c)))
-- What a device's result must hold: each 512-row window is its own slab's entries plus the chunk that reached it.
def OutOK (m : Mem F) (c : Dev nD) (o : Buf (Elt F) ((c : Thread nD τ).loc main_v1)) : Prop :=
  (∀ k : Fin 16, (dstY c k).view.read (Elt F) o = foldOut (ldV ((srcY c k).view.read (Elt F) (slab m c))) (sentY m (ynb c) k))
  ∧ (∀ k : Fin 16, (dstX c k).view.read (Elt F) o = foldOut (ldV ((srcX c k).view.read (Elt F) (slab m c))) (sentY m (ynb (xnb c)) k))
end Cert.Kernel.RS
end
-- ==== Proof.Bits.Sched.lean ====
import proofs.«900302_g7700000000000303_dist_rs_v7x_xy2x2_y_m16384_n1024_bf16_1_alg».proof.Proof.Bits.Spec
noncomputable section
namespace Cert.Kernel.RS
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
def pieceAny (M : Memref sig .tc .vmem S512x1024 .bf16) (o : Dev nD) (q : PosShare TreeShare) : sProp 𝕄 :=
  iprop(∃ f, (M.view.loc (o : Thread nD τ) ↦[M.view.set]{q} f))
def pieceAt (M : Memref sig .tc .vmem S512x1024 .bf16) (o : Dev nD) (q : PosShare TreeShare) (V : FVec F S512x1024 .bf16) : sProp 𝕄 :=
  iprop(∃ f, ⌜M.view.read (Elt F) f = V⌝ ∗ (M.view.loc (o : Thread nD τ) ↦[M.view.set]{q} f))
def bufAny (b : Ref sig .tc) (o : Dev nD) : sProp 𝕄 :=
  iprop(∃ f : Buf (Elt F) (((o : Dev nD) : Thread nD τ).loc b), (((o : Thread nD τ).loc b) ↦{fullShare} f))
variable (m : Mem F)
def barPayY (o : Dev nD) : sProp 𝕄 :=
  iprop(bufAny cc0_scratch1 (ynb o) ∗ bigSep Finset.univ fun k : Fin 16 => reached ER (ryCell k (ynb o)) 0)
def barPayX (o : Dev nD) : sProp 𝕄 :=
  iprop(bufAny cc0_scratch2 (xnb o) ∗ bigSep Finset.univ fun k : Fin 16 => reached ER (rxCell k (xnb o)) 0)
def syPay (o : Dev nD) (k : Fin 16) : sProp 𝕄 := pieceAny (sbM k) o fullShare
def ryPay (o : Dev nD) (k : Fin 16) : sProp 𝕄 := pieceAt (ryM k) o fullShare (sentY m (ynb o) k)
def sxPay (o : Dev nD) (k : Fin 16) : sProp 𝕄 := pieceAny (ryM k) o fullShare.left
def rxPay (o : Dev nD) (k : Fin 16) : sProp 𝕄 := pieceAt (rxM k) o fullShare (sentY m (ynb (xnb o)) k)
inductive CellKind | bar | sy (k : Fin 16) | ry (k : Fin 16) | sx (k : Fin 16) | rx (k : Fin 16) | other
  deriving DecidableEq
def kindOf : SemLoc sig → CellKind
  | .reg _ => .bar
  | .dma q =>
    if h : q.val < 16 then .sy ⟨q.val, h⟩
    else if h : q.val < 32 then .ry ⟨q.val - 16, by omega⟩
    else if h : q.val < 48 then .sx ⟨q.val - 32, by omega⟩
    else if h : q.val < 64 then .rx ⟨q.val - 48, by omega⟩
    else .other
theorem kindOf_bar : kindOf (.reg barS : SemLoc sig) = .bar := rfl
theorem kindOf_sy (k : Fin 16) : kindOf (.dma (syS k) : SemLoc sig) = .sy k := by revert k; decide
theorem kindOf_ry (k : Fin 16) : kindOf (.dma (ryS k) : SemLoc sig) = .ry k := by revert k; decide
theorem kindOf_sx (k : Fin 16) : kindOf (.dma (sxS k) : SemLoc sig) = .sx k := by revert k; decide
theorem kindOf_rx (k : Fin 16) : kindOf (.dma (rxS k) : SemLoc sig) = .rx k := by revert k; decide
-- Every cell is paid in one round: a barrier cell by its two neighbours, every other cell by one copy that hands over the chunk it moved.
def rsRd : Rounds.Schedule (GSem nD τ sig) Bool (MT nD τ sig Unit (Elt F) ℕ UU ℕ) where
  duties g r :=
    if g.1.2 = .tc ∧ r = 0 then
      match kindOf g.2 with
      | .bar => Finset.univ
      | .other => ∅
      | _ => {false}
    else ∅
  unitless _ := False
  amount g _ _ := match kindOf g.2 with
    | .bar => 1
    | _ => Ncr
  payload g _ d := match kindOf g.2 with
    | .bar => if d then barPayX g.1.1 else barPayY g.1.1
    | .sy k => syPay g.1.1 k
    | .ry k => ryPay m g.1.1 k
    | .sx k => sxPay g.1.1 k
    | .rx k => rxPay m g.1.1 k
    | .other => iprop(emp)
  amount_pos g _ _ _ := by
    cases kindOf g.2 <;> first | exact Nat.one_pos | exact Ncr_pos
instance rsRd_payload_storable (g : GSem nD τ sig) (r : ℕ) (d : Bool) :
    BI.Storable (upEmb : UEmb _ 𝕄) ((rsRd (F := F) m).payload g r d) := by
  show BI.Storable upEmb (match kindOf g.2 with
    | .bar => if d then barPayX g.1.1 else barPayY g.1.1
    | .sy k => syPay g.1.1 k
    | .ry k => ryPay m g.1.1 k
    | .sx k => sxPay g.1.1 k
    | .rx k => rxPay m g.1.1 k
    | .other => iprop(emp))
  unfold barPayX barPayY syPay ryPay sxPay rxPay pieceAny pieceAt bufAny
  (repeat' split) <;> infer_instance
section Tables
variable (c : Dev nD) (k : Fin 16)
theorem duties_bar : (rsRd (F := F) m).duties (barCell c) 0 = Finset.univ := by simp only [rsRd, kindOf_bar, and_self, if_true]
theorem duties_sy : (rsRd (F := F) m).duties (syCell k c) 0 = {false} := by simp only [rsRd, kindOf_sy, and_self, if_true]
theorem duties_ry : (rsRd (F := F) m).duties (ryCell k c) 0 = {false} := by simp only [rsRd, kindOf_ry, and_self, if_true]
theorem duties_sx : (rsRd (F := F) m).duties (sxCell k c) 0 = {false} := by simp only [rsRd, kindOf_sx, and_self, if_true]
theorem duties_rx : (rsRd (F := F) m).duties (rxCell k c) 0 = {false} := by simp only [rsRd, kindOf_rx, and_self, if_true]
theorem duties_later (g : GSem nD τ sig) : ∀ r, 1 ≤ r → (rsRd (F := F) m).duties g r = ∅ := fun r hr => by
  simp only [rsRd]; rw [if_neg (fun h => by omega)]
theorem amount_bar (r : ℕ) (d : Bool) : (rsRd (F := F) m).amount (barCell c) r d = 1 := by simp only [rsRd, kindOf_bar]
theorem amount_sy (r : ℕ) (d : Bool) : (rsRd (F := F) m).amount (syCell k c) r d = Ncr := by simp only [rsRd, kindOf_sy]
theorem amount_ry (r : ℕ) (d : Bool) : (rsRd (F := F) m).amount (ryCell k c) r d = Ncr := by simp only [rsRd, kindOf_ry]
theorem amount_sx (r : ℕ) (d : Bool) : (rsRd (F := F) m).amount (sxCell k c) r d = Ncr := by simp only [rsRd, kindOf_sx]
theorem amount_rx (r : ℕ) (d : Bool) : (rsRd (F := F) m).amount (rxCell k c) r d = Ncr := by simp only [rsRd, kindOf_rx]
theorem expect_bar : (rsRd (F := F) m).expect (barCell c) 0 = 2 := by
  unfold Schedule.expect Schedule.amountOf
  rw [duties_bar, Finset.sum_congr rfl fun d _ => amount_bar m c 0 d, Finset.sum_const, Finset.card_univ, Fintype.card_bool, smul_eq_mul]
theorem payload_bar_false : (rsRd (F := F) m).payload (barCell c) 0 false = barPayY c := by
  simp only [rsRd, kindOf_bar]; rfl
theorem payload_bar_true : (rsRd (F := F) m).payload (barCell c) 0 true = barPayX c := by
  simp only [rsRd, kindOf_bar]; rfl
theorem payload_sy (d : Bool) : (rsRd (F := F) m).payload (syCell k c) 0 d = syPay c k := by simp only [rsRd, kindOf_sy]
theorem payload_ry (d : Bool) : (rsRd (F := F) m).payload (ryCell k c) 0 d = ryPay m c k := by simp only [rsRd, kindOf_ry]
theorem payload_sx (d : Bool) : (rsRd (F := F) m).payload (sxCell k c) 0 d = sxPay c k := by simp only [rsRd, kindOf_sx]
theorem payload_rx (d : Bool) : (rsRd (F := F) m).payload (rxCell k c) 0 d = rxPay m c k := by simp only [rsRd, kindOf_rx]
theorem rest_bar : bigSep ((rsRd (F := F) m).duties (barCell c) 0 \ ∅) (fun d => (rsRd (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
end Tables
end Cert.Kernel.RS
end
-- ==== Proof.Bits.Inv.lean ====
import proofs.«900302_g7700000000000303_dist_rs_v7x_xy2x2_y_m16384_n1024_bf16_1_alg».proof.Proof.Bits.Sched
noncomputable section
namespace Cert.Kernel.RS
open Cert.Kernel Cert.Kernel.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
def csem (j : Fin 65) : SemLoc sig :=
  if j.val = 0 then .reg barS else .dma ⟨j.val - 1, show j.val - 1 < 72 by omega⟩
abbrev kcell (cj : Dev nD × Fin 65) : GSem nD τ sig := ((cj.1 : Thread nD τ), csem cj.2)
abbrev osem : Fin 72 → SemLoc sig := fun i => .dma ⟨i.val, i.isLt⟩
abbrev jbar : Fin 65 := 0
abbrev jsy (k : Fin 16) : Fin 65 := ⟨1 + k.val, by omega⟩
abbrev jry (k : Fin 16) : Fin 65 := ⟨17 + k.val, by omega⟩
abbrev jsx (k : Fin 16) : Fin 65 := ⟨33 + k.val, by omega⟩
abbrev jrx (k : Fin 16) : Fin 65 := ⟨49 + k.val, by omega⟩
theorem csem_sy (k : Fin 16) : csem (jsy k) = .dma (syS k) := by revert k; decide
theorem csem_ry (k : Fin 16) : csem (jry k) = .dma (ryS k) := by revert k; decide
theorem csem_sx (k : Fin 16) : csem (jsx k) = .dma (sxS k) := by revert k; decide
theorem csem_rx (k : Fin 16) : csem (jrx k) = .dma (rxS k) := by revert k; decide
theorem kcell_sy (c : Dev nD) (k : Fin 16) : kcell (c, jsy k) = syCell k c := congrArg (Prod.mk (c : Thread nD τ)) (csem_sy k)
theorem kcell_ry (c : Dev nD) (k : Fin 16) : kcell (c, jry k) = ryCell k c := congrArg (Prod.mk (c : Thread nD τ)) (csem_ry k)
theorem kcell_sx (c : Dev nD) (k : Fin 16) : kcell (c, jsx k) = sxCell k c := congrArg (Prod.mk (c : Thread nD τ)) (csem_sx k)
theorem kcell_rx (c : Dev nD) (k : Fin 16) : kcell (c, jrx k) = rxCell k c := congrArg (Prod.mk (c : Thread nD τ)) (csem_rx k)
def tal (c : Dev nD) (i : ℕ) : CellTallies nD τ sig Unit :=
  if i = 0 then tallyAt (barCell (ynb c)) () 1
  else if i = 1 then tallyAt (barCell (xnb c)) () 1
  else if h : i < 18 then tallyAt (ryCell ⟨i - 2, by omega⟩ (ynb c)) () Ncr
  else if h : i < 34 then tallyAt (rxCell ⟨i - 18, by omega⟩ (xnb c)) () Ncr
  else 0
-- The payments a device still owes, last first: n of its thirty-four payments are left.
def owedN (c : Dev nD) : ℕ → CellTallies nD τ sig Unit
  | 0 => 0
  | n + 1 => owedN c n + tal c (33 - n)
def O₀ (c : Dev nD) : CellTallies nD τ sig Unit := owedN c 34
theorem owedN_succ (c : Dev nD) (n : ℕ) : owedN c (n + 1) = owedN c n + tal c (33 - n) := rfl
def L (g : GSem nD τ sig) : Finset Unit := if g.1.2 = .tc then {()} else ∅
-- Levels: send and local cells 0, a barrier cell 1, a y-receive cell 2, x-receive cell k at 3 + k.
def lv (g : GSem nD τ sig) (_ : Unit) : ℕ :=
  match kindOf g.2 with
  | .bar => 1
  | .ry _ => 2
  | .rx k => 3 + k.val
  | _ => 0
theorem L_of_ne (g : GSem nD τ sig) (h : g.1.2 ≠ .tc) : L g = ∅ := if_neg h
theorem L_tc (c : Dev nD) (sm : SemLoc sig) : L ((c : Thread nD τ), sm) = {()} := if_pos rfl
def lvTal (i : ℕ) : ℕ := if i < 2 then 1 else if i < 18 then 2 else 3 + (i - 18)
variable (m : Mem F)
def invs (K : Dev nD × Fin 65 → ℕ) (c : Dev nD) : sProp 𝕄 :=
  iprop((bigSep Finset.univ fun j : Fin 65 => cellInv ER (rsRd m) (K (c, j)) (kcell (c, j)))
    ∗ cellInv ER (rsRd m) (K (ynb c, jbar)) (barCell (ynb c)) ∗ cellInv ER (rsRd m) (K (xnb c, jbar)) (barCell (xnb c))
    ∗ (bigSep Finset.univ fun k : Fin 16 => cellInv ER (rsRd m) (K (ynb c, jry k)) (ryCell k (ynb c)))
    ∗ (bigSep Finset.univ fun k : Fin 16 => cellInv ER (rsRd m) (K (xnb c, jrx k)) (rxCell k (xnb c))))
instance invs_persistent (K : Dev nD × Fin 65 → ℕ) (c : Dev nD) : BI.Persistent (invs m K c) := by unfold invs; infer_instance
def payToks (c : Dev nD) : sProp 𝕄 :=
  iprop(dutyTok ER (barCell (ynb c)) 0 false ∗ dutyTok ER (barCell (xnb c)) 0 true
    ∗ (bigSep Finset.univ fun k : Fin 16 => dutyTok ER (ryCell k (ynb c)) 0 false)
    ∗ (bigSep Finset.univ fun k : Fin 16 => dutyTok ER (rxCell k (xnb c)) 0 false)
    ∗ (bigSep Finset.univ fun k : Fin 16 => dutyTok ER (syCell k c) 0 false)
    ∗ (bigSep Finset.univ fun k : Fin 16 => dutyTok ER (sxCell k c) 0 false))
def ghost (K : Dev nD × Fin 65 → ℕ) (c : Dev nD) : sProp 𝕄 :=
  iprop(invs m K c
    ∗ (bigSep Finset.univ fun j : Fin 65 => atPos ER (kcell (c, j)) 0 ∅ 0)
    ∗ (bigSep Finset.univ fun j : Fin 65 => reached ER (kcell (c, j)) 0)
    ∗ reached ER (barCell (ynb c)) 0 ∗ reached ER (barCell (xnb c)) 0
    ∗ payToks c
    ∗ (bigSep Finset.univ fun s : Fin 4 => semVal ((c : Thread nD τ), SemLoc.dma (ldS s)) 0)
    ∗ (bigSep Finset.univ fun s : Fin 4 => semVal ((c : Thread nD τ), SemLoc.dma (stS s)) 0))
def creds (c : Dev nD) : sProp 𝕄 :=
  iprop(cred (tallyAt (barCell c) () 2)
    ∗ (bigSep Finset.univ fun k : Fin 16 => cred (tallyAt (ryCell k c) () Ncr))
    ∗ (bigSep Finset.univ fun k : Fin 16 => cred (tallyAt (rxCell k c) () Ncr)))
def start (c : Dev nD) : sProp 𝕄 := iprop((∃ K, ghost m K c) ∗ creds c ∗ levAts L lv)
def hbm0 (c : Dev nD) : sProp 𝕄 :=
  iprop((((c : Thread nD τ).loc main_arg0) ↦{fullShare} slab m c) ∗ bufAny main_v1 c)
def hbm1 (c : Dev nD) : sProp 𝕄 :=
  iprop((((c : Thread nD τ).loc main_arg0) ↦{fullShare} slab m c)
    ∗ ∃ o : Buf (Elt F) (((c : Dev nD) : Thread nD τ).loc main_v1), ⌜OutOK m c o⌝ ∗ (((c : Thread nD τ).loc main_v1) ↦{fullShare} o))
def scratch (c : Dev nD) : sProp 𝕄 :=
  iprop(bufAny cc0_scratch0 c ∗ bufAny cc0_scratch1 c ∗ bufAny cc0_scratch2 c ∗ bufAny cc0_scratch3 c ∗ bufAny cc0_scratch4 c)
def Φ₀ (c : Dev nD) : sProp 𝕄 := iprop(start m c ∗ hbm0 m c ∗ scratch c)
def Φ₁ (c : Dev nD) : sProp 𝕄 :=
  iprop(hbm1 m c ∗ scratch c ∗ bigSep Finset.univ fun i : Fin 72 => semVal ((c : Thread nD τ), osem i) 0)
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0
def BodyStmt (c : Dev nD) : Prop :=
  ∀ (W : Waits sig Unit),
    iprop(Φ₀ m c ∗ owes (c : Thread nD τ) (O₀ c) W)
      ⊢ wp frame (wpE (defs₀ (F := F)) 𝒱₀ (c : Thread nD τ) none) Set.univ (bodyAt0 (F := F) Gen.t0_0)
          (fun _ => iprop(Φ₁ m c ∗ ∃ W', owes (c : Thread nD τ) 0 W'))
end Cert.Kernel.RS
end
-- ==== Proof.Bits.Levels.lean ====
import proofs.«900302_g7700000000000303_dist_rs_v7x_xy2x2_y_m16384_n1024_bf16_1_alg».proof.Proof.Bits.Inv
noncomputable section
namespace Cert.Kernel.RS
open Idealize.ShloMosaic
open Idealize.ShloMosaic.TcCoe
open Idealize.SL Idealize.SL.RA Idealize.SL.BI
open Idealize.SL.BI.BIBase Idealize.SL.BI.Laws Idealize.SL.ProofMode Idealize.SL.Sem
variable {F : FTy → Type} [FloatOps F]
local notation "𝕄" => MT nD τ sig Unit (Elt F) ℕ UU ℕ
theorem owedN_pos (c : Dev nD) (n : ℕ) {g : GSem nD τ sig} {u : Unit} (h : 0 < owedN c n g u) :
    ∃ i, 34 - n ≤ i ∧ i < 34 ∧ 0 < tal c i g u := by
  induction n with
  | zero => exact absurd h (Nat.lt_irrefl 0)
  | succ n ih =>
    rcases Pipeline.add_pos_cases (show 0 < (owedN c n + tal c (33 - n)) g u from h) with h1 | h2
    · obtain ⟨i, hi1, hi2, hi3⟩ := ih h1
      exact ⟨i, by omega, hi2, hi3⟩
    · exact ⟨33 - n, by omega, by omega, h2⟩
theorem tal_pos (c : Dev nD) (i : ℕ) {g : GSem nD τ sig} {u : Unit} (h : 0 < tal c i g u) :
    u ∈ L g ∧ lv g u = lvTal i := by
  have key : ∀ (nb : Dev nD) (s : SemLoc sig) (N : ℕ), 0 < tallyAt ((nb : Thread nD τ), s) () N g u →
      lv ((nb : Thread nD τ), s) () = lvTal i → u ∈ L g ∧ lv g u = lvTal i := fun nb s N h hl => by
    obtain ⟨rfl, rfl⟩ := Pipeline.tallyAt_pos h
    exact ⟨by rw [L_tc]; exact Finset.mem_singleton_self _, hl⟩
  unfold tal at h
  split_ifs at h with h0 h1 h2 h3
  · exact key _ _ _ h (by subst h0; simp only [lv, kindOf_bar]; rfl)
  · exact key _ _ _ h (by subst h1; simp only [lv, kindOf_bar]; rfl)
  · exact key _ _ _ h (by simp only [lv, kindOf_ry]; unfold lvTal; rw [if_neg (by omega), if_pos h2])
  · exact key _ _ _ h (by simp only [lv, kindOf_rx]; unfold lvTal; rw [if_neg (by omega), if_neg h2])
  · exact absurd h (Nat.lt_irrefl 0)
-- A wait is allowed on a cell whose level is below the level of every payment still owed.
theorem mayWait_owedN (c : Dev nD) (s : SemLoc sig) (n : ℕ) (hn : n ≤ 34)
    (h : ∀ i, 34 - n ≤ i → i < 34 → lv ((c : Thread nD τ), s) () < lvTal i) :
    (levAts L lv : sProp 𝕄) ⊢ MayWait (c : Thread nD τ) s () (owedN c n) := by
  refine Pipeline.mayWait_of_levAts (by rw [L_tc]; exact Finset.mem_singleton_self _) fun g u hg => ?_
  obtain ⟨i, hi1, hi2, hi3⟩ := owedN_pos c n hg
  obtain ⟨hL, hlv⟩ := tal_pos c i hi3
  exact ⟨hL, by rw [hlv]; exact h i hi1 hi2⟩
theorem owedN_eq_sum (c : Dev nD) (n : ℕ) : owedN c n = ∑ i ∈ Finset.range n, tal c (33 - i) := by
  induction n with
  | zero => rfl
  | succ n ih => rw [owedN_succ, ih, Finset.sum_range_succ]
theorem sum_range_rev {M : Type} [AddCommMonoid M] (f : ℕ → M) (n : ℕ) :
    ∑ i ∈ Finset.range n, f (n - 1 - i) = ∑ i ∈ Finset.range n, f i := by
  induction n with
  | zero => rfl
  | succ n ih =>
    rw [Finset.sum_range_succ', Finset.sum_range_succ, ← ih]
    congr 1
    exact Finset.sum_congr rfl fun i _ => congrArg f (by omega)
theorem tal_ry (c : Dev nD) (k : Fin 16) : tal c (2 + k.val) = tallyAt (ryCell k (ynb c)) () Ncr := by
  unfold tal
  rw [if_neg (by omega), if_neg (by omega), dif_pos (show 2 + k.val < 18 by omega)]
  simp only [Nat.add_sub_cancel_left, Fin.eta]
theorem tal_rx (c : Dev nD) (k : Fin 16) : tal c (18 + k.val) = tallyAt (rxCell k (xnb c)) () Ncr := by
  unfold tal
  rw [if_neg (by omega), if_neg (by omega), dif_neg (show ¬ 18 + k.val < 18 by omega), dif_pos (show 18 + k.val < 34 by omega)]
  simp only [Nat.add_sub_cancel_left, Fin.eta]
theorem O₀_eq (c : Dev nD) : O₀ c = ((tallyAt (barCell (ynb c)) () 1 + tallyAt (barCell (xnb c)) () 1)
      + ∑ k : Fin 16, tallyAt (ryCell k (ynb c)) () Ncr) + ∑ k : Fin 16, tallyAt (rxCell k (xnb c)) () Ncr := by
  unfold O₀
  rw [owedN_eq_sum]
  have e0 : ∑ i ∈ Finset.range 34, tal c (33 - i) = ∑ i ∈ Finset.range 34, tal c i := sum_range_rev (fun i => tal c i) 34
  have e1 : ∑ i ∈ Finset.range 34, tal c i = ∑ i ∈ Finset.range 18, tal c i + ∑ i ∈ Finset.range 16, tal c (18 + i) :=
    Finset.sum_range_add (fun i => tal c i) 18 16
  have e2 : ∑ i ∈ Finset.range 18, tal c i = ∑ i ∈ Finset.range 2, tal c i + ∑ i ∈ Finset.range 16, tal c (2 + i) :=
    Finset.sum_range_add (fun i => tal c i) 2 16
  have e3 : ∑ i ∈ Finset.range 2, tal c i = tal c 0 + tal c 1 := by
    rw [Finset.sum_range_succ, Finset.sum_range_one]
  rw [e0, e1, e2, e3, Finset.sum_range, Finset.sum_range,
    Finset.sum_congr rfl fun k _ => tal_ry c k, Finset.sum_congr rfl fun k _ => tal_rx c k]
  rfl
theorem creds_of_launch (c : Dev nD) : (Pipeline.launchCred O₀ c : sProp 𝕄) ⊢ creds c := by
  have hO : (O₀ : Dev nD → CellTallies nD τ sig Unit)
      = fun d => ((tallyAt (barCell (ynb d)) () 1 + tallyAt (barCell (xnb d)) () 1)
          + ∑ k : Fin 16, tallyAt (ryCell k (ynb d)) () Ncr) + ∑ k : Fin 16, tallyAt (rxCell k (xnb d)) () Ncr := funext O₀_eq
  rw [hO, Pipeline.launchCred_add, Pipeline.launchCred_add, Pipeline.launchCred_add, Pipeline.launchCred_sum, Pipeline.launchCred_sum]
  unfold creds
  have hbar : (tallyAt (barCell c) () 2 : CellTallies nD τ sig Unit) = tallyAt (barCell c) () 1 + tallyAt (barCell c) () 1 :=
    (tallyAt_add _ _ 1 1).symm
  rw [hbar]
  have hR : (bigSep Finset.univ fun k : Fin 16 => Pipeline.launchCred (fun d => tallyAt (ryCell k (ynb d)) () Ncr) c : sProp 𝕄)
      ⊢ bigSep Finset.univ fun k : Fin 16 => cred (tallyAt (ryCell k c) () Ncr) :=
    bigSep_mono fun k _ => Pipeline.launchCred_tallyAt (.dma (ryS k)) ynb ynb ynb_ynb ynb_ynb () Ncr c
  have hX : (bigSep Finset.univ fun k : Fin 16 => Pipeline.launchCred (fun d => tallyAt (rxCell k (xnb d)) () Ncr) c : sProp 𝕄)
      ⊢ bigSep Finset.univ fun k : Fin 16 => cred (tallyAt (rxCell k c) () Ncr) :=
    bigSep_mono fun k _ => Pipeline.launchCred_tallyAt (.dma (rxS k)) xnb xnb xnb_xnb xnb_xnb () Ncr c
  iintro ⟨⟨⟨HA, HB⟩, HR⟩, HX⟩
  isplitl [HA HB]
  · iapply (cred_add _ _).2
    isplitl [HA]
    · iapply (Pipeline.launchCred_tallyAt (.reg barS) ynb ynb ynb_ynb ynb_ynb () 1 c); iexact HA
    · iapply (Pipeline.launchCred_tallyAt (.reg barS) xnb xnb xnb_xnb xnb_xnb () 1 c); iexact HB
  isplitl [HR]
  · iapply hR; iexact HR
  · iapply hX; iexact HX
end Cert.Kernel.RS
end
-- ==== Proof.Bits.Fam.lean ====
import proofs.«900302_g7700000000000303_dist_rs_v7x_xy2x2_y_m16384_n1024_bf16_1_alg».proof.Proof.Bits.Inv
noncomputable section
namespace Cert.Kernel.RS
open Idealize.ShloMosaic
open Idealize.ShloMosaic.TcCoe
open Idealize.SL Idealize.SL.RA Idealize.SL.BI
open Idealize.SL.BI.BIBase Idealize.SL.BI.Laws Idealize.SL.ProofMode Idealize.SL.Sem
variable {F : FTy → Type} [FloatOps F]
local notation "𝕄" => MT nD τ sig Unit (Elt F) ℕ UU ℕ
variable (m : Mem F) (c : Dev nD)
theorem fam_add (a b : ℕ) (Φ : Fin (a + b) → sProp 𝕄) :
    bigSep Finset.univ Φ
      = iprop((bigSep Finset.univ fun i : Fin a => Φ (Fin.castAdd b i)) ∗ (bigSep Finset.univ fun j : Fin b => Φ (Fin.natAdd a j))) := by
  rw [bigSep_univ_equiv finSumFinEquiv Φ, bigSep_univ_sum]
  rfl
-- A family over a device's sixty-five cells splits into the barrier cell and four families of sixteen.
theorem fam_roles (Φ : GSem nD τ sig → sProp 𝕄) :
    (bigSep Finset.univ fun j : Fin 65 => Φ (kcell (c, j)))
      = iprop(Φ (barCell c) ∗ (bigSep Finset.univ fun k : Fin 16 => Φ (syCell k c)) ∗ (bigSep Finset.univ fun k : Fin 16 => Φ (ryCell k c))
          ∗ (bigSep Finset.univ fun k : Fin 16 => Φ (sxCell k c)) ∗ (bigSep Finset.univ fun k : Fin 16 => Φ (rxCell k c))) := by
  have h1 := fam_add (F := F) 1 64 (fun j => Φ (kcell (c, j)))
  have h2 := fam_add (F := F) 16 48 (fun j => Φ (kcell (c, Fin.natAdd 1 j)))
  have h3 := fam_add (F := F) 16 32 (fun j => Φ (kcell (c, Fin.natAdd 1 (Fin.natAdd 16 j))))
  have h4 := fam_add (F := F) 16 16 (fun j => Φ (kcell (c, Fin.natAdd 1 (Fin.natAdd 16 (Fin.natAdd 16 j)))))
  have ebar : (bigSep Finset.univ fun i : Fin 1 => Φ (kcell (c, (Fin.castAdd 64 i : Fin 65)))) = Φ (barCell c) :=
    bigSep_univ_of_subsingleton (0 : Fin 1)
  have e (j : Fin 16 → Fin 65) (s : Fin 16 → DmaSem sig) (h : ∀ k, csem (j k) = .dma (s k)) :
      (bigSep Finset.univ fun k : Fin 16 => Φ (kcell (c, j k))) = bigSep Finset.univ fun k : Fin 16 => Φ ((c : Thread nD τ), .dma (s k)) :=
    bigSep_congr fun k _ => congrArg (fun x => Φ ((c : Thread nD τ), x)) (h k)
  exact h1.trans (congrArg₂ BI.sep ebar (h2.trans (congrArg₂ BI.sep (e _ syS (by decide)) (h3.trans (congrArg₂ BI.sep (e _ ryS (by decide))
    (h4.trans (congrArg₂ BI.sep (e _ sxS (by decide)) (e _ rxS (by decide)))))))))
theorem osem_of_val (i : Fin 72) (q : DmaSem sig) (h : i.val = q.val) : osem i = .dma q := congrArg SemLoc.dma (Fin.ext h)
theorem sems72 :
    (bigSep Finset.univ fun i : Fin 72 => semVal ((c : Thread nD τ), osem i) 0 : sProp 𝕄)
      = iprop((bigSep Finset.univ fun k : Fin 16 => semVal (syCell k c) 0) ∗ (bigSep Finset.univ fun k : Fin 16 => semVal (ryCell k c) 0)
        ∗ (bigSep Finset.univ fun k : Fin 16 => semVal (sxCell k c) 0) ∗ (bigSep Finset.univ fun k : Fin 16 => semVal (rxCell k c) 0)
        ∗ (bigSep Finset.univ fun s : Fin 4 => semVal ((c : Thread nD τ), SemLoc.dma (ldS s)) 0)
        ∗ (bigSep Finset.univ fun s : Fin 4 => semVal ((c : Thread nD τ), SemLoc.dma (stS s)) 0)) := by
  let Z : SemLoc sig → sProp 𝕄 := fun s => semVal ((c : Thread nD τ), s) 0
  have h1 := fam_add (F := F) 16 56 (fun i => Z (osem i))
  have h2 := fam_add (F := F) 16 40 (fun i => Z (osem (Fin.natAdd 16 i)))
  have h3 := fam_add (F := F) 16 24 (fun i => Z (osem (Fin.natAdd 16 (Fin.natAdd 16 i))))
  have h4 := fam_add (F := F) 16 8 (fun i => Z (osem (Fin.natAdd 16 (Fin.natAdd 16 (Fin.natAdd 16 i)))))
  have h5 := fam_add (F := F) 4 4 (fun i => Z (osem (Fin.natAdd 16 (Fin.natAdd 16 (Fin.natAdd 16 (Fin.natAdd 16 i))))))
  have esy : (bigSep Finset.univ fun k : Fin 16 => Z (osem (Fin.castAdd 56 k))) = bigSep Finset.univ fun k : Fin 16 => semVal (syCell k c) 0 :=
    bigSep_congr fun k _ => congrArg Z (osem_of_val _ (syS k) rfl)
  have ery : (bigSep Finset.univ fun k : Fin 16 => Z (osem (Fin.natAdd 16 (Fin.castAdd 40 k)))) = bigSep Finset.univ fun k : Fin 16 => semVal (ryCell k c) 0 :=
    bigSep_congr fun k _ => congrArg Z (osem_of_val _ (ryS k) rfl)
  have esx : (bigSep Finset.univ fun k : Fin 16 => Z (osem (Fin.natAdd 16 (Fin.natAdd 16 (Fin.castAdd 24 k)))))
      = bigSep Finset.univ fun k : Fin 16 => semVal (sxCell k c) 0 :=
    bigSep_congr fun k _ => congrArg Z (osem_of_val _ (sxS k) (by show 16 + (16 + k.val) = 32 + k.val; omega))
  have erx : (bigSep Finset.univ fun k : Fin 16 => Z (osem (Fin.natAdd 16 (Fin.natAdd 16 (Fin.natAdd 16 (Fin.castAdd 8 k))))))
      = bigSep Finset.univ fun k : Fin 16 => semVal (rxCell k c) 0 :=
    bigSep_congr fun k _ => congrArg Z (osem_of_val _ (rxS k) (by show 16 + (16 + (16 + k.val)) = 48 + k.val; omega))
  have eld : (bigSep Finset.univ fun s : Fin 4 => Z (osem (Fin.natAdd 16 (Fin.natAdd 16 (Fin.natAdd 16 (Fin.natAdd 16 (Fin.castAdd 4 s)))))))
      = bigSep Finset.univ fun s : Fin 4 => semVal ((c : Thread nD τ), SemLoc.dma (ldS s)) 0 :=
    bigSep_congr fun s _ => congrArg Z (osem_of_val _ (ldS s) (by show 16 + (16 + (16 + (16 + s.val))) = 64 + s.val; omega))
  have est : (bigSep Finset.univ fun s : Fin 4 => Z (osem (Fin.natAdd 16 (Fin.natAdd 16 (Fin.natAdd 16 (Fin.natAdd 16 (Fin.natAdd 4 s)))))))
      = bigSep Finset.univ fun s : Fin 4 => semVal ((c : Thread nD τ), SemLoc.dma (stS s)) 0 :=
    bigSep_congr fun s _ => congrArg Z (osem_of_val _ (stS s) (by show 16 + (16 + (16 + (16 + (4 + s.val)))) = 68 + s.val; omega))
  exact h1.trans (congrArg₂ BI.sep esy (h2.trans (congrArg₂ BI.sep ery (h3.trans (congrArg₂ BI.sep esx (h4.trans (congrArg₂ BI.sep erx
      (h5.trans (congrArg₂ BI.sep eld est)))))))))
theorem fam16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
theorem fam4 (Φ : Fin 4 → sProp 𝕄) : bigSep Finset.univ Φ = iprop(Φ 0 ∗ Φ 1 ∗ Φ 2 ∗ Φ 3) :=
  bigSep_univ_eq_bigSepL [0, 1, 2, 3] (by decide) (by decide) Φ
end Cert.Kernel.RS
end
-- ==== Proof.Bits.Alloc.lean ====
import proofs.«900302_g7700000000000303_dist_rs_v7x_xy2x2_y_m16384_n1024_bf16_1_alg».proof.Proof.Bits.Fam
noncomputable section
namespace Cert.Kernel.RS
open Cert.Kernel Cert.Kernel.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : Mem F)
theorem csem_injective : Function.Injective (csem : Fin 65 → SemLoc sig) := by decide
theorem kcell_injective : Function.Injective (kcell : Dev nD × Fin 65 → GSem nD τ sig) := by
  rintro ⟨c, j⟩ ⟨c', j'⟩ h
  have h1 : c = c' := by have := congrArg (fun g : GSem nD τ sig => g.1.1) h; exact this
  subst h1
  have h2 : csem j = csem j' := congrArg Prod.snd h
  rw [csem_injective h2]
def ringCells : Finset (GSem nD τ sig) := Finset.univ.map ⟨kcell, kcell_injective⟩
abbrev tokOf (cj : Dev nD × Fin 66) : GSem nD τ sig × ℕ × Bool :=
  if h : cj.2.val < 65 then (kcell (cj.1, ⟨cj.2.val, h⟩), 0, false) else (barCell cj.1, 0, true)
theorem tokOf_injective : Function.Injective (tokOf : Dev nD × Fin 66 → GSem nD τ sig × ℕ × Bool) := by
  rintro ⟨c, j⟩ ⟨c', j'⟩ h
  have h1 : c = c' := by
    have := congrArg (fun x : GSem nD τ sig × ℕ × Bool => x.1.1.1) h
    simp only [tokOf] at this
    split_ifs at this <;> exact this
  subst h1
  have h2 : j = j' := by
    simp only [tokOf] at h
    split_ifs at h with ha hb hb
    · have h3 := kcell_injective (congrArg Prod.fst h)
      exact Fin.ext (congrArg (fun x : Dev nD × Fin 65 => x.2.val) h3)
    · have h3 : false = true := congrArg (fun x : GSem nD τ sig × ℕ × Bool => x.2.2) h
      cases h3
    · have h3 : true = false := congrArg (fun x : GSem nD τ sig × ℕ × Bool => x.2.2) h
      cases h3
    · exact Fin.ext (by omega)
  rw [h2]
def ringToks : Finset (GSem nD τ sig × ℕ × Bool) := Finset.univ.map ⟨tokOf, tokOf_injective⟩
def u₀ : UU :=
  (initOf (Pipeline.cells cfgs cellOf_inj) (Pipeline.launchToks cfgs cellOf_inj), (initOf ringCells ringToks, 1))
def G (c : Dev nD) : sProp 𝕄 :=
  iprop((bigSep Finset.univ fun j : Fin 65 => roundState ER (rsRd m) (kcell (c, j)) 0)
    ∗ (bigSep Finset.univ fun j : Fin 65 => iprop(atPos ER (kcell (c, j)) 0 ∅ 0 ∗ reached ER (kcell (c, j)) 0))
    ∗ (bigSep Finset.univ fun j : Fin 66 => dutyTok ER (tokOf (c, j)).1 (tokOf (c, j)).2.1 (tokOf (c, j)).2.2))
def G' (c : Dev nD) : sProp 𝕄 := iprop(∃ K, ghost m K c)
theorem ER_apply (b : UB) :
    (ER : Emb UB 𝕄) b = ((Emb.inl : Emb UB (UB × Counters)).trans (embR : Emb (UB × Counters) 𝕄)) b := rfl
theorem fund_ring : BI.own ((ER : Emb UB 𝕄) (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun j : Fin 65 => Φ (kcell (c, j)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun j : Fin 66 =>
          (dutyTok ER (tokOf (c, j)).1 (tokOf (c, j)).2.1 (tokOf (c, j)).2.2 : sProp 𝕄) := by
    unfold ringToks; rw [bigSep_map, bigSep_univ_prod]; rfl
  iintro HX
  imod (Rounds.fund ER (rsRd m) ringCells ringToks) $$ HX with ⟨Hst, Hr, Hat, Htok⟩
  imodintro
  ihave Hst' := (Entails.of_eq (hX fun g => roundState ER (rsRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'
theorem hu0 : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb (embR : Emb (UB × Counters) 𝕄) (initOf ringCells ringToks) (1 : Counters)) $$ HX
  icases H2 with ⟨HR, -⟩
  rw [← ER_apply]
  imod (fund_ring m) $$ HR with HG
  imodintro
  isplitl [HP] <;> iassumption
theorem unscopedSems0_eq (c : Dev nD) : (unscopedSems0 c : sProp 𝕄) = semVal (barCell c) 0 := by
  unfold unscopedSems0; rw [bigSep_eq_bigSepL_of_eq [SemLoc.reg barS] (by decide) (by decide)]; rfl
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun j : Fin 65 => semVal (kcell (c, j)) 0)
          ∗ (bigSep Finset.univ fun s : Fin 4 => semVal ((c : Thread nD τ), SemLoc.dma (ldS s)) 0)
          ∗ (bigSep Finset.univ fun s : Fin 4 => semVal ((c : Thread nD τ), SemLoc.dma (stS s)) 0)) : sProp 𝕄) := by
  show iprop((bigSep Finset.univ fun i : Fin 72 => semVal ((c : Thread nD τ), osem i) 0) ∗ unscopedSems0 c) ⊢ _
  rw [sems72 c, unscopedSems0_eq, fam_roles c (fun g => (semVal g 0 : sProp 𝕄))]
  iintro ⟨⟨Hsy, Hry, Hsx, Hrx, Hld, Hst⟩, HB⟩
  isplitl [HB Hsy Hry Hsx Hrx]
  · isplitl [HB]; · iexact HB
    isplitl [Hsy]; · iexact Hsy
    isplitl [Hry]; · iexact Hry
    isplitl [Hsx] <;> iassumption
  isplitl [Hld] <;> iassumption
def toks (c : Dev nD) : sProp 𝕄 :=
  iprop((dutyTok ER (barCell c) 0 false
      ∗ (bigSep Finset.univ fun k : Fin 16 => dutyTok ER (syCell k c) 0 false)
      ∗ (bigSep Finset.univ fun k : Fin 16 => dutyTok ER (ryCell k c) 0 false)
      ∗ (bigSep Finset.univ fun k : Fin 16 => dutyTok ER (sxCell k c) 0 false)
      ∗ (bigSep Finset.univ fun k : Fin 16 => dutyTok ER (rxCell k c) 0 false))
    ∗ dutyTok ER (barCell c) 0 true)
theorem tokOf_lt (c : Dev nD) (i : Fin 65) : tokOf (c, Fin.castAdd 1 i) = (kcell (c, i), 0, false) := dif_pos i.isLt
theorem tokOf_last (c : Dev nD) : tokOf (c, Fin.natAdd 65 (0 : Fin 1)) = (barCell c, 0, true) :=
  dif_neg (show ¬ (Fin.natAdd 65 (0 : Fin 1)).val < 65 by decide)
theorem toks_eq (c : Dev nD) :
    (bigSep Finset.univ fun j : Fin 66 => (dutyTok ER (tokOf (c, j)).1 (tokOf (c, j)).2.1 (tokOf (c, j)).2.2 : sProp 𝕄)) = toks c := by
  refine (fam_add 65 1 (fun j : Fin 66 => (dutyTok ER (tokOf (c, j)).1 (tokOf (c, j)).2.1 (tokOf (c, j)).2.2 : sProp 𝕄))).trans ?_
  refine congrArg₂ (fun X Y : sProp 𝕄 => iprop(X ∗ Y)) ?_ ?_
  · refine (bigSep_congr (Ψ := fun i : Fin 65 => (dutyTok ER (kcell (c, i)) 0 false : sProp 𝕄)) fun i _ => by rw [tokOf_lt]).trans ?_
    exact fam_roles c (fun g => (dutyTok ER g 0 false : sProp 𝕄))
  · refine (bigSep_univ_of_subsingleton (0 : Fin 1)).trans ?_
    show (dutyTok ER (tokOf (c, Fin.natAdd 65 (0 : Fin 1))).1 (tokOf (c, Fin.natAdd 65 (0 : Fin 1))).2.1 (tokOf (c, Fin.natAdd 65 (0 : Fin 1))).2.2 : sProp 𝕄) = _
    rw [tokOf_last]
def mid (c : Dev nD) : sProp 𝕄 :=
  iprop((bigSep Finset.univ fun j : Fin 65 => iprop(∃ κ : ℕ, cellInv ER (rsRd m) κ (kcell (c, j))))
    ∗ (bigSep Finset.univ fun j : Fin 65 => iprop(atPos ER (kcell (c, j)) 0 ∅ 0 ∗ reached ER (kcell (c, j)) 0))
    ∗ toks c
    ∗ (bigSep Finset.univ fun s : Fin 4 => semVal ((c : Thread nD τ), SemLoc.dma (ldS s)) 0)
    ∗ (bigSep Finset.univ fun s : Fin 4 => semVal ((c : Thread nD τ), SemLoc.dma (stS s)) 0))
theorem core_alloc (c : Dev nD) :
    iprop(Pipeline.ownSems0 (Ix := Unit) (Name := ℕ) (U := UU) (Lvl := ℕ) (Val := Elt F) (τ := τ) osem c ∗ unscopedSems0 c ∗ G m c) ⊢ |={Set.univ}=> mid m c := by
  unfold G mid
  iintro ⟨Hos, Hus, Hst, Hat, Htok⟩
  ihave Hv := (sems0_eq (F := F) c) $$ [Hos Hus]
  · isplitl [Hos] <;> iassumption
  icases Hv with ⟨Hv, Hld, Hsto⟩
  imod (show iprop((bigSep Finset.univ fun j : Fin 65 => semVal (kcell (c, j)) 0) ∗ bigSep Finset.univ fun j : Fin 65 => roundState ER (rsRd m) (kcell (c, j)) 0)
      ⊢ (|={Set.univ}=> bigSep Finset.univ fun j : Fin 65 => iprop(∃ κ : ℕ, cellInv ER (rsRd m) κ (kcell (c, j))) : sProp 𝕄) from by
        rw [← bigSep_sep']
        exact (bigSep_mono fun j _ => (Rounds.body_intro ER (rsRd m) (kcell (c, j))).trans inv_alloc).trans (bigSep_fupd _ _)) $$ [Hv Hst] with Hinv
  · isplitl [Hv] <;> iassumption
  imodintro
  ihave Htok' := (Entails.of_eq (toks_eq (F := F) c)) $$ Htok
  isplitl [Hinv]; · iexact Hinv
  isplitl [Hat]; · iexact Hat
  isplitl [Htok']; · iexact Htok'
  isplitl [Hld]; · iexact Hld
  iexact Hsto
def records (K : Dev nD × Fin 65 → ℕ) : sProp 𝕄 :=
  iprop((bigSep Finset.univ fun cj : Dev nD × Fin 65 => cellInv ER (rsRd m) (K cj) (kcell cj))
    ∗ bigSep Finset.univ fun cj : Dev nD × Fin 65 => reached ER (kcell cj) 0)
instance records_persistent (K : Dev nD × Fin 65 → ℕ) : BI.Persistent (records m K) := by unfold records; infer_instance
theorem inv_at (K : Dev nD × Fin 65 → ℕ) (cj : Dev nD × Fin 65) :
    (bigSep Finset.univ fun cj : Dev nD × Fin 65 => (cellInv ER (rsRd m) (K cj) (kcell cj) : sProp 𝕄)) ⊢ cellInv ER (rsRd m) (K cj) (kcell cj) :=
  bigSep_elim (Finset.mem_univ cj)
theorem reached_at (cj : Dev nD × Fin 65) :
    (bigSep Finset.univ fun cj : Dev nD × Fin 65 => (reached ER (kcell cj) 0 : sProp 𝕄)) ⊢ reached ER (kcell cj) 0 :=
  bigSep_elim (Finset.mem_univ cj)
theorem inv_ry (K : Dev nD × Fin 65 → ℕ) (c : Dev nD) (k : Fin 16) :
    (bigSep Finset.univ fun cj : Dev nD × Fin 65 => (cellInv ER (rsRd m) (K cj) (kcell cj) : sProp 𝕄)) ⊢ cellInv ER (rsRd m) (K (c, jry k)) (ryCell k c) :=
  (inv_at m K (c, jry k)).trans (Entails.of_eq (congrArg (fun g => (cellInv ER (rsRd m) (K (c, jry k)) g : sProp 𝕄)) (kcell_ry c k)))
theorem inv_rx (K : Dev nD × Fin 65 → ℕ) (c : Dev nD) (k : Fin 16) :
    (bigSep Finset.univ fun cj : Dev nD × Fin 65 => (cellInv ER (rsRd m) (K cj) (kcell cj) : sProp 𝕄)) ⊢ cellInv ER (rsRd m) (K (c, jrx k)) (rxCell k c) :=
  (inv_at m K (c, jrx k)).trans (Entails.of_eq (congrArg (fun g => (cellInv ER (rsRd m) (K (c, jrx k)) g : sProp 𝕄)) (kcell_rx c k)))
def linear (c : Dev nD) : sProp 𝕄 :=
  iprop((bigSep Finset.univ fun j : Fin 65 => atPos ER (kcell (c, j)) 0 ∅ 0)
    ∗ payToks c
    ∗ (bigSep Finset.univ fun s : Fin 4 => semVal ((c : Thread nD τ), SemLoc.dma (ldS s)) 0)
    ∗ (bigSep Finset.univ fun s : Fin 4 => semVal ((c : Thread nD τ), SemLoc.dma (stS s)) 0))
theorem ghost_intro (K : Dev nD × Fin 65 → ℕ) (c : Dev nD) : iprop(records m K ∗ linear c) ⊢ G' m c := by
  unfold records linear G' ghost invs
  iintro ⟨⟨#HI, #HR⟩, Hat, Htok, Hld, Hst⟩
  iexists K
  isplitr
  · isplitr
    · iapply (bigSep_intro_persistent (S := Finset.univ) fun (j : Fin 65) _ => inv_at m K (c, j)); iexact HI
    isplitr; · iapply (inv_at m K (ynb c, jbar)); iexact HI
    isplitr; · iapply (inv_at m K (xnb c, jbar)); iexact HI
    isplitr
    · iapply (bigSep_intro_persistent (S := Finset.univ) fun (k : Fin 16) _ => inv_ry m K (ynb c) k); iexact HI
    · iapply (bigSep_intro_persistent (S := Finset.univ) fun (k : Fin 16) _ => inv_rx m K (xnb c) k); iexact HI
  isplitl [Hat]; · iexact Hat
  isplitr
  · iapply (bigSep_intro_persistent (S := Finset.univ) fun (j : Fin 65) _ => reached_at (F := F) (c, j)); iexact HR
  isplitr; · iapply (reached_at (F := F) (ynb c, jbar)); iexact HR
  isplitr; · iapply (reached_at (F := F) (xnb c, jbar)); iexact HR
  isplitl [Htok]; · iexact Htok
  isplitl [Hld]; · iexact Hld
  iexact Hst
-- Each duty token is dealt to the neighbour that pays with it; both neighbour maps are bijections.
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv ynbE (fun c : Dev nD => (dutyTok ER (barCell c) 0 false : sProp 𝕄)),
    bigSep_univ_equiv xnbE (fun c : Dev nD => (dutyTok ER (barCell c) 0 true : sProp 𝕄)),
    bigSep_univ_equiv ynbE (fun c : Dev nD => (bigSep Finset.univ fun k : Fin 16 => dutyTok ER (ryCell k c) 0 false : sProp 𝕄)),
    bigSep_univ_equiv xnbE (fun c : Dev nD => (bigSep Finset.univ fun k : Fin 16 => dutyTok ER (rxCell k c) 0 false : sProp 𝕄))]
  iintro ⟨⟨HbF, Hsy, Hry, Hsx, Hrx⟩, HbT⟩
  isplitl [HbF]; · iexact HbF
  isplitl [HbT]; · iexact HbT
  isplitl [Hry]; · iexact Hry
  isplitl [Hrx]; · iexact Hrx
  isplitl [Hsy]; · iexact Hsy
  iexact Hsx
theorem regroup : (bigSep Finset.univ fun c : Dev nD => mid m c) ⊢ bigSep Finset.univ (G' m) := by
  unfold mid
  rw [bigSep_sep', bigSep_sep', bigSep_sep', bigSep_sep',
    ← bigSep_univ_prod (fun cj : Dev nD × Fin 65 => iprop(∃ κ : ℕ, cellInv ER (rsRd m) κ (kcell cj))),
    bigSep_congr (s := Finset.univ) (fun (c : Dev nD) _ => bigSep_sep' Finset.univ (fun j : Fin 65 => (atPos ER (kcell (c, j)) 0 ∅ 0 : sProp 𝕄)) (fun j => reached ER (kcell (c, j)) 0)),
    bigSep_sep', ← bigSep_univ_prod (fun cj : Dev nD × Fin 65 => (reached ER (kcell cj) 0 : sProp 𝕄))]
  iintro ⟨HI, ⟨Hat, #HR⟩, Htok, Hld, Hst⟩
  ihave HK := (BI.bigSep_exists_pi Finset.univ (fun (cj : Dev nD × Fin 65) (κ : ℕ) => (cellInv ER (rsRd m) κ (kcell cj) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · unfold linear
    rw [bigSep_sep', bigSep_sep', bigSep_sep']
    isplitl [Hat]; · iexact Hat
    isplitl [Htk]; · iexact Htk
    isplitl [Hld]; · iexact Hld
    iexact Hst
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))
end Cert.Kernel.RS
end
-- ==== Proof.Bits.Launch.lean ====
import proofs.«900302_g7700000000000303_dist_rs_v7x_xy2x2_y_m16384_n1024_bf16_1_alg».proof.Proof.Bits.Levels
import proofs.«900302_g7700000000000303_dist_rs_v7x_xy2x2_y_m16384_n1024_bf16_1_alg».proof.Proof.Bits.Alloc
noncomputable section
namespace Cert.Kernel.RS
open Cert.Kernel Cert.Kernel.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]
local notation "𝕄" => MT nD τ sig Unit (Elt F) ℕ UU ℕ
variable (m : Mem F) (ρ : Dev nD → PrngReg)
theorem bigSep_noWin (Φ : Fin cfg0.W → sProp 𝕄) : bigSep Finset.univ Φ = iprop(emp) := rfl
theorem body_prog : (defs₀ (F := F)) .tc cfg0.body (cfg0.bodyArgs t0_0 (cfg0.slots t0_0)) = bodyAt0 (F := F) t0_0 := rfl
set_option maxRecDepth 8000 in
theorem body_obligation (hbody : ∀ c : Dev nD, BodyStmt m c) (c : Dev nD) :
    BodyObligation (dats (F := F) m 0 c) (defs₀ (F := F)) 𝒱₀ () Set.univ := fun t => by
  rw [fin_N0 t, bigSep_noWin, bigSep_noWin, body_prog]
  have hpost : ∀ u : PUnit, iprop(Φ₁ m c ∗ ∃ W', owes (c : Thread nD τ) (0 : CellTallies nD τ sig Unit) W')
      ⊢ iprop((dats m 0 c).Φ t0_0.succ ∗ (dats m 0 c).owesAt () t0_0.succ ∗ emp) := fun _ => by
    unfold Dat.owesAt Pipeline.owesWithin
    rw [show (dats m 0 c).owed t0_0.succ = 0 from rfl, show (dats m 0 c).Φ t0_0.succ = Φ₁ m c from rfl]
    iintro ⟨HΦ, ⟨%W', HO⟩⟩
    isplitl [HΦ]; · iexact HΦ
    isplitl
    · iexists W'; isplitr; · ipureintro; exact fun _ _ => Or.inl trivial
      iexact HO
    · iempintro
  unfold Dat.owesAt Pipeline.owesWithin
  rw [show (dats m 0 c).owed t0_0.castSucc = O₀ c from rfl, show (dats m 0 c).Φ t0_0.castSucc = Φ₀ m c from rfl]
  iintro ⟨HΦ, ⟨%W, -, HO⟩, -⟩
  iapply (wp_mono _ _ _ hpost)
  iapply (hbody c W)
  isplitl [HΦ] <;> iassumption
theorem ownSemFacts : Pipeline.OwnSemFacts cfg0.spec osem := by decide
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(iprop(start m c ∗ hbm0 m c) ∗ emp) := by
  rw [Pipeline.unscopedRestP_none, unscopedRest0_eq]
  iintro ⟨⟨Ha, Hv⟩, Hlev, Hcr, -, HG⟩
  ihave Hc := (creds_of_launch (F := F) c) $$ Hcr
  imodintro
  unfold start G' hbm0 bufAny
  isplitl
  · isplitl [HG Hc Hlev]
    · isplitl [HG]; · iexact HG
      isplitl [Hc]; · iexact Hc
      iexact Hlev
    · isplitl [Ha]; · iexact Ha
      iexists _; iexact Hv
  · iempintro
theorem phi0_intro (c : Dev nD) :
    iprop(iprop(start m c ∗ hbm0 m c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch bufAny
  iintro ⟨⟨Hs, Hh⟩, -, Hr⟩
  isplitl [Hs]; · iexact Hs
  isplitl [Hh]; · iexact Hh
  iexact Hr
theorem phi1_exit (c : Dev nD) :
    (dats m 0 c).Φ (Fin.last cfg0.N) ⊢ iprop(hbm1 m c ∗ Pipeline.ownSems0 osem c ∗ Pipeline.scopedRest cfg0.spec c) := by
  rw [show (dats m 0 c).Φ (Fin.last cfg0.N) = Φ₁ m c from rfl, scopedRest0_eq]
  unfold Φ₁ scratch bufAny Pipeline.ownSems0
  iintro ⟨Hh, Hr, Hz⟩
  isplitl [Hh]; · iexact Hh
  isplitl [Hz]; · iexact Hz
  iexact Hr
theorem waits (c : Dev nD) : (levAts L lv : sProp 𝕄) ⊢ Pipeline.cellsWaits cfgs (dats m) () 0 c :=
  Pipeline.cellsWaits_intro cfgs (dats m) () 0 c fun w _ _ => w.elim0
def QC : PUnit × MemSt nD τ sig (Elt F) → Prop := fun r =>
  ∀ c : Dev nD, r.2.mem ((c.tc : Thread nD τ).loc main_arg0) = m ((c.tc : Thread nD τ).loc main_arg0)
    ∧ OutOK m c (r.2.mem ((c.tc : Thread nD τ).loc main_v1))
theorem run_main (hbody : ∀ c : Dev nD, BodyStmt m c) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m hbody c).loose) (hne := fun w => w.elim0) (harr := arr_whole0) (hstage := stage_whole0)
    (hshare := fun _ w => w.elim0) (hdistinct := fun w => w.elim0)
    (O₀ := O₀) (howed₀ := fun _ => rfl) (howedN := fun _ => rfl)
    (L := L) (lv := lv) (hL := L_of_ne) (hwaits := waits m)
    (G := G m) (G' := G' m) (u₀ := u₀)
    (hu₀ := hu0 m)
    (hglob := glob m)
    (hA := fun _ w => w.elim0) (hpf := fun _ k => k.elim0)
    (X := fun c => iprop(start m c ∗ hbm0 m c)) (Y := hbm1 m) (Z := fun _ => iprop(emp))
    (hX := start_intro m ρ) (hin := phi0_intro m) (hout := phi1_exit m)
    (QY := fun c s => s.mem ((c.tc : Thread nD τ).loc main_arg0) = m ((c.tc : Thread nD τ).loc main_arg0)
      ∧ OutOK m c (s.mem ((c.tc : Thread nD τ).loc main_v1)))
    (hY := fun c s' => by
      unfold hbm1
      iintro ⟨⟨Ha, ⟨%o, %ho, Hv⟩⟩, -, HSI⟩
      icombine HSI Ha gives %ha
      icombine HSI Hv gives %hv
      imodintro
      isplitr
      · ipureintro
        refine ⟨Buf.eq_of_forall_mem_univ ha, ?_⟩
        rw [Buf.eq_of_forall_mem_univ hv]; exact ho
      iexact HSI)
    (hQ := fun _ h c => (h c).2.2)
end Cert.Kernel.RS
end
-- ==== Proof.Bits.Steps.lean ====
import proofs.«900302_g7700000000000303_dist_rs_v7x_xy2x2_y_m16384_n1024_bf16_1_alg».proof.Proof.Bits.Levels
noncomputable section
namespace Cert.Kernel.RS
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : Mem F) (c : Dev nD) {α : Type} {Q : α → sProp (MT nD τ sig Unit (Elt F) ℕ UU ℕ)}
theorem step_sigY {kont : PUnit → Prog (TpuEff nD τ sig (Elt F) Λ₀ .tc) α} (nd : Dev nD) (hn : nd = ynb c) {a : ℕ} (ha : 1 = a)
    {κ : ℕ} {W : Waits sig Unit} :
    iprop(cellInv ER (rsRd m) κ (barCell (ynb c)) ∗ owes (c : Thread nD τ) (owedN c 34) W ∗ dutyTok ER (barCell (ynb c)) 0 false
        ∗ bufAny cc0_scratch1 c ∗ (bigSep Finset.univ fun k : Fin 16 => reached ER (ryCell k c) 0) ∗ reached ER (barCell (ynb c)) 0)
      ⊢ iprop((owes (c : Thread nD τ) (owedN c 33) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal ((nd : Dev nD) : Thread nD τ) barS a) kont) Q) := by
  subst hn; subst ha
  have hO : owedN c 34 = owedN c 33 + tallyAt (barCell (ynb c)) () 1 := by
    rw [owedN_succ]; rfl
  iintro ⟨Hg, HL, Htok, Hbuf, Hr16, Hr⟩
  iapply (Rounds.wp_signal 𝒱₀ ER (rsRd m) (c : Thread nD τ) none (dst := (ynb c : Thread nD τ)) (sem := barS) (κ := κ) (r := 0) (d := false)
    (by rw [duties_bar]; exact Finset.mem_univ _) (amount_bar m (ynb c) 0 false) () (owedN c 33) hO)
  isplitl [Hg]; · iexact Hg
  isplitl [HL]; · iexact HL
  isplitl [Htok]; · iexact Htok
  isplitr [Hr]
  · rw [payload_bar_false]; unfold barPayY; rw [ynb_ynb]
    isplitl [Hbuf] <;> iassumption
  · iexact Hr
theorem step_sigX {kont : PUnit → Prog (TpuEff nD τ sig (Elt F) Λ₀ .tc) α} (nd : Dev nD) (hn : nd = xnb c) {a : ℕ} (ha : 1 = a)
    {κ : ℕ} {W : Waits sig Unit} :
    iprop(cellInv ER (rsRd m) κ (barCell (xnb c)) ∗ owes (c : Thread nD τ) (owedN c 33) W ∗ dutyTok ER (barCell (xnb c)) 0 true
        ∗ bufAny cc0_scratch2 c ∗ (bigSep Finset.univ fun k : Fin 16 => reached ER (rxCell k c) 0) ∗ reached ER (barCell (xnb c)) 0)
      ⊢ iprop((owes (c : Thread nD τ) (owedN c 32) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal ((nd : Dev nD) : Thread nD τ) barS a) kont) Q) := by
  subst hn; subst ha
  have hO : owedN c 33 = owedN c 32 + tallyAt (barCell (xnb c)) () 1 := by
    rw [owedN_succ]; rfl
  iintro ⟨Hg, HL, Htok, Hbuf, Hr16, Hr⟩
  iapply (Rounds.wp_signal 𝒱₀ ER (rsRd m) (c : Thread nD τ) none (dst := (xnb c : Thread nD τ)) (sem := barS) (κ := κ) (r := 0) (d := true)
    (by rw [duties_bar]; exact Finset.mem_univ _) (amount_bar m (xnb c) 0 true) () (owedN c 32) hO)
  isplitl [Hg]; · iexact Hg
  isplitl [HL]; · iexact HL
  isplitl [Htok]; · iexact Htok
  isplitr [Hr]
  · rw [payload_bar_true]; unfold barPayX; rw [xnb_xnb]
    isplitl [Hbuf] <;> iassumption
  · iexact Hr
theorem step_barwait {kont : PUnit → Prog (TpuEff nD τ sig (Elt F) Λ₀ .tc) α} {a : ℕ} (ha : 2 = a) {κ : ℕ} {W : Waits sig Unit} :
    iprop(cellInv ER (rsRd m) κ (barCell c) ∗ cred (tallyAt (barCell c) () 2) ∗ owes (c : Thread nD τ) (owedN c 32) W
        ∗ levAts L lv ∗ atPos ER (barCell c) 0 ∅ 0)
      ⊢ iprop(((owes (c : Thread nD τ) (owedN c 32) (insert (SemLoc.reg barS, ()) W) ∗ atPos ER (barCell c) 1 ∅ 0
              ∗ barPayY c ∗ barPayX c) -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS a) kont) Q) := by
  subst ha
  have hlev : (levAts L lv : sProp 𝕄) ⊢ MayWait (c : Thread nD τ) (.reg barS) () (owedN c 32) :=
    mayWait_owedN c (.reg barS) 32 (by decide) (fun i hi hi' => by
      show 1 < lvTal i
      unfold lvTal; split_ifs <;> omega)
  have h := Rounds.wp_wait_rest_token (defs := defs₀ (F := F)) 𝒱₀ ER (rsRd m) (c : Thread nD τ) none (κ := κ) (Q := Q) (k := kont)
      (w := TpuEff.semWait barS 2) (sm := .reg barS) (k' := 2)
      (wpE_semWait_eq 𝒱₀ (c : Thread nD τ) none Set.univ) (Set.mem_univ _) () (O := owedN c 32) (W := W) (R := 0) (m := 0) (T := ∅)
      (by rw [expect_bar])
  rw [rest_bar] at h
  iintro ⟨Hg, Hc, HL, Hlev, Hat⟩ Hk
  iapply h $$ [Hg Hc HL Hlev Hat]
  · isplitl [Hg]; · iexact Hg
    isplitl [Hc]; · iexact Hc
    isplitl [HL]; · iexact HL
    isplitl [Hlev]
    · iapply hlev; iexact Hlev
    · iexact Hat
  iintro ⟨HL, Hat, Hr, HY, HX⟩
  iapply Hk
  isplitl [HL]; · iexact HL
  isplitl [Hat]; · iexact Hat
  isplitl [HY] <;> iassumption
-- The copy of chunk k to the y-neighbour pays the device's send cell and the neighbour's receive cell.
theorem step_sendY (k : Fin 16) (n : ℕ) (hnk : n + k.val = 31) (nd : Dev nD) (hn : nd = ynb c)
    {hsc : ((ryM k : Memref sig .tc .vmem S512x1024 .bf16) : Memref sig (Dev.tc nd : Thread nD τ).2.kind .vmem S512x1024 .bf16).view.ref.isScScratch = false}
    {hsrc : (sbM k).view.WordExact} {hdst : (ryM k).view.WordExact}
    {hsem : DmaTarget.Typed .vmem (.dma (ryS k)) (.remote (Dev.tc nd : Thread nD τ) (ryM k) (.dma (syS k)) hsc)}
    {kont : PUnit → Prog (TpuEff nD τ sig (Elt F) Λ₀ .tc) α} {κ₁ κ₂ : ℕ}
    (fs : Buf (Elt F) ((sbM k).view.loc (c : Thread nD τ))) (fd : Buf (Elt F) ((ryM k).view.loc ((ynb c : Dev nD) : Thread nD τ)))
    (hv : (sbM k).view.read (Elt F) fs = sentY m c k) {W : Waits sig Unit} :
    iprop(cellInv ER (rsRd m) κ₁ (syCell k c) ∗ cellInv ER (rsRd m) κ₂ (ryCell k (ynb c))
        ∗ ((sbM k).view.loc (c : Thread nD τ) ↦[(sbM k).view.set]{fullShare} fs)
        ∗ ((ryM k).view.loc ((ynb c : Dev nD) : Thread nD τ) ↦[(ryM k).view.set]{fullShare} fd)
        ∗ owes (c : Thread nD τ) (owedN c (n + 1)) W
        ∗ dutyTok ER (syCell k c) 0 false ∗ reached ER (syCell k c) 0
        ∗ dutyTok ER (ryCell k (ynb c)) 0 false ∗ reached ER (ryCell k (ynb c)) 0)
      ⊢ iprop(((cred (tallyAt (syCell k c) () Ncr) ∗ owes (c : Thread nD τ) (owedN c n) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sbM k) (.remote (Dev.tc nd : Thread nD τ) (ryM k) (.dma (syS k)) hsc) (.dma (ryS k)) hsrc hdst hsem) kont) Q) := by
  subst hn
  have hO : owedN c (n + 1) = owedN c n + tallyAt (ryCell k (ynb c)) () Ncr := by
    rw [owedN_succ, show 33 - n = 2 + k.val by omega, tal_ry]
  have hpay₁ : ((sbM k).view.loc (c : Thread nD τ) ↦[(sbM k).view.set]{fullShare} fs)
      ⊢ (rsRd (F := F) m).payload (syCell k c) 0 false := by
    rw [payload_sy]; unfold syPay pieceAny
    iintro H; iexists fs; iexact H
  have hpay₂ : ((ryM k).view.loc ((ynb c : Dev nD) : Thread nD τ) ↦[(ryM k).view.set]{fullShare}
        ((ryM k).view.write (Elt F) fd ((sbM k).view.read (Elt F) fs) Finset.univ))
      ⊢ (rsRd (F := F) m).payload (ryCell k (ynb c)) 0 false := by
    rw [payload_ry]; unfold ryPay pieceAt
    iintro H; iexists ((ryM k).view.write (Elt F) fd ((sbM k).view.read (Elt F) fs) Finset.univ)
    isplitr
    · ipureintro; rw [View.read_write_univ, hv, ynb_ynb]
    · iexact H
  exact Rounds.wp_send_pointsTo 𝒱₀ ER (rsRd m) (c : Thread nD τ) none (c' := ((ynb c : Dev nD) : Thread nD τ))
    (src := sbM k) (dst := ryM k) (sS := .dma (syS k)) (sem := .dma (ryS k)) (κ₁ := κ₁) (κ₂ := κ₂)
    (r₁ := 0) (r₂ := 0) (d₁ := false) (d₂ := false) (fs := fs) (fd := fd) (q := fullShare)
    (by rw [duties_sy]; exact Finset.mem_singleton_self _) (by rw [duties_ry]; exact Finset.mem_singleton_self _)
    () () Ncr rfl (amount_sy m c k 0 false) (amount_ry m (ynb c) k 0 false) (owedN c n) hO hpay₁ hpay₂
theorem step_sendX (k : Fin 16) (n : ℕ) (hnk : n + k.val = 15) (nd : Dev nD) (hn : nd = xnb c)
    {hsc : ((rxM k : Memref sig .tc .vmem S512x1024 .bf16) : Memref sig (Dev.tc nd : Thread nD τ).2.kind .vmem S512x1024 .bf16).view.ref.isScScratch = false}
    {hsrc : (ryM k).view.WordExact} {hdst : (rxM k).view.WordExact}
    {hsem : DmaTarget.Typed .vmem (.dma (rxS k)) (.remote (Dev.tc nd : Thread nD τ) (rxM k) (.dma (sxS k)) hsc)}
    {kont : PUnit → Prog (TpuEff nD τ sig (Elt F) Λ₀ .tc) α} {κ₁ κ₂ : ℕ}
    (fs : Buf (Elt F) ((ryM k).view.loc (c : Thread nD τ))) (fd : Buf (Elt F) ((rxM k).view.loc ((xnb c : Dev nD) : Thread nD τ)))
    (hv : (ryM k).view.read (Elt F) fs = sentY m (ynb c) k) {W : Waits sig Unit} :
    iprop(cellInv ER (rsRd m) κ₁ (sxCell k c) ∗ cellInv ER (rsRd m) κ₂ (rxCell k (xnb c))
        ∗ ((ryM k).view.loc (c : Thread nD τ) ↦[(ryM k).view.set]{fullShare.left} fs)
        ∗ ((rxM k).view.loc ((xnb c : Dev nD) : Thread nD τ) ↦[(rxM k).view.set]{fullShare} fd)
        ∗ owes (c : Thread nD τ) (owedN c (n + 1)) W
        ∗ dutyTok ER (sxCell k c) 0 false ∗ reached ER (sxCell k c) 0
        ∗ dutyTok ER (rxCell k (xnb c)) 0 false ∗ reached ER (rxCell k (xnb c)) 0)
      ⊢ iprop(((cred (tallyAt (sxCell k c) () Ncr) ∗ owes (c : Thread nD τ) (owedN c n) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (ryM k) (.remote (Dev.tc nd : Thread nD τ) (rxM k) (.dma (sxS k)) hsc) (.dma (rxS k)) hsrc hdst hsem) kont) Q) := by
  subst hn
  have hO : owedN c (n + 1) = owedN c n + tallyAt (rxCell k (xnb c)) () Ncr := by
    rw [owedN_succ, show 33 - n = 18 + k.val by omega, tal_rx]
  have hpay₁ : ((ryM k).view.loc (c : Thread nD τ) ↦[(ryM k).view.set]{fullShare.left} fs)
      ⊢ (rsRd (F := F) m).payload (sxCell k c) 0 false := by
    rw [payload_sx]; unfold sxPay pieceAny
    iintro H; iexists fs; iexact H
  have hpay₂ : ((rxM k).view.loc ((xnb c : Dev nD) : Thread nD τ) ↦[(rxM k).view.set]{fullShare}
        ((rxM k).view.write (Elt F) fd ((ryM k).view.read (Elt F) fs) Finset.univ))
      ⊢ (rsRd (F := F) m).payload (rxCell k (xnb c)) 0 false := by
    rw [payload_rx]; unfold rxPay pieceAt
    iintro H; iexists ((rxM k).view.write (Elt F) fd ((ryM k).view.read (Elt F) fs) Finset.univ)
    isplitr
    · ipureintro; rw [View.read_write_univ, hv, xnb_xnb]
    · iexact H
  exact Rounds.wp_send_pointsTo 𝒱₀ ER (rsRd m) (c : Thread nD τ) none (c' := ((xnb c : Dev nD) : Thread nD τ))
    (src := ryM k) (dst := rxM k) (sS := .dma (sxS k)) (sem := .dma (rxS k)) (κ₁ := κ₁) (κ₂ := κ₂)
    (r₁ := 0) (r₂ := 0) (d₁ := false) (d₂ := false) (fs := fs) (fd := fd) (q := fullShare.left)
    (by rw [duties_sx]; exact Finset.mem_singleton_self _) (by rw [duties_rx]; exact Finset.mem_singleton_self _)
    () () Ncr rfl (amount_sx m c k 0 false) (amount_rx m (xnb c) k 0 false) (owedN c n) hO hpay₁ hpay₂
section Waits
variable {sp' : Space} {s' : Shape} {e' : EltTy} {src : Memref sig .tc sp' s' e'} {κ' : Idealize.ShloMosaic.Kind}
  {dst : Memref sig κ' .vmem S512x1024 .bf16} {hsrc : src.view.WordExact} {hdst : dst.view.WordExact}
  {kont : PUnit → Prog (TpuEff nD τ sig (Elt F) Λ₀ .tc) α} {κ : ℕ} {W : Waits sig Unit}
theorem lev_ry (k : Fin 16) (n : ℕ) (hnk : n + k.val = 16) :
    (levAts L lv : sProp 𝕄) ⊢ MayWait (c : Thread nD τ) (.dma (ryS k)) () (owedN c n) :=
  mayWait_owedN c (.dma (ryS k)) n (by omega) (fun i hi hi' => by
    have h2 : lv ((c : Thread nD τ), SemLoc.dma (ryS k)) () = 2 := by simp only [lv, kindOf_ry]
    rw [h2]; unfold lvTal; split_ifs <;> omega)
theorem lev_rx (k : Fin 16) (n : ℕ) (hnk : n + k.val < 16) :
    (levAts L lv : sProp 𝕄) ⊢ MayWait (c : Thread nD τ) (.dma (rxS k)) () (owedN c n) :=
  mayWait_owedN c (.dma (rxS k)) n (by omega) (fun i hi hi' => by
    have h3 : lv ((c : Thread nD τ), SemLoc.dma (rxS k)) () = 3 + k.val := by simp only [lv, kindOf_rx]
    rw [h3]; unfold lvTal; split_ifs <;> omega)
theorem lev_done (s : SemLoc sig) : (levAts L lv : sProp 𝕄) ⊢ MayWait (c : Thread nD τ) s () (owedN c 0) :=
  mayWait_owedN c s 0 (by omega) (fun i hi hi' => by omega)
-- A wait for the whole of a copy's round returns the chunk the copy handed over, for any cell paid by one copy.
theorem step_wait (s : DmaSem sig) (P : sProp 𝕄) (n : ℕ) (hdu : (rsRd (F := F) m).duties ((c : Thread nD τ), .dma s) 0 = {false})
    (ham : (rsRd (F := F) m).amount ((c : Thread nD τ), .dma s) 0 false = Ncr) (hp : (rsRd (F := F) m).payload ((c : Thread nD τ), .dma s) 0 false = P)
    (hlev : (levAts L lv : sProp 𝕄) ⊢ MayWait (c : Thread nD τ) (.dma s) () (owedN c n)) (hd : dst.view.dmaCredit = Ncr) :
    iprop(cellInv ER (rsRd m) κ ((c : Thread nD τ), .dma s) ∗ cred (tallyAt ((c : Thread nD τ), .dma s) () Ncr) ∗ owes (c : Thread nD τ) (owedN c n) W
        ∗ levAts L lv ∗ atPos ER ((c : Thread nD τ), .dma s) 0 ∅ 0)
      ⊢ iprop(((owes (c : Thread nD τ) (owedN c n) (insert (SemLoc.dma s, ()) W) ∗ atPos ER ((c : Thread nD τ), .dma s) 1 ∅ 0 ∗ P)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 s src dst hsrc hdst) kont) Q) := by
  have h := Rounds.wp_wait_rest_token (defs := defs₀ (F := F)) 𝒱₀ ER (rsRd m) (c : Thread nD τ) none (κ := κ) (Q := Q) (k := kont)
      (w := TpuEff.waitDma2 s src dst hsrc hdst) (sm := .dma s) (k' := dst.view.dmaCredit)
      (wpE_waitDma2_eq 𝒱₀ (c : Thread nD τ) none Set.univ) (Set.mem_univ _) () (O := owedN c n) (W := W) (R := 0) (m := 0) (T := ∅)
      (by unfold Schedule.expect Schedule.amountOf; rw [Nat.zero_add, hd, hdu, Finset.sum_singleton, ham])
  rw [Finset.sdiff_empty, hdu, bigSep_singleton, hp, hd] at h
  iintro ⟨Hg, Hc, HL, Hlev, Hat⟩ Hk
  iapply h $$ [Hg Hc HL Hlev Hat]
  · isplitl [Hg]; · iexact Hg
    isplitl [Hc]; · iexact Hc
    isplitl [HL]; · iexact HL
    isplitl [Hlev]
    · iapply hlev; iexact Hlev
    · iexact Hat
  iintro ⟨HL, Hat, Hr, Hpay⟩
  iapply Hk
  isplitl [HL]; · iexact HL
  isplitl [Hat] <;> iassumption
end Waits
theorem step_close (j : Fin 65) (hj : j ≠ jbar) {κ : ℕ} :
    iprop(cellInv ER (rsRd m) κ (kcell (c, j)) ∗ atPos ER (kcell (c, j)) 1 ∅ 0) ⊢ |={Set.univ}=> (semVal (kcell (c, j)) 0 : sProp (MT nD τ sig Unit (Elt F) ℕ UU ℕ)) := by
  exact Rounds.cell_close ER (rsRd m) (Set.mem_univ κ) (fun h => h) (R := 0 + 1) (duties_later m (kcell (c, j)))
end Cert.Kernel.RS
end
-- ==== Proof.Bits.Carve.lean ====
import proofs.«900302_g7700000000000303_dist_rs_v7x_xy2x2_y_m16384_n1024_bf16_1_alg».proof.Proof.Bits.Inv
noncomputable section
namespace Cert.Kernel.RS
open Idealize.ShloMosaic
variable {F : FTy → Type} [FloatOps F]
-- A chunk still lies in what is held after a different chunk has been carved out.
theorem chunk_sub_sdiff {S : Finset S8192x1024.Idx} (j k : Fin 16) (h : j ≠ k) (hS : (chunkR k).set ⊆ S) :
    (chunkR k).set ⊆ S \ (chunkR j).set :=
  Finset.subset_sdiff.mpr ⟨hS, chunk_disjoint k j h.symm⟩
theorem sbM_set (k : Fin 16) : (sbM k).view.set = (chunkR k).set := View.set_slice_whole cc0_scratch0 (chunkR k)
theorem ryM_set (k : Fin 16) : (ryM k).view.set = (chunkR k).set := View.set_slice_whole cc0_scratch1 (chunkR k)
theorem rxM_set (k : Fin 16) : (rxM k).view.set = (chunkR k).set := View.set_slice_whole cc0_scratch2 (chunkR k)
end Cert.Kernel.RS
end
-- ==== Proof.Bits.Exit.lean ====
import proofs.«900302_g7700000000000303_dist_rs_v7x_xy2x2_y_m16384_n1024_bf16_1_alg».proof.Proof.Bits.Inv
noncomputable section
namespace Cert.Kernel.RS
open Idealize.ShloMosaic
open Idealize.ShloMosaic.TcCoe
open Idealize.SL Idealize.SL.RA Idealize.SL.BI
open Idealize.SL.BI.BIBase Idealize.SL.BI.Laws Idealize.SL.ProofMode Idealize.SL.Sem
variable {F : FTy → Type} [FloatOps F]
local notation "𝕄" => MT nD τ sig Unit (Elt F) ℕ UU ℕ
theorem chunk_cover : (Finset.univ : Finset (Fin 16)).biUnion (fun k => (chunkR k).set) = Finset.univ := by
  ext i
  simp only [Finset.mem_biUnion, Finset.mem_univ, true_and, iff_true]
  have h0 : (i 0).val < 8192 := (i 0).isLt
  have h1 : (i 1).val < 1024 := (i 1).isLt
  refine ⟨⟨(i 0).val / 512, by omega⟩, ?_⟩
  rw [Rect.mem_set_unit]
  intro a
  match a with
  | ⟨0, _⟩ =>
    show 512 * ((i 0).val / 512) ≤ (i 0).val ∧ (i 0).val < 512 * ((i 0).val / 512) + 512
    omega
  | ⟨1, _⟩ =>
    show 0 ≤ (i 1).val ∧ (i 1).val < 0 + 1024
    omega
-- Sixteen pairwise disjoint pieces that cover a buffer join into the whole buffer.
theorem join_cover (ℓ : Loc nD τ sig) (K : Fin 16 → Finset (Idx ℓ)) (q : PosShare TreeShare) (f₀ : Buf (Elt F) ℓ)
    (hdis : ∀ j k : Fin 16, j ≠ k → Disjoint (K j) (K k)) (hcov : Finset.univ.biUnion K = Finset.univ) :
    (bigSep Finset.univ fun k : Fin 16 => (iprop(∃ f, ℓ ↦[K k]{q} f) : sProp 𝕄)) ⊢ iprop(∃ g, ℓ ↦[Finset.univ]{q} g) := by
  haveI : ∀ _ : Fin 16, Nonempty (Buf (Elt F) ℓ) := fun _ => ⟨f₀⟩
  refine (bigSep_exists_pi (Y := fun _ => Buf (Elt F) ℓ) Finset.univ (fun k f => (ℓ ↦[K k]{q} f : sProp 𝕄))).trans (exists_elim fun fs => ?_)
  have hj := pointsTo_biUnion_join (Ix := Unit) (Name := ℕ) (U := UU) (Lvl := ℕ) (q := q) Finset.univ K fs f₀ (fun t _ t' _ h => hdis t t' h)
  rw [hcov] at hj
  refine hj.trans ?_
  iintro ⟨%g, -, H⟩
  iexists g
  iexact H
theorem halves_join (ℓ : Loc nD τ sig) (I : Finset (Idx ℓ)) (f g : Buf (Elt F) ℓ) :
    iprop((ℓ ↦[I]{fullShare.left} f) ∗ ℓ ↦[I]{fullShare.right} g) ⊢ (ℓ ↦[I]{fullShare} f : sProp 𝕄) := by
  refine pure_elim _ pointsTo_agree fun hag => ?_
  have e : (ℓ ↦[I]{fullShare.right} g : sProp 𝕄) = ℓ ↦[I]{fullShare.right} f :=
    pointsTo_congr fun i hi => ((hag i (Finset.mem_inter.mpr ⟨hi, hi⟩)).1).symm
  rw [e]
  exact (pointsTo_share (PosShare.mem_left_op_right fullShare)).2
theorem piece_halves (M : Memref sig .tc .vmem S512x1024 .bf16) (o : Dev nD) :
    iprop(pieceAny M o fullShare.left ∗ pieceAny M o fullShare.right) ⊢ (pieceAny M o fullShare : sProp 𝕄) := by
  unfold pieceAny
  iintro ⟨⟨%f, Hf⟩, ⟨%g, Hg⟩⟩
  iexists f
  iapply (halves_join (M.view.loc (o : Thread nD τ)) M.view.set f g)
  isplitl [Hf]
  · iexact Hf
  · iexact Hg
theorem join_sb (c : Dev nD) : (bigSep Finset.univ fun k : Fin 16 => (pieceAny (sbM k) c fullShare : sProp 𝕄)) ⊢ bufAny cc0_scratch0 c := by
  have hs : ∀ k : Fin 16, (sbM k).view.set = (chunkR k).set := fun k => View.set_slice_whole cc0_scratch0 (chunkR k)
  exact join_cover ((c : Thread nD τ).loc cc0_scratch0) (fun k => (sbM k).view.set) fullShare (fun _ => (FloatOps.ofBits .bf16 0 : F .bf16))
    (fun j k h => by rw [hs j, hs k]; exact chunk_disjoint j k h)
    (by rw [show (fun k => (sbM k).view.set) = fun k => (chunkR k).set from funext hs]; exact chunk_cover)
theorem join_ry (c : Dev nD) :
    (bigSep Finset.univ fun k : Fin 16 => (iprop(pieceAny (ryM k) c fullShare.left ∗ pieceAny (ryM k) c fullShare.right) : sProp 𝕄)) ⊢ bufAny cc0_scratch1 c := by
  have hs : ∀ k : Fin 16, (ryM k).view.set = (chunkR k).set := fun k => View.set_slice_whole cc0_scratch1 (chunkR k)
  refine (bigSep_mono fun k _ => piece_halves (ryM k) c).trans ?_
  exact join_cover ((c : Thread nD τ).loc cc0_scratch1) (fun k => (ryM k).view.set) fullShare (fun _ => (FloatOps.ofBits .bf16 0 : F .bf16))
    (fun j k h => by rw [hs j, hs k]; exact chunk_disjoint j k h)
    (by rw [show (fun k => (ryM k).view.set) = fun k => (chunkR k).set from funext hs]; exact chunk_cover)
theorem join_rx (c : Dev nD) : (bigSep Finset.univ fun k : Fin 16 => (pieceAny (rxM k) c fullShare : sProp 𝕄)) ⊢ bufAny cc0_scratch2 c := by
  have hs : ∀ k : Fin 16, (rxM k).view.set = (chunkR k).set := fun k => View.set_slice_whole cc0_scratch2 (chunkR k)
  exact join_cover ((c : Thread nD τ).loc cc0_scratch2) (fun k => (rxM k).view.set) fullShare (fun _ => (FloatOps.ofBits .bf16 0 : F .bf16))
    (fun j k h => by rw [hs j, hs k]; exact chunk_disjoint j k h)
    (by rw [show (fun k => (rxM k).view.set) = fun k => (chunkR k).set from funext hs]; exact chunk_cover)
end Cert.Kernel.RS
end
-- ==== Proof.Bits.ExitCells.lean ====
import proofs.«900302_g7700000000000303_dist_rs_v7x_xy2x2_y_m16384_n1024_bf16_1_alg».proof.Proof.Bits.Steps
noncomputable section
namespace Cert.Kernel.RS
open Idealize.ShloMosaic
open Idealize.SL Idealize.SL.RA Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : Mem F) (c : Dev nD)
theorem close_of_family (K : Dev nD × Fin 65 → ℕ) (j : Fin 65) (hj : j ≠ jbar) :
    iprop((bigSep Finset.univ fun j : Fin 65 => cellInv ER (rsRd m) (K (c, j)) (kcell (c, j))) ∗ atPos ER (kcell (c, j)) 1 ∅ 0)
      ⊢ |={Set.univ}=> (semVal (kcell (c, j)) 0 : sProp (MT nD τ sig Unit (Elt F) ℕ UU ℕ)) := by
  have e : (bigSep Finset.univ (fun j : Fin 65 => cellInv ER (rsRd m) (K (c, j)) (kcell (c, j))) : sProp (MT nD τ sig Unit (Elt F) ℕ UU ℕ))
      ⊢ cellInv ER (rsRd m) (K (c, j)) (kcell (c, j)) := bigSep_elim (Finset.mem_univ j)
  exact (sep_mono_left e).trans (step_close m c j hj)
-- Once its round is consumed a cell closes, and its counter at zero is the device's again; here for one family of sixteen.
theorem close_role (K : Dev nD × Fin 65 → ℕ) (j : Fin 16 → Fin 65) (cell : Fin 16 → GSem nD τ sig) (hj : ∀ k, j k ≠ jbar) (hc : ∀ k, kcell (c, j k) = cell k) :
    iprop((bigSep Finset.univ fun j : Fin 65 => cellInv ER (rsRd m) (K (c, j)) (kcell (c, j))) ∗ (bigSep Finset.univ fun k : Fin 16 => atPos ER (cell k) 1 ∅ 0))
      ⊢ |={Set.univ}=> (bigSep Finset.univ fun k : Fin 16 => semVal (cell k) 0 : sProp 𝕄) := by
  have h : ∀ k : Fin 16, iprop((bigSep Finset.univ fun j : Fin 65 => cellInv ER (rsRd m) (K (c, j)) (kcell (c, j))) ∗ atPos ER (cell k) 1 ∅ 0)
      ⊢ iprop(|={Set.univ}=> semVal (cell k) 0) := fun k => by
    have h := close_of_family m c K (j k) (hj k)
    rwa [hc k] at h
  exact (bigSep_with_persistent (S := Finset.univ) (fun k _ => h k)).trans (bigSep_fupd Finset.univ _)
theorem exit_cells (K : Dev nD × Fin 65 → ℕ) :
    iprop((bigSep Finset.univ fun j : Fin 65 => cellInv ER (rsRd m) (K (c, j)) (kcell (c, j)))
        ∗ (bigSep Finset.univ fun k : Fin 16 => atPos ER (syCell k c) 1 ∅ 0) ∗ (bigSep Finset.univ fun k : Fin 16 => atPos ER (ryCell k c) 1 ∅ 0)
        ∗ (bigSep Finset.univ fun k : Fin 16 => atPos ER (sxCell k c) 1 ∅ 0) ∗ (bigSep Finset.univ fun k : Fin 16 => atPos ER (rxCell k c) 1 ∅ 0))
      ⊢ |={Set.univ}=> (iprop((bigSep Finset.univ fun k : Fin 16 => semVal (syCell k c) 0) ∗ (bigSep Finset.univ fun k : Fin 16 => semVal (ryCell k c) 0)
          ∗ (bigSep Finset.univ fun k : Fin 16 => semVal (sxCell k c) 0) ∗ (bigSep Finset.univ fun k : Fin 16 => semVal (rxCell k c) 0)) : sProp 𝕄) := by
  iintro ⟨#HR, HA, HB, HC, HD⟩
  imod (close_role m c K jsy (fun k => syCell k c) (fun k h => absurd (show 1 + k.val = 0 from congrArg Fin.val h) (by omega)) (kcell_sy c)) $$ [HA] with HA'
  · isplitr; · iexact HR
    iexact HA
  imod (close_role m c K jry (fun k => ryCell k c) (fun k h => absurd (show 17 + k.val = 0 from congrArg Fin.val h) (by omega)) (kcell_ry c)) $$ [HB] with HB'
  · isplitr; · iexact HR
    iexact HB
  imod (close_role m c K jsx (fun k => sxCell k c) (fun k h => absurd (show 33 + k.val = 0 from congrArg Fin.val h) (by omega)) (kcell_sx c)) $$ [HC] with HC'
  · isplitr; · iexact HR
    iexact HC
  imod (close_role m c K jrx (fun k => rxCell k c) (fun k h => absurd (show 49 + k.val = 0 from congrArg Fin.val h) (by omega)) (kcell_rx c)) $$ [HD] with HD'
  · isplitr; · iexact HR
    iexact HD
  imodintro
  isplitl [HA']; · iexact HA'
  isplitl [HB']; · iexact HB'
  isplitl [HC'] <;> iassumption
end Cert.Kernel.RS
end
-- ==== Proof.Bits.SendVal.lean ====
import proofs.«900302_g7700000000000303_dist_rs_v7x_xy2x2_y_m16384_n1024_bf16_1_alg».proof.Proof.Bits.Carve
noncomputable section
namespace Cert.Kernel.RS
open Cert.Kernel Cert.Kernel.Gen
open Idealize.ShloMosaic
variable {F : FTy → Type} [FloatOps F]
abbrev ldSlotM (off : Fin 3 → Nat) (inb : ∀ a, off a + S1x512x1024.size a ≤ S4x512x1024.size a) : Memref sig .tc .vmem S512x1024 .f32 :=
  ((Memref.whole cc0_scratch3).slice (Rect.unit (s := S4x512x1024) off S1x512x1024.size inb) (fun _ => rfl)).squeeze S512x1024 squeezes_S1x512x1024_S512x1024
-- Reading back the slot just written gives what was written.
theorem ld_read_same (off : Fin 3 → Nat) (inb : ∀ a, off a + S1x512x1024.size a ≤ S4x512x1024.size a)
    (g : (cc0_scratch3 : Ref sig .tc).ty.Contents (Elt F)) (P : S512x1024.Idx → Elt F .f32) :
    (Memref.whole cc0_scratch3 : Memref sig .tc .vmem S4x512x1024 .f32).view.readAt (Elt F) (Rect.unit (s := S4x512x1024) off S1x512x1024.size inb).toLoadRect
        (View.write (Elt F) (ldSlotM off inb).view g P Finset.univ)
      = ldV P := by
  have h : S512x1024.numel = (Rect.unit (s := S4x512x1024) off S1x512x1024.size inb).shape.numel :=
    squeezes_S1x512x1024_S512x1024.numel_eq
  show ((View.whole cc0_scratch3).slice (Rect.unit (s := S4x512x1024) off S1x512x1024.size inb)).read (Elt F)
      ((((View.whole cc0_scratch3).slice (Rect.unit (s := S4x512x1024) off S1x512x1024.size inb)).reshape S512x1024 h).write (Elt F) g P Finset.univ) = ldV P
  rw [View.write_reshape_univ, View.read_write_univ]
  funext x
  unfold ldV shapeCast
  rw [Shape.reshapeEquiv_symm]
theorem ld_read_other (off off' : Fin 3 → Nat) (inb : ∀ a, off a + S1x512x1024.size a ≤ S4x512x1024.size a)
    (inb' : ∀ a, off' a + S1x512x1024.size a ≤ S4x512x1024.size a) (hne : off 0 ≠ off' 0)
    (g : (cc0_scratch3 : Ref sig .tc).ty.Contents (Elt F)) (P : S512x1024.Idx → Elt F .f32) :
    (Memref.whole cc0_scratch3 : Memref sig .tc .vmem S4x512x1024 .f32).view.readAt (Elt F) (Rect.unit (s := S4x512x1024) off S1x512x1024.size inb).toLoadRect
        (View.write (Elt F) (ldSlotM off' inb').view g P Finset.univ)
      = (Memref.whole cc0_scratch3 : Memref sig .tc .vmem S4x512x1024 .f32).view.readAt (Elt F) (Rect.unit (s := S4x512x1024) off S1x512x1024.size inb).toLoadRect g := by
  have h : S512x1024.numel = (Rect.unit (s := S4x512x1024) off' S1x512x1024.size inb').shape.numel :=
    squeezes_S1x512x1024_S512x1024.numel_eq
  show ((View.whole cc0_scratch3).slice (Rect.unit (s := S4x512x1024) off S1x512x1024.size inb)).read (Elt F)
      ((((View.whole cc0_scratch3).slice (Rect.unit (s := S4x512x1024) off' S1x512x1024.size inb')).reshape S512x1024 h).write (Elt F) g P Finset.univ)
    = ((View.whole cc0_scratch3).slice (Rect.unit (s := S4x512x1024) off S1x512x1024.size inb)).read (Elt F) g
  rw [View.write_reshape_univ]
  refine View.read_slice_write_slice_of_disjoint (v := View.whole cc0_scratch3) _ _ g _ Finset.univ ?_
  rw [View.setOn_univ, View.set_slice_whole, View.set_slice_whole]
  refine Rect.unit_disjoint (0 : Fin 3) ?_
  show off 0 + 1 ≤ off' 0 ∨ off' 0 + 1 ≤ off 0
  omega
theorem sb_read_head (k : Fin 16) (inb : ∀ a, chunkOff k a + S512x1024.size a ≤ S8192x1024.size a)
    (f0 : (cc0_scratch0 : Ref sig .tc).ty.Contents (Elt F)) (P : S512x1024.Idx → Elt F .bf16)
    (Lst : List (Σ r : Rect S8192x1024, (r.shape.Idx → Elt F .bf16))) :
    (sbM k).view.read (Elt F)
        ((Memref.whole cc0_scratch0 : Memref sig .tc .vmem S8192x1024 .bf16).view.writes (Elt F) f0
          (⟨Rect.unit (s := S8192x1024) (chunkOff k) S512x1024.size inb, P⟩ :: Lst))
      = P := by
  rw [View.writes_cons]
  exact View.read_write_univ (v := (sbM k).view) _ P
end Cert.Kernel.RS
end
-- ==== Proof.Bits.FoldVal.lean ====
import proofs.«900302_g7700000000000303_dist_rs_v7x_xy2x2_y_m16384_n1024_bf16_1_alg».proof.Proof.Bits.Carve
noncomputable section
namespace Cert.Kernel.RS
open Cert.Kernel Cert.Kernel.Gen
open Idealize.ShloMosaic
variable {F : FTy → Type} [FloatOps F]
def foldStore (v : Vec F S1x512x1024 .f32) (w : Vec F S512x1024 .bf16) : FVec F S1x512x1024 .bf16 :=
  shapeCast S1x512x1024 (foldOut v w) shapeCasts_S512x1024_S1x512x1024
abbrev obSlotM (off : Fin 3 → Nat) (inb : ∀ a, off a + S1x512x1024.size a ≤ S4x512x1024.size a) : Memref sig .tc .vmem S512x1024 .bf16 :=
  ((Memref.whole cc0_scratch4).slice (Rect.unit (s := S4x512x1024) off S1x512x1024.size inb) (fun _ => rfl)).squeeze S512x1024 squeezes_S1x512x1024_S512x1024
-- The staged output slot reads back as the sum that was stored in it.
theorem ob_read_head (off : Fin 3 → Nat) (inb : ∀ a, off a + S1x512x1024.size a ≤ S4x512x1024.size a)
    (f4 : (cc0_scratch4 : Ref sig .tc).ty.Contents (Elt F)) (v : Vec F S1x512x1024 .f32) (w : Vec F S512x1024 .bf16)
    (Lst : List (Σ r : Rect S4x512x1024, (r.shape.Idx → Elt F .bf16))) :
    (obSlotM off inb).view.read (Elt F)
        ((Memref.whole cc0_scratch4 : Memref sig .tc .vmem S4x512x1024 .bf16).view.writes (Elt F) f4
          (⟨Rect.unit (s := S4x512x1024) off S1x512x1024.size inb, foldStore v w⟩ :: Lst))
      = foldOut v w := by
  have h : S512x1024.numel = (Rect.unit (s := S4x512x1024) off S1x512x1024.size inb).shape.numel :=
    squeezes_S1x512x1024_S512x1024.numel_eq
  rw [View.writes_cons]
  funext x
  show ((View.whole cc0_scratch4).slice (Rect.unit (s := S4x512x1024) off S1x512x1024.size inb)).read (Elt F)
      (((View.whole cc0_scratch4).slice (Rect.unit (s := S4x512x1024) off S1x512x1024.size inb)).write (Elt F) _ (foldStore v w) Finset.univ)
      (Shape.reshapeEquiv h x) = foldOut v w x
  rw [View.read_write_univ]
  unfold foldStore shapeCast
  rw [Shape.reshapeEquiv_reshapeEquiv, Shape.reshapeEquiv_self]
end Cert.Kernel.RS
end
-- ==== Proof.Bits.OutVal.lean ====
import proofs.«900302_g7700000000000303_dist_rs_v7x_xy2x2_y_m16384_n1024_bf16_1_alg».proof.Proof.Bits.Spec
noncomputable section
namespace Cert.Kernel.RS
open Idealize.ShloMosaic
variable {F : FTy → Type} [FloatOps F]
abbrev outWinM (off : Fin 2 → Nat) (inb : ∀ a, off a + S512x1024.size a ≤ S16384x1024.size a) : Memref sig .tc .hbm S512x1024 .bf16 :=
  (Memref.whole main_v1).slice (Rect.unit (s := S16384x1024) off S512x1024.size inb) (fun _ => rfl)
theorem out_read_same (off : Fin 2 → Nat) (inb : ∀ a, off a + S512x1024.size a ≤ S16384x1024.size a)
    (g : (main_v1 : Ref sig .tc).ty.Contents (Elt F)) (P : S512x1024.Idx → Elt F .bf16) :
    (outWinM off inb).view.read (Elt F) (View.write (Elt F) (outWinM off inb).view g P Finset.univ) = P :=
  View.read_write_univ (v := (outWinM off inb).view) g P
-- Writing one 512-row window of the result leaves a window with other rows as it was.
theorem out_read_other (off off' : Fin 2 → Nat) (inb : ∀ a, off a + S512x1024.size a ≤ S16384x1024.size a)
    (inb' : ∀ a, off' a + S512x1024.size a ≤ S16384x1024.size a) (hd : off 0 + 512 ≤ off' 0 ∨ off' 0 + 512 ≤ off 0)
    (g : (main_v1 : Ref sig .tc).ty.Contents (Elt F)) (P : S512x1024.Idx → Elt F .bf16) :
    (outWinM off inb).view.read (Elt F) (View.write (Elt F) (outWinM off' inb').view g P Finset.univ) = (outWinM off inb).view.read (Elt F) g := by
  show ((View.whole main_v1).slice (Rect.unit (s := S16384x1024) off S512x1024.size inb)).read (Elt F)
      (((View.whole main_v1).slice (Rect.unit (s := S16384x1024) off' S512x1024.size inb')).write (Elt F) g P Finset.univ)
    = ((View.whole main_v1).slice (Rect.unit (s := S16384x1024) off S512x1024.size inb)).read (Elt F) g
  refine View.read_slice_write_slice_of_disjoint (v := View.whole main_v1) _ _ g _ Finset.univ ?_
  rw [View.setOn_univ, View.set_slice_whole, View.set_slice_whole]
  refine Rect.unit_disjoint (0 : Fin 2) ?_
  show off 0 + 512 ≤ off' 0 ∨ off' 0 + 512 ≤ off 0
  exact hd
theorem outWin_disj (off off' : Fin 2 → Nat) (inb : ∀ a, off a + S512x1024.size a ≤ S16384x1024.size a)
    (inb' : ∀ a, off' a + S512x1024.size a ≤ S16384x1024.size a) (hd : off 0 + 512 ≤ off' 0 ∨ off' 0 + 512 ≤ off 0) :
    Disjoint (outWinM off inb).view.set (outWinM off' inb').view.set := by
  show Disjoint ((View.whole main_v1).slice (Rect.unit (s := S16384x1024) off S512x1024.size inb)).set
      ((View.whole main_v1).slice (Rect.unit (s := S16384x1024) off' S512x1024.size inb')).set
  rw [View.set_slice_whole, View.set_slice_whole]
  refine Rect.unit_disjoint (0 : Fin 2) ?_
  show off 0 + 512 ≤ off' 0 ∨ off' 0 + 512 ≤ off 0
  exact hd
end Cert.Kernel.RS
end
-- ==== Proof.Bits.RowTab.lean ====
import proofs.«900302_g7700000000000303_dist_rs_v7x_xy2x2_y_m16384_n1024_bf16_1_alg».proof.Proof.Bits.OutVal
noncomputable section
namespace Cert.Kernel.RS
open Cert.Kernel Cert.Kernel.Gen
open Idealize.ShloMosaic Idealize.ShloMosaic.TcCoe
-- The first row of each of the thirty-two result windows, in closed form.
theorem row_lits (c : Dev nD) :
    (k0_off4 c (BitVec.ofNat 32 0)) 0 = 8192 * (c.val / 2) + 0
    ∧ (k0_off4 c (BitVec.ofNat 32 512)) 0 = 8192 * (c.val / 2) + 512
    ∧ (k0_off4 c (BitVec.ofNat 32 1024)) 0 = 8192 * (c.val / 2) + 1024
    ∧ (k0_off4 c (BitVec.ofNat 32 1536)) 0 = 8192 * (c.val / 2) + 1536
    ∧ (k0_off4 c (BitVec.ofNat 32 2048)) 0 = 8192 * (c.val / 2) + 2048
    ∧ (k0_off4 c (BitVec.ofNat 32 2560)) 0 = 8192 * (c.val / 2) + 2560
    ∧ (k0_off4 c (BitVec.ofNat 32 3072)) 0 = 8192 * (c.val / 2) + 3072
    ∧ (k0_off4 c (BitVec.ofNat 32 3584)) 0 = 8192 * (c.val / 2) + 3584
    ∧ (k0_off4 c (BitVec.ofNat 32 4096)) 0 = 8192 * (c.val / 2) + 4096
    ∧ (k0_off4 c (BitVec.ofNat 32 4608)) 0 = 8192 * (c.val / 2) + 4608
    ∧ (k0_off4 c (BitVec.ofNat 32 5120)) 0 = 8192 * (c.val / 2) + 5120
    ∧ (k0_off4 c (BitVec.ofNat 32 5632)) 0 = 8192 * (c.val / 2) + 5632
    ∧ (k0_off4 c (BitVec.ofNat 32 6144)) 0 = 8192 * (c.val / 2) + 6144
    ∧ (k0_off4 c (BitVec.ofNat 32 6656)) 0 = 8192 * (c.val / 2) + 6656
    ∧ (k0_off4 c (BitVec.ofNat 32 7168)) 0 = 8192 * (c.val / 2) + 7168
    ∧ (k0_off4 c (BitVec.ofNat 32 7680)) 0 = 8192 * (c.val / 2) + 7680
    ∧ (k0_off5 c (BitVec.ofNat 32 0)) 0 = (0 + 8192) - 8192 * (c.val / 2)
    ∧ (k0_off5 c (BitVec.ofNat 32 512)) 0 = (512 + 8192) - 8192 * (c.val / 2)
    ∧ (k0_off5 c (BitVec.ofNat 32 1024)) 0 = (1024 + 8192) - 8192 * (c.val / 2)
    ∧ (k0_off5 c (BitVec.ofNat 32 1536)) 0 = (1536 + 8192) - 8192 * (c.val / 2)
    ∧ (k0_off5 c (BitVec.ofNat 32 2048)) 0 = (2048 + 8192) - 8192 * (c.val / 2)
    ∧ (k0_off5 c (BitVec.ofNat 32 2560)) 0 = (2560 + 8192) - 8192 * (c.val / 2)
    ∧ (k0_off5 c (BitVec.ofNat 32 3072)) 0 = (3072 + 8192) - 8192 * (c.val / 2)
    ∧ (k0_off5 c (BitVec.ofNat 32 3584)) 0 = (3584 + 8192) - 8192 * (c.val / 2)
    ∧ (k0_off5 c (BitVec.ofNat 32 4096)) 0 = (4096 + 8192) - 8192 * (c.val / 2)
    ∧ (k0_off5 c (BitVec.ofNat 32 4608)) 0 = (4608 + 8192) - 8192 * (c.val / 2)
    ∧ (k0_off5 c (BitVec.ofNat 32 5120)) 0 = (5120 + 8192) - 8192 * (c.val / 2)
    ∧ (k0_off5 c (BitVec.ofNat 32 5632)) 0 = (5632 + 8192) - 8192 * (c.val / 2)
    ∧ (k0_off5 c (BitVec.ofNat 32 6144)) 0 = (6144 + 8192) - 8192 * (c.val / 2)
    ∧ (k0_off5 c (BitVec.ofNat 32 6656)) 0 = (6656 + 8192) - 8192 * (c.val / 2)
    ∧ (k0_off5 c (BitVec.ofNat 32 7168)) 0 = (7168 + 8192) - 8192 * (c.val / 2)
    ∧ (k0_off5 c (BitVec.ofNat 32 7680)) 0 = (7680 + 8192) - 8192 * (c.val / 2) :=
  ⟨congrFun (k0_off4_eq c 0) 0, congrFun (k0_off4_eq c 1) 0, congrFun (k0_off4_eq c 2) 0, congrFun (k0_off4_eq c 3) 0, congrFun (k0_off4_eq c 4) 0, congrFun (k0_off4_eq c 5) 0, congrFun (k0_off4_eq c 6) 0, congrFun (k0_off4_eq c 7) 0, congrFun (k0_off4_eq c 8) 0, congrFun (k0_off4_eq c 9) 0, congrFun (k0_off4_eq c 10) 0, congrFun (k0_off4_eq c 11) 0, congrFun (k0_off4_eq c 12) 0, congrFun (k0_off4_eq c 13) 0, congrFun (k0_off4_eq c 14) 0, congrFun (k0_off4_eq c 15) 0, congrFun (k0_off5_eq c 0) 0, congrFun (k0_off5_eq c 1) 0, congrFun (k0_off5_eq c 2) 0, congrFun (k0_off5_eq c 3) 0, congrFun (k0_off5_eq c 4) 0, congrFun (k0_off5_eq c 5) 0, congrFun (k0_off5_eq c 6) 0, congrFun (k0_off5_eq c 7) 0, congrFun (k0_off5_eq c 8) 0, congrFun (k0_off5_eq c 9) 0, congrFun (k0_off5_eq c 10) 0, congrFun (k0_off5_eq c 11) 0, congrFun (k0_off5_eq c 12) 0, congrFun (k0_off5_eq c 13) 0, congrFun (k0_off5_eq c 14) 0, congrFun (k0_off5_eq c 15) 0⟩
end Cert.Kernel.RS
end
-- ==== Proof.Bits.Body.lean ====
import proofs.«900302_g7700000000000303_dist_rs_v7x_xy2x2_y_m16384_n1024_bf16_1_alg».proof.Proof.Bits.Steps
import proofs.«900302_g7700000000000303_dist_rs_v7x_xy2x2_y_m16384_n1024_bf16_1_alg».proof.Proof.Bits.Fam
import proofs.«900302_g7700000000000303_dist_rs_v7x_xy2x2_y_m16384_n1024_bf16_1_alg».proof.Proof.Bits.Carve
import proofs.«900302_g7700000000000303_dist_rs_v7x_xy2x2_y_m16384_n1024_bf16_1_alg».proof.Proof.Bits.Exit
import proofs.«900302_g7700000000000303_dist_rs_v7x_xy2x2_y_m16384_n1024_bf16_1_alg».proof.Proof.Bits.ExitCells
import proofs.«900302_g7700000000000303_dist_rs_v7x_xy2x2_y_m16384_n1024_bf16_1_alg».proof.Proof.Bits.SendVal
import proofs.«900302_g7700000000000303_dist_rs_v7x_xy2x2_y_m16384_n1024_bf16_1_alg».proof.Proof.Bits.FoldVal
import proofs.«900302_g7700000000000303_dist_rs_v7x_xy2x2_y_m16384_n1024_bf16_1_alg».proof.Proof.Bits.OutVal
import proofs.«900302_g7700000000000303_dist_rs_v7x_xy2x2_y_m16384_n1024_bf16_1_alg».proof.Proof.Bits.RowTab
noncomputable section
namespace Cert.Kernel.RS
open Cert.Kernel Cert.Kernel.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
open Idealize.ShloMosaic.Tactic
variable (m : Mem F)
omit [FloatOps F] in
theorem whole_spell (b : Ref sig .tc) (c : Dev nD) (q : PosShare TreeShare) (f : Buf (Elt F) (((c : Dev nD) : Thread nD τ).loc b)) :
    ((((c : Thread nD τ).loc b) ↦{q} f : sProp 𝕄)) = ((Memref.whole b).view.loc (c : Thread nD τ) ↦{q} f) := rfl
theorem bigSep_take {I : Type} [DecidableEq I] {s : Finset I} {i : I} (hi : i ∈ s) (Φ : I → sProp 𝕄) :
    bigSep s Φ = iprop(Φ i ∗ bigSep (s.erase i) Φ) := bigSep_erase hi
theorem binv (K : Dev nD × Fin 65 → ℕ) (c : Dev nD) (j : Fin 65) {g : GSem nD τ sig} (h : kcell (c, j) = g) :
    (bigSep Finset.univ fun j : Fin 65 => (cellInv ER (rsRd m) (K (c, j)) (kcell (c, j)) : sProp 𝕄)) ⊢ cellInv ER (rsRd m) (K (c, j)) g := by
  subst h; exact bigSep_elim (Finset.mem_univ j)
theorem mayWait_local (c : Dev nD) (i : ℕ) (hi : i < 72) (h : 64 ≤ i) (n : ℕ) (hn : n ≤ 32) :
    (levAts L lv : sProp 𝕄) ⊢ MayWait (c : Thread nD τ) (SemLoc.dma (⟨i, hi⟩ : DmaSem sig)) () (owedN c n) :=
  mayWait_owedN c _ n (by omega) (fun j _ _ => by
    have h0 : lv ((c : Thread nD τ), SemLoc.dma (⟨i, hi⟩ : DmaSem sig)) () = 0 := by
      simp only [lv, kindOf]
      rw [dif_neg (show ¬ i < 16 by omega), dif_neg (show ¬ i < 32 by omega), dif_neg (show ¬ i < 48 by omega), dif_neg (show ¬ i < 64 by omega)]
    rw [h0]; unfold lvTal; split_ifs <;> omega)
theorem binv_ryN (K : Dev nD × Fin 65 → ℕ) (c : Dev nD) (k : Fin 16) :
    (bigSep Finset.univ fun k : Fin 16 => (cellInv ER (rsRd m) (K (ynb c, jry k)) (ryCell k (ynb c)) : sProp 𝕄)) ⊢ cellInv ER (rsRd m) (K (ynb c, jry k)) (ryCell k (ynb c)) :=
  bigSep_elim (Finset.mem_univ k)
theorem binv_rxN (K : Dev nD × Fin 65 → ℕ) (c : Dev nD) (k : Fin 16) :
    (bigSep Finset.univ fun k : Fin 16 => (cellInv ER (rsRd m) (K (xnb c, jrx k)) (rxCell k (xnb c)) : sProp 𝕄)) ⊢ cellInv ER (rsRd m) (K (xnb c, jrx k)) (rxCell k (xnb c)) :=
  bigSep_elim (Finset.mem_univ k)
omit [FloatOps F] in
theorem reach_at (cell : Fin 16 → GSem nD τ sig) (k : Fin 16) :
    (bigSep Finset.univ fun k : Fin 16 => (reached ER (cell k) 0 : sProp 𝕄)) ⊢ reached ER (cell k) 0 :=
  bigSep_elim (Finset.mem_univ k)
omit [FloatOps F] in
theorem sb_sub_sdiff {S : Finset S8192x1024.Idx} (j k : Fin 16) (h : j ≠ k) (hS : (sbM k).view.set ⊆ S) : (sbM k).view.set ⊆ S \ (sbM j).view.set := by
  rw [sbM_set k, sbM_set j]; rw [sbM_set k] at hS; exact chunk_sub_sdiff j k h hS
omit [FloatOps F] in
theorem ry_sub_sdiff {S : Finset S8192x1024.Idx} (j k : Fin 16) (h : j ≠ k) (hS : (ryM k).view.set ⊆ S) : (ryM k).view.set ⊆ S \ (ryM j).view.set := by
  rw [ryM_set k, ryM_set j]; rw [ryM_set k] at hS; exact chunk_sub_sdiff j k h hS
omit [FloatOps F] in
theorem rx_sub_sdiff {S : Finset S8192x1024.Idx} (j k : Fin 16) (h : j ≠ k) (hS : (rxM k).view.set ⊆ S) : (rxM k).view.set ⊆ S \ (rxM j).view.set := by
  rw [rxM_set k, rxM_set j]; rw [rxM_set k] at hS; exact chunk_sub_sdiff j k h hS
open Lean in
def rsErased (n : Nat) : MacroM Term := do
  let mut s ← `((Finset.univ : Finset (Fin 16)))
  for j in [0:n] do
    s ← `(Finset.erase $s ($(Syntax.mkNumLit (toString j)) : Fin 16))
  return s
open Lean in
def rsSub (lem : Ident) (n : Nat) : MacroM Term := do
  let kk := Syntax.mkNumLit (toString n)
  let mut p ← `(Finset.subset_univ _)
  for j in [0:n] do
    p ← `($lem ($(Syntax.mkNumLit (toString j)) : Fin 16) ($kk : Fin 16) (by decide) $p)
  return p
set_option hygiene false in
open Lean in
macro "rs_send_y " k:num n:num dv:ident dvlt:ident dveq:ident : tactic => do
  let kk := k.getNat
  let nm (s : String) := mkIdent (Name.mkSimple (s ++ "_" ++ toString kk))
  let er ← rsErased kk
  let sbs ← rsSub (mkIdent `sb_sub_sdiff) kk
  let rys ← rsSub (mkIdent `ry_sub_sdiff) kk
  `(tactic| (
    ihave Hcv := ((pointsTo_split_subset (I := (sbM $k).view.set) $sbs).1) $$ Hsb
    icases Hcv with ⟨Hs_c, Hsb⟩
    ihave Hcv := ((pointsTo_split_subset (I := (ryM $k).view.set) $rys).1) $$ Hyb
    icases Hcv with ⟨Hy_c, Hyb⟩
    ihave #HIsy_c := (binv m K c (jsy $k) (kcell_sy c $k)) $$ HIown
    ihave #HIryN_c := (binv_ryN m K c $k) $$ HIry
    ihave #HrSy_c := (reach_at (F := F) (fun k => syCell k c) $k) $$ HrSy
    ihave #HrRyN_c := (reach_at (F := F) (fun k => ryCell k (ynb c)) $k) $$ HrRyN
    ihave Hb := (Entails.of_eq (bigSep_take (i := ($k : Fin 16)) (s := $er) (by decide) _)) $$ HtSy
    icases Hb with ⟨HtSy_c, HtSy⟩
    ihave Hb := (Entails.of_eq (bigSep_take (i := ($k : Fin 16)) (s := $er) (by decide) _)) $$ HtRy
    icases Hb with ⟨HtRy_c, HtRy⟩
    iapply (step_sendY m c $k $n rfl ⟨$dv c, $dvlt c⟩ (Fin.ext ($dveq c)) _ _ ?_) $$ [Hs_c Hy_c HO HtSy_c HtRy_c]
    rotate_left
    · sl_close
    rotate_left
    · refine (sb_read_head (F := F) $k _ _ _ _).trans ?_
      unfold sentY
      refine (congrArg (toSend (F := F)) ?_ : toSend (F := F) _ = toSend (F := F) _)
      sl_unfold_run_names
      repeat (first
        | exact ld_read_same _ _ _ _
        | refine (ld_read_other _ _ _ _ (by decide) _ _).trans ?_)
    iintro ⟨$(nm "HcSy"):ident, HO⟩
    iclear HIsy_c HIryN_c HrSy_c HrRyN_c))
def RSFact (p : Prop) : Prop := p
theorem RSFact.get {p : Prop} (h : RSFact p) : p := h
theorem RSFact.mk {p : Prop} (h : p) : RSFact p := h
macro "rs_hd" : tactic => `(tactic| (
  have hlt : (‹Dev nD› : Dev nD).val < 4 := Fin.isLt _
  simp only [row_lits, k0_off4_eq, k0_off5_eq, Matrix.cons_val_zero]
  omega))
macro "rs_ld" : tactic => `(tactic| (
  repeat (first
    | exact ld_read_same _ _ _ _
    | refine (ld_read_other _ _ _ _ (by decide) _ _).trans ?_)))
open Lean Elab Tactic Meta in
elab "rs_fact" : tactic => withMainContext do
  let g ← getMainGoal
  let t ← instantiateMVars (← g.getType)
  let some (_, _, rhs) := t.eq? | throwError "rs_fact: the goal is not an equation"
  let rhs := rhs.headBeta
  unless rhs.isApp do throwError "rs_fact: the right side is not an application"
  let kG := rhs.appArg!
  let fG := rhs.appFn!
  for d in (← getLCtx) do
    if d.isImplementationDetail then continue
    let ty ← instantiateMVars d.type
    unless ty.isAppOfArity ``Cert.Kernel.RS.RSFact 1 do continue
    let some (_, _, r) := ty.appArg!.eq? | continue
    unless r.isApp do continue
    if r.appFn! == fG then
      if ← isDefEq r.appArg! kG then
        let pr ← mkAppM ``Cert.Kernel.RS.RSFact.get #[d.toExpr]
        let prTy ← inferType pr
        if ← isDefEq prTy t then
          g.assign pr
          replaceMainGoal []
          return
  throwError "rs_fact: no kept fact matches {rhs}"
open Lean Elab Tactic Meta in
def isRunName (n : Name) : Bool := n.components.dropLast.any (· == `sl)
open Lean Elab Tactic Meta in
partial def openPath (e : Expr) : MetaM Expr := do
  let e := e.headBeta
  let f := e.getAppFn
  if let .const n _ := f then
    if isRunName n then
      if let some e' ← delta? e then return ← openPath e'
      return e
    let args := e.getAppArgs
    let k := args.size
    if n == ``Idealize.ShloMosaic.ReadAs.apply && k ≥ 1 then
      let e' ← whnfR e
      if e' != e then return ← openPath e'
      return e
    if (n == ``Idealize.ShloMosaic.View.read || n == ``Idealize.ShloMosaic.View.writes || n == ``Sigma.mk) && k ≥ 1 then
      return mkAppN f (args.set! (k - 1) (← openPath args[k - 1]!))
    if n == ``List.cons && k == 3 then
      return mkAppN f (args.set! 1 (← openPath args[1]!))
  return e
open Lean Elab Tactic Meta in
elab "rs_open" : tactic => withMainContext do
  let g ← getMainGoal
  let t ← instantiateMVars (← g.getType)
  let some (α, lhs, rhs) := t.eq? | throwError "rs_open: the goal is not an equation"
  let lhs' ← openPath lhs
  replaceMainGoal [← g.replaceTargetDefEq (← mkEq lhs' rhs)]
macro "rs_out" : tactic => `(tactic| (
  try beta_reduce
  rs_open
  repeat (refine (out_read_other _ _ _ _ ?_ _ _).trans ?_; (· rs_hd); rs_open)
  refine (out_read_same _ _ _ _).trans ?_
  rs_open
  refine (ob_read_head _ _ _ _ _ _).trans ?_
  refine congrArg₂ (foldOut (F := F)) ?_ ?_
  · rs_open
    rs_ld
  · rs_fact))
theorem prog_ret_bind {E : Type → Type} {α β : Type} (a : α) (k : α → Prog E β) : (Prog.ret a : Prog E α).bind k = k a := rfl
set_option hygiene false in
open Lean in
macro "rs_fwd " k:num n:num n':num dv:ident dvlt:ident dveq:ident : tactic => do
  let kk := k.getNat
  let nm (s : String) := mkIdent (Name.mkSimple (s ++ "_" ++ toString kk))
  let er ← rsErased kk
  let rxs ← rsSub (mkIdent `rx_sub_sdiff) kk
  `(tactic| (
    ihave #HI_c := (binv m K c (jry $k) (kcell_ry c $k)) $$ HIown
    ihave Hb := (Entails.of_eq (bigSep_take (i := ($k : Fin 16)) (s := $er) (by decide) _)) $$ HcRy
    icases Hb with ⟨Hc_c, HcRy⟩
    ihave Hb := (Entails.of_eq (bigSep_take (i := ($k : Fin 16)) (s := $er) (by decide) _)) $$ HaRy
    icases Hb with ⟨Ha_c, HaRy⟩
    iapply (step_wait m c (κ' := .tc) (dst := ryM $k) (ryS $k) _ $n (duties_ry m c $k) (amount_ry m c $k 0 false) (payload_ry m c $k false) (lev_ry c $k $n rfl) rfl (κ := K (c, jry $k))) $$ [Hc_c HO Ha_c]
    · sl_close
    iintro ⟨HO, $(nm "HaRy1"):ident, Hp⟩
    unfold ryPay pieceAt
    icases Hp with ⟨%fr, %$(nm "hry"):ident, Hr⟩
    ihave Hsh := ((pointsTo_share (PosShare.mem_left_op_right fullShare)).1) $$ Hr
    icases Hsh with ⟨HrL, $(nm "HryR"):ident⟩
    try sl_exec
    ihave Hcv := ((pointsTo_split_subset (I := (rxM $k).view.set) $rxs).1) $$ Hxb
    icases Hcv with ⟨Hx_c, Hxb⟩
    ihave #HIsx_c := (binv m K c (jsx $k) (kcell_sx c $k)) $$ HIown
    ihave #HIrxN_c := (binv_rxN m K c $k) $$ HIrx
    ihave #HrSx_c := (reach_at (F := F) (fun k => sxCell k c) $k) $$ HrSx
    ihave #HrRxN_c := (reach_at (F := F) (fun k => rxCell k (xnb c)) $k) $$ HrRxN
    ihave Hb := (Entails.of_eq (bigSep_take (i := ($k : Fin 16)) (s := $er) (by decide) _)) $$ HtSx
    icases Hb with ⟨HtSx_c, HtSx⟩
    ihave Hb := (Entails.of_eq (bigSep_take (i := ($k : Fin 16)) (s := $er) (by decide) _)) $$ HtRx
    icases Hb with ⟨HtRx_c, HtRx⟩
    iapply (step_sendX m c $k $n' rfl ⟨$dv c, $dvlt c⟩ (Fin.ext ($dveq c)) fr _ $(nm "hry"):ident) $$ [HrL Hx_c HO HtSx_c HtRx_c]
    · sl_close
    iintro ⟨$(nm "HcSx"):ident, HO⟩
    iclear HI_c HIsx_c HIrxN_c HrSx_c HrRxN_c
    replace $(nm "hry"):ident := RSFact.mk $(nm "hry"):ident
    try rw [prog_ret_bind]))
set_option hygiene false in
open Lean in
macro "rs_foldx " j:num n:num : tactic => do
  let jj := j.getNat
  let nm (s : String) := mkIdent (Name.mkSimple (s ++ "_" ++ toString jj))
  let er ← rsErased jj
  `(tactic| (
    ihave #HI_c := (binv m K c (jrx $j) (kcell_rx c $j)) $$ HIown
    ihave Hb := (Entails.of_eq (bigSep_take (i := ($j : Fin 16)) (s := $er) (by decide) _)) $$ HcRx
    icases Hb with ⟨Hc_c, HcRx⟩
    ihave Hb := (Entails.of_eq (bigSep_take (i := ($j : Fin 16)) (s := $er) (by decide) _)) $$ HaRx
    icases Hb with ⟨Ha_c, HaRx⟩
    iapply (step_wait m c (κ' := .tc) (dst := rxM $j) (rxS $j) _ $n (duties_rx m c $j) (amount_rx m c $j 0 false) (payload_rx m c $j false) (lev_rx c $j $n (by decide)) rfl (κ := K (c, jrx $j))) $$ [Hc_c HO Ha_c]
    · sl_close
    iintro ⟨HO, $(nm "HaRx1"):ident, Hp⟩
    unfold rxPay pieceAt
    icases Hp with ⟨%fq, %$(nm "hrx"):ident, $(nm "HrxW"):ident⟩
    replace $(nm "hrx"):ident := RSFact.mk $(nm "hrx"):ident
    iclear HI_c
    try rw [prog_ret_bind]))
set_option hygiene false in
open Lean in
macro "rs_wsend_y " k:num : tactic => do
  let kk := k.getNat
  let nm (s : String) := mkIdent (Name.mkSimple (s ++ "_" ++ toString kk))
  let er ← rsErased kk
  `(tactic| (
    ihave #HI_c := (binv m K c (jsy $k) (kcell_sy c $k)) $$ HIown
    ihave Hb := (Entails.of_eq (bigSep_take (i := ($k : Fin 16)) (s := $er) (by decide) _)) $$ HaSy
    icases Hb with ⟨Ha_c, HaSy⟩
    iapply (step_wait m c (κ' := .tc) (dst := sbM $k) (syS $k) _ 0 (duties_sy m c $k) (amount_sy m c $k 0 false) (payload_sy m c $k false) (lev_done c _) rfl (κ := K (c, jsy $k))) $$ [$(nm "HcSy"):ident HO Ha_c]
    · sl_close
    iintro ⟨HO, $(nm "HaSy1"):ident, $(nm "HsbP"):ident⟩
    iclear HI_c
    try rw [prog_ret_bind]))
set_option hygiene false in
open Lean in
macro "rs_wsend_x " k:num : tactic => do
  let kk := k.getNat
  let nm (s : String) := mkIdent (Name.mkSimple (s ++ "_" ++ toString kk))
  let er ← rsErased kk
  `(tactic| (
    ihave #HI_c := (binv m K c (jsx $k) (kcell_sx c $k)) $$ HIown
    ihave Hb := (Entails.of_eq (bigSep_take (i := ($k : Fin 16)) (s := $er) (by decide) _)) $$ HaSx
    icases Hb with ⟨Ha_c, HaSx⟩
    iapply (step_wait m c (κ' := .tc) (dst := ryM $k) (sxS $k) _ 0 (duties_sx m c $k) (amount_sx m c $k 0 false) (payload_sx m c $k false) (lev_done c _) rfl (κ := K (c, jsx $k))) $$ [$(nm "HcSx"):ident HO Ha_c]
    · sl_close
    iintro ⟨HO, $(nm "HaSx1"):ident, $(nm "HryL"):ident⟩
    iclear HI_c
    try rw [prog_ret_bind]))
set_option hygiene false in
macro "rs_disj" : tactic => `(tactic| (
  refine outWin_disj _ _ _ _ ?_
  have hc4 : c.val < 4 := c.isLt
  simp only [row_lits]
  omega))
set_option hygiene false in
open Lean in
macro "rs_wrap_y " k:num : tactic => do
  let nm (s : String) := mkIdent (Name.mkSimple (s ++ "_" ++ toString k.getNat))
  `(tactic| (
    ihave $(nm "HryR"):ident : (pieceAny (ryM $k) c fullShare.right : sProp 𝕄) $$ [$(nm "HryR"):ident]
    · unfold pieceAny; iexists _; iexact $(nm "HryR"):ident))
set_option hygiene false in
open Lean in
macro "rs_wrap_x " k:num : tactic => do
  let nm (s : String) := mkIdent (Name.mkSimple (s ++ "_" ++ toString k.getNat))
  `(tactic| (
    ihave $(nm "HrxW"):ident : (pieceAny (rxM $k) c fullShare : sProp 𝕄) $$ [$(nm "HrxW"):ident]
    · unfold pieceAny; iexists _; iexact $(nm "HrxW"):ident))
-- One device's body, from the invariant at entry with thirty-four payments owed to the invariant at exit with none.
set_option maxHeartbeats 40000000 in
set_option sl_exec.dmaWindow true in
set_option sl_exec.askDisjointFirst true in
set_option sl_exec.rejoinHeartbeats 400000 in
set_option sl_exec.stepHeartbeats 1000000 in
theorem body (c : Dev nD) : BodyStmt m c := by
  intro W
  have hmwL := mayWait_local (F := F) c
  unfold O₀ Φ₀ start hbm0 scratch ghost invs payToks creds bufAny
  rw [fam_roles c (fun g => atPos ER g 0 ∅ 0), fam_roles c (fun g => reached ER g 0)]
  iintro ⟨⟨⟨⟨%K, ⟨#HIown, #HIby, #HIbx, #HIry, #HIrx⟩, ⟨HaB, HaSy, HaRy, HaSx, HaRx⟩, ⟨#HrB, #HrSy, #HrRy, #HrSx, #HrRx⟩, #HrBy, #HrBx,
      ⟨HtBy, HtBx, HtRy, HtRx, HtSy, HtSx⟩, Hld, Hst⟩, ⟨HcB, HcRy, HcRx⟩, #Hlev⟩,
    ⟨Hx, ⟨%o0, Hout⟩⟩, ⟨%f0, Hsb⟩, ⟨%f1, Hryb⟩, ⟨%f2, Hrxb⟩, ⟨%f3, Hldb⟩, ⟨%f4, Hob⟩⟩, HO⟩
  ihave Hx := (Entails.of_eq (whole_spell main_arg0 c fullShare (slab m c))) $$ Hx
  ihave Hout := (Entails.of_eq (whole_spell main_v1 c fullShare o0)) $$ Hout
  ihave Hsb := (Entails.of_eq (whole_spell cc0_scratch0 c fullShare f0)) $$ Hsb
  ihave Hldb := (Entails.of_eq (whole_spell cc0_scratch3 c fullShare f3)) $$ Hldb
  ihave Hob := (Entails.of_eq (whole_spell cc0_scratch4 c fullShare f4)) $$ Hob
  ihave Hxs := ((Transfers.pointsTo_toks_range (ℓ := (Memref.whole main_arg0).view.loc (c : Thread nD τ)) (S := Finset.univ) (f := slab m c) fullShare 68).1) $$ Hx
  icases Hxs with ⟨Hx, Hxt⟩
  ihave Hxs := (Entails.of_eq (bigSep_take (i := 64) (s := Finset.range 68) (by decide) _)) $$ Hxt
  icases Hxs with ⟨Hx64, Hxt⟩
  ihave Hxs := (Entails.of_eq (bigSep_take (i := 65) (s := (Finset.range 68).erase 64) (by decide) _)) $$ Hxt
  icases Hxs with ⟨Hx65, Hxt⟩
  ihave Hxs := (Entails.of_eq (bigSep_take (i := 66) (s := ((Finset.range 68).erase 64).erase 65) (by decide) _)) $$ Hxt
  icases Hxs with ⟨Hx66, Hxt⟩
  ihave Hxs := (Entails.of_eq (bigSep_take (i := 67) (s := (((Finset.range 68).erase 64).erase 65).erase 66) (by decide) _)) $$ Hxt
  icases Hxs with ⟨Hx67, Hxt⟩
  ihave Hs4 := (Entails.of_eq (fam4 (fun s : Fin 4 => (semVal ((c : Thread nD τ), SemLoc.dma (ldS s)) 0 : sProp 𝕄)))) $$ Hld
  icases Hs4 with ⟨Hl0, Hl1, Hl2, Hl3⟩
  ihave Hs4 := (Entails.of_eq (fam4 (fun s : Fin 4 => (semVal ((c : Thread nD τ), SemLoc.dma (stS s)) 0 : sProp 𝕄)))) $$ Hst
  icases Hs4 with ⟨Hst0, Hst1, Hst2, Hst3⟩
  unfold bodyAt0
  rw [cc0_body_eq_skeleton]; unfold cc0_body_skel
  sl_exec
  iapply (step_sigY m c ⟨k0_dev1 c, k0_dev1_lt c⟩ (Fin.ext (k0_dev1_eq c)) rfl (κ := K (ynb c, jbar))) $$ [HO HtBy Hryb]
  · sl_close
  iintro HO
  sl_exec
  iapply (step_sigX m c ⟨k0_dev2 c, k0_dev2_lt c⟩ (Fin.ext (k0_dev2_eq c)) rfl (κ := K (xnb c, jbar))) $$ [HO HtBx Hrxb]
  · sl_close
  iintro HO
  sl_exec
  ihave #HIB := (binv m K c jbar (g := barCell c) rfl) $$ HIown
  iapply (step_barwait m c rfl (κ := K (c, jbar))) $$ [HcB HO HaB]
  · sl_close
  iintro ⟨HO, HaB, HpY, HpX⟩
  unfold barPayY barPayX bufAny
  icases HpY with ⟨⟨%fy, Hyb⟩, #HrRyN⟩
  icases HpX with ⟨⟨%fx, Hxb⟩, #HrRxN⟩
  ihave Hyb := (Entails.of_eq (whole_spell cc0_scratch1 (ynb c) fullShare fy)) $$ Hyb
  ihave Hxb := (Entails.of_eq (whole_spell cc0_scratch2 (xnb c) fullShare fx)) $$ Hxb
  sl_exec
  rs_send_y 0 31 k0_dev3 k0_dev3_lt k0_dev3_eq
  sl_exec
  rs_send_y 1 30 k0_dev4 k0_dev4_lt k0_dev4_eq
  sl_exec
  rs_send_y 2 29 k0_dev5 k0_dev5_lt k0_dev5_eq
  sl_exec
  rs_send_y 3 28 k0_dev6 k0_dev6_lt k0_dev6_eq
  sl_exec
  rs_send_y 4 27 k0_dev7 k0_dev7_lt k0_dev7_eq
  sl_exec
  rs_send_y 5 26 k0_dev8 k0_dev8_lt k0_dev8_eq
  sl_exec
  rs_send_y 6 25 k0_dev9 k0_dev9_lt k0_dev9_eq
  sl_exec
  rs_send_y 7 24 k0_dev10 k0_dev10_lt k0_dev10_eq
  sl_exec
  rs_send_y 8 23 k0_dev11 k0_dev11_lt k0_dev11_eq
  sl_exec
  rs_send_y 9 22 k0_dev12 k0_dev12_lt k0_dev12_eq
  sl_exec
  rs_send_y 10 21 k0_dev13 k0_dev13_lt k0_dev13_eq
  sl_exec
  rs_send_y 11 20 k0_dev14 k0_dev14_lt k0_dev14_eq
  sl_exec
  rs_send_y 12 19 k0_dev15 k0_dev15_lt k0_dev15_eq
  sl_exec
  rs_send_y 13 18 k0_dev16 k0_dev16_lt k0_dev16_eq
  sl_exec
  rs_send_y 14 17 k0_dev17 k0_dev17_lt k0_dev17_eq
  sl_exec
  rs_send_y 15 16 k0_dev18 k0_dev18_lt k0_dev18_eq
  sl_exec
  rs_fwd 0 16 15 k0_dev19 k0_dev19_lt k0_dev19_eq
  sl_exec (disch := rs_disj)
  rs_fwd 1 15 14 k0_dev20 k0_dev20_lt k0_dev20_eq
  sl_exec (disch := rs_disj)
  rs_foldx 0 14
  sl_exec (disch := rs_disj)
  rs_fwd 2 14 13 k0_dev21 k0_dev21_lt k0_dev21_eq
  sl_exec (disch := rs_disj)
  rs_foldx 1 13
  sl_exec (disch := rs_disj)
  rs_fwd 3 13 12 k0_dev22 k0_dev22_lt k0_dev22_eq
  sl_exec (disch := rs_disj)
  rs_foldx 2 12
  sl_exec (disch := rs_disj)
  rs_fwd 4 12 11 k0_dev23 k0_dev23_lt k0_dev23_eq
  sl_exec (disch := rs_disj)
  rs_foldx 3 11
  sl_exec (disch := rs_disj)
  rs_fwd 5 11 10 k0_dev24 k0_dev24_lt k0_dev24_eq
  sl_exec (disch := rs_disj)
  rs_foldx 4 10
  sl_exec (disch := rs_disj)
  rs_fwd 6 10 9 k0_dev25 k0_dev25_lt k0_dev25_eq
  sl_exec (disch := rs_disj)
  rs_foldx 5 9
  sl_exec (disch := rs_disj)
  rs_fwd 7 9 8 k0_dev26 k0_dev26_lt k0_dev26_eq
  sl_exec (disch := rs_disj)
  rs_foldx 6 8
  sl_exec (disch := rs_disj)
  rs_fwd 8 8 7 k0_dev27 k0_dev27_lt k0_dev27_eq
  sl_exec (disch := rs_disj)
  rs_foldx 7 7
  sl_exec (disch := rs_disj)
  rs_fwd 9 7 6 k0_dev28 k0_dev28_lt k0_dev28_eq
  sl_exec (disch := rs_disj)
  rs_foldx 8 6
  sl_exec (disch := rs_disj)
  rs_fwd 10 6 5 k0_dev29 k0_dev29_lt k0_dev29_eq
  sl_exec (disch := rs_disj)
  rs_foldx 9 5
  sl_exec (disch := rs_disj)
  rs_fwd 11 5 4 k0_dev30 k0_dev30_lt k0_dev30_eq
  sl_exec (disch := rs_disj)
  rs_foldx 10 4
  sl_exec (disch := rs_disj)
  rs_fwd 12 4 3 k0_dev31 k0_dev31_lt k0_dev31_eq
  sl_exec (disch := rs_disj)
  rs_foldx 11 3
  sl_exec (disch := rs_disj)
  rs_fwd 13 3 2 k0_dev32 k0_dev32_lt k0_dev32_eq
  sl_exec (disch := rs_disj)
  rs_foldx 12 2
  sl_exec (disch := rs_disj)
  rs_fwd 14 2 1 k0_dev33 k0_dev33_lt k0_dev33_eq
  sl_exec (disch := rs_disj)
  rs_foldx 13 1
  sl_exec (disch := rs_disj)
  rs_fwd 15 1 0 k0_dev34 k0_dev34_lt k0_dev34_eq
  sl_exec (disch := rs_disj)
  rs_foldx 14 0
  sl_exec (disch := rs_disj)
  rs_foldx 15 0
  sl_exec (disch := rs_disj)
  rs_wsend_y 0
  try sl_exec
  rs_wsend_x 0
  try sl_exec
  rs_wsend_y 1
  try sl_exec
  rs_wsend_x 1
  try sl_exec
  rs_wsend_y 2
  try sl_exec
  rs_wsend_x 2
  try sl_exec
  rs_wsend_y 3
  try sl_exec
  rs_wsend_x 3
  try sl_exec
  rs_wsend_y 4
  try sl_exec
  rs_wsend_x 4
  try sl_exec
  rs_wsend_y 5
  try sl_exec
  rs_wsend_x 5
  try sl_exec
  rs_wsend_y 6
  try sl_exec
  rs_wsend_x 6
  try sl_exec
  rs_wsend_y 7
  try sl_exec
  rs_wsend_x 7
  try sl_exec
  rs_wsend_y 8
  try sl_exec
  rs_wsend_x 8
  try sl_exec
  rs_wsend_y 9
  try sl_exec
  rs_wsend_x 9
  try sl_exec
  rs_wsend_y 10
  try sl_exec
  rs_wsend_x 10
  try sl_exec
  rs_wsend_y 11
  try sl_exec
  rs_wsend_x 11
  try sl_exec
  rs_wsend_y 12
  try sl_exec
  rs_wsend_x 12
  try sl_exec
  rs_wsend_y 13
  try sl_exec
  rs_wsend_x 13
  try sl_exec
  rs_wsend_y 14
  try sl_exec
  rs_wsend_x 14
  try sl_exec
  rs_wsend_y 15
  try sl_exec
  rs_wsend_x 15
  sl_exec (disch := rs_disj)
  unfold syPay sxPay
  rs_wrap_y 0
  rs_wrap_x 0
  rs_wrap_y 1
  rs_wrap_x 1
  rs_wrap_y 2
  rs_wrap_x 2
  rs_wrap_y 3
  rs_wrap_x 3
  rs_wrap_y 4
  rs_wrap_x 4
  rs_wrap_y 5
  rs_wrap_x 5
  rs_wrap_y 6
  rs_wrap_x 6
  rs_wrap_y 7
  rs_wrap_x 7
  rs_wrap_y 8
  rs_wrap_x 8
  rs_wrap_y 9
  rs_wrap_x 9
  rs_wrap_y 10
  rs_wrap_x 10
  rs_wrap_y 11
  rs_wrap_x 11
  rs_wrap_y 12
  rs_wrap_x 12
  rs_wrap_y 13
  rs_wrap_x 13
  rs_wrap_y 14
  rs_wrap_x 14
  rs_wrap_y 15
  rs_wrap_x 15
  ihave HBsb := (Entails.of_eq (fam16 (fun k : Fin 16 => (pieceAny (sbM k) c fullShare : sProp 𝕄))).symm) $$ [HsbP_0 HsbP_1 HsbP_2 HsbP_3 HsbP_4 HsbP_5 HsbP_6 HsbP_7 HsbP_8 HsbP_9 HsbP_10 HsbP_11 HsbP_12 HsbP_13 HsbP_14 HsbP_15]
  · sl_close
  ihave HBry := (Entails.of_eq (fam16 (fun k : Fin 16 => (iprop(pieceAny (ryM k) c fullShare.left ∗ pieceAny (ryM k) c fullShare.right) : sProp 𝕄))).symm) $$ [HryL_0 HryL_1 HryL_2 HryL_3 HryL_4 HryL_5 HryL_6 HryL_7 HryL_8 HryL_9 HryL_10 HryL_11 HryL_12 HryL_13 HryL_14 HryL_15 HryR_0 HryR_1 HryR_2 HryR_3 HryR_4 HryR_5 HryR_6 HryR_7 HryR_8 HryR_9 HryR_10 HryR_11 HryR_12 HryR_13 HryR_14 HryR_15]
  · sl_close
  ihave HBrx := (Entails.of_eq (fam16 (fun k : Fin 16 => (pieceAny (rxM k) c fullShare : sProp 𝕄))).symm) $$ [HrxW_0 HrxW_1 HrxW_2 HrxW_3 HrxW_4 HrxW_5 HrxW_6 HrxW_7 HrxW_8 HrxW_9 HrxW_10 HrxW_11 HrxW_12 HrxW_13 HrxW_14 HrxW_15]
  · sl_close
  ihave HS0 := (join_sb (F := F) c) $$ HBsb
  ihave HS1 := (join_ry (F := F) c) $$ HBry
  ihave HS2 := (join_rx (F := F) c) $$ HBrx
  ihave HAsy := (Entails.of_eq (fam16 (fun k : Fin 16 => (atPos ER (syCell k c) 1 ∅ 0 : sProp 𝕄))).symm) $$ [HaSy1_0 HaSy1_1 HaSy1_2 HaSy1_3 HaSy1_4 HaSy1_5 HaSy1_6 HaSy1_7 HaSy1_8 HaSy1_9 HaSy1_10 HaSy1_11 HaSy1_12 HaSy1_13 HaSy1_14 HaSy1_15]
  · sl_close
  ihave HAry := (Entails.of_eq (fam16 (fun k : Fin 16 => (atPos ER (ryCell k c) 1 ∅ 0 : sProp 𝕄))).symm) $$ [HaRy1_0 HaRy1_1 HaRy1_2 HaRy1_3 HaRy1_4 HaRy1_5 HaRy1_6 HaRy1_7 HaRy1_8 HaRy1_9 HaRy1_10 HaRy1_11 HaRy1_12 HaRy1_13 HaRy1_14 HaRy1_15]
  · sl_close
  ihave HAsx := (Entails.of_eq (fam16 (fun k : Fin 16 => (atPos ER (sxCell k c) 1 ∅ 0 : sProp 𝕄))).symm) $$ [HaSx1_0 HaSx1_1 HaSx1_2 HaSx1_3 HaSx1_4 HaSx1_5 HaSx1_6 HaSx1_7 HaSx1_8 HaSx1_9 HaSx1_10 HaSx1_11 HaSx1_12 HaSx1_13 HaSx1_14 HaSx1_15]
  · sl_close
  ihave HArx := (Entails.of_eq (fam16 (fun k : Fin 16 => (atPos ER (rxCell k c) 1 ∅ 0 : sProp 𝕄))).symm) $$ [HaRx1_0 HaRx1_1 HaRx1_2 HaRx1_3 HaRx1_4 HaRx1_5 HaRx1_6 HaRx1_7 HaRx1_8 HaRx1_9 HaRx1_10 HaRx1_11 HaRx1_12 HaRx1_13 HaRx1_14 HaRx1_15]
  · sl_close
  rw [wp_ret]
  imod (exit_cells m c K) $$ [HAsy HAry HAsx HArx] with ⟨HSsy, HSry, HSsx, HSrx⟩
  · sl_close
  ihave HLd := (Entails.of_eq (fam4 (fun s : Fin 4 => (semVal ((c : Thread nD τ), SemLoc.dma (ldS s)) 0 : sProp 𝕄))).symm) $$ [Hl0 Hl1 Hl2 Hl3]
  · sl_close
  ihave HSt := (Entails.of_eq (fam4 (fun s : Fin 4 => (semVal ((c : Thread nD τ), SemLoc.dma (stS s)) 0 : sProp 𝕄))).symm) $$ [Hst0 Hst1 Hst2 Hst3]
  · sl_close
  ihave HSems := (Entails.of_eq (sems72 (F := F) c).symm) $$ [HSsy HSry HSsx HSrx HLd HSt]
  · sl_close
  ihave Hxt := (Entails.of_eq (bigSep_take (i := 67) (s := (((Finset.range 68).erase 64).erase 65).erase 66) (by decide) (fun i => ((Memref.whole main_arg0).view.loc (c : Thread nD τ) ↦{Transfers.shareTokN fullShare i} slab m c : sProp 𝕄))).symm) $$ [Hx67 Hxt]
  · sl_close
  ihave Hxt := (Entails.of_eq (bigSep_take (i := 66) (s := ((Finset.range 68).erase 64).erase 65) (by decide) (fun i => ((Memref.whole main_arg0).view.loc (c : Thread nD τ) ↦{Transfers.shareTokN fullShare i} slab m c : sProp 𝕄))).symm) $$ [Hx66 Hxt]
  · sl_close
  ihave Hxt := (Entails.of_eq (bigSep_take (i := 65) (s := (Finset.range 68).erase 64) (by decide) (fun i => ((Memref.whole main_arg0).view.loc (c : Thread nD τ) ↦{Transfers.shareTokN fullShare i} slab m c : sProp 𝕄))).symm) $$ [Hx65 Hxt]
  · sl_close
  ihave Hxt := (Entails.of_eq (bigSep_take (i := 64) (s := Finset.range 68) (by decide) (fun i => ((Memref.whole main_arg0).view.loc (c : Thread nD τ) ↦{Transfers.shareTokN fullShare i} slab m c : sProp 𝕄))).symm) $$ [Hx64 Hxt]
  · sl_close
  ihave Hx := ((Transfers.pointsTo_toks_range (ℓ := (Memref.whole main_arg0).view.loc (c : Thread nD τ)) (S := Finset.univ) (f := slab m c) fullShare 68).2) $$ [Hx Hxt]
  · sl_close
  imodintro
  unfold Φ₁ hbm1 scratch
  isplitr [HO]
  · isplitl [Hx Hout]
    · isplitl [Hx]
      · iexact Hx
      · iexists _
        isplitr
        rotate_left
        · iexact Hout
        · ipureintro
          refine ⟨fun k => ?_, fun k => ?_⟩ <;> fin_cases k <;> rs_out
    isplitl [HS0 HS1 HS2 Hldb Hob]
    · isplitl [HS0]; · iexact HS0
      isplitl [HS1]; · iexact HS1
      isplitl [HS2]; · iexact HS2
      isplitl [Hldb]
      · unfold bufAny; iexists _; iexact Hldb
      · unfold bufAny; iexists _; iexact Hob
    iexact HSems
  · iexists _; iexact HO
end Cert.Kernel.RS
end
-- ==== Proof.AssembleBits.lean ====
import proofs.«900302_g7700000000000303_dist_rs_v7x_xy2x2_y_m16384_n1024_bf16_1_alg».proof.Defs
import proofs.«900302_g7700000000000303_dist_rs_v7x_xy2x2_y_m16384_n1024_bf16_1_alg».proof.Proof.Bits.Launch
import proofs.«900302_g7700000000000303_dist_rs_v7x_xy2x2_y_m16384_n1024_bf16_1_alg».proof.Proof.Bits.Body
import proofs.«900302_g7700000000000303_dist_rs_v7x_xy2x2_y_m16384_n1024_bf16_1_alg».proof.Proof.Gen.Pre_finite_inputs_Kernel
noncomputable section
namespace Cert.Kernel.RS
open Idealize.ShloMosaic
theorem frame_k : Cert.frame_Kernel := fun m ρ _ =>
  (θ_run _ _ _).mono (fun _ h c => (h c).1) (Cert.Kernel.RS.run_main m ρ (fun c => Cert.Kernel.RS.body m c))
end Cert.Kernel.RS
end
-- ==== Proof.lean ====
/-
  Device c of the 2×2 mesh holds the slab X[c % 2] of X : f32[2, 16384, 2048] and must end with column block c % 2 of X[0] + X[1].
  Each entry of its result is its own slab's entry plus the other slab's entry, which reaches it from its y-neighbour directly or
  through its x-neighbour; conversions between float formats are the identity over the extended reals and addition commutes.
  Waits cannot form a cycle: every cell has a level, and a device waits only on cells below all those it still owes.
-/
import proofs.«900302_g7700000000000303_dist_rs_v7x_xy2x2_y_m16384_n1024_bf16_1_alg».proof.Defs
import proofs.«900302_g7700000000000303_dist_rs_v7x_xy2x2_y_m16384_n1024_bf16_1_alg».proof.Proof.Gen.Kernel
import proofs.«900302_g7700000000000303_dist_rs_v7x_xy2x2_y_m16384_n1024_bf16_1_alg».proof.Proof.Gen.Kernel.Skeleton
import proofs.«900302_g7700000000000303_dist_rs_v7x_xy2x2_y_m16384_n1024_bf16_1_alg».proof.Proof.Gen.Kernel.Launch
import proofs.«900302_g7700000000000303_dist_rs_v7x_xy2x2_y_m16384_n1024_bf16_1_alg».proof.Proof.Gen.Kernel.Points
import proofs.«900302_g7700000000000303_dist_rs_v7x_xy2x2_y_m16384_n1024_bf16_1_alg».proof.Proof.Gen.Kernel.Frame
import proofs.«900302_g7700000000000303_dist_rs_v7x_xy2x2_y_m16384_n1024_bf16_1_alg».proof.Proof.Gen.KernelIdeal
import proofs.«900302_g7700000000000303_dist_rs_v7x_xy2x2_y_m16384_n1024_bf16_1_alg».proof.Proof.Gen.KernelIdeal.Skeleton
import proofs.«900302_g7700000000000303_dist_rs_v7x_xy2x2_y_m16384_n1024_bf16_1_alg».proof.Proof.Gen.KernelIdeal.Launch
import proofs.«900302_g7700000000000303_dist_rs_v7x_xy2x2_y_m16384_n1024_bf16_1_alg».proof.Proof.Gen.KernelIdeal.Points
import proofs.«900302_g7700000000000303_dist_rs_v7x_xy2x2_y_m16384_n1024_bf16_1_alg».proof.Proof.Gen.KernelIdeal.Frame
import proofs.«900302_g7700000000000303_dist_rs_v7x_xy2x2_y_m16384_n1024_bf16_1_alg».proof.Proof.Gen.ReferenceIdeal
import proofs.«900302_g7700000000000303_dist_rs_v7x_xy2x2_y_m16384_n1024_bf16_1_alg».proof.Proof.Gen.Pre_finite_inputs_Kernel
import proofs.«900302_g7700000000000303_dist_rs_v7x_xy2x2_y_m16384_n1024_bf16_1_alg».proof.Proof.Gen.Pre_finite_inputs_ReferenceIdeal
import proofs.«900302_g7700000000000303_dist_rs_v7x_xy2x2_y_m16384_n1024_bf16_1_alg».proof.Proof.Assemble
import proofs.«900302_g7700000000000303_dist_rs_v7x_xy2x2_y_m16384_n1024_bf16_1_alg».proof.Proof.Body
import proofs.«900302_g7700000000000303_dist_rs_v7x_xy2x2_y_m16384_n1024_bf16_1_alg».proof.Proof.AssembleBits
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    Cert.Kernel.RS.frame_k,
    Cert.KernelIdeal.RS.frame_ki (fun m c => Cert.KernelIdeal.RS.body m c),
    Cert.KernelIdeal.RS.frame_ri,
    Cert.KernelIdeal.RS.preserves,
    Cert.KernelIdeal.RS.algebraic (fun m c => Cert.KernelIdeal.RS.body m c)⟩

end Cert.Proof

end
